-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 32768]⟩ (Layout.meshBlock [2, 2, 4] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x1024 : Shape := ⟨2, ![512, 1024]⟩
abbrev S1024x8192 : Shape := ⟨2, ![1024, 8192]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S512x1024 .f32) (main_arg1 : FVec F S1024x8192 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  main_v8
-- ==== Pre_finite_inputs_ReferenceIdeal.lean ====
abbrev S512x1024 : Shape := ⟨2, ![512, 1024]⟩
abbrev S1024x32768 : Shape := ⟨2, ![1024, 32768]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x32768 : S_.BroadcastsInDim S1024x32768 (![] : Fin 0 → Fin S1024x32768.rank)
  reducesTo_S1024x32768_S_d0_1 : S1024x32768.ReducesTo [0, 1] S_

variable [Facts]

def fn {F : FTy → Type} [FloatOps F] (main_arg0 : FVec F S512x1024 .f32) (main_arg1 : FVec F S1024x32768 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x32768 .f32 := Host.absf main_arg1
  let main_cst_0 : FVec F S_ .f32 := constant S_ .f32 0x7F800000#32
  let main_v5 : FVec F S1024x32768 .f32 := broadcastInDim S1024x32768 ![] bcast_S_S1024x32768 main_cst_0
  let main_v6 : IVec S1024x32768 1 := cmpf .olt main_v4 main_v5
  let main_c_1 : IVec S_ 1 := constantI S_ 1 1#1
  let main_v7 : IVec S_ 1 := (fun x v => Host.reduce IntOp.andi x v reducesTo_S1024x32768_S_d0_1 h_S_) main_v6 main_c_1
  let main_v8 : IVec S_ 1 := andi main_v3 main_v7
  main_v8
-- ==== Kernel.lean ====
abbrev S512x1024 : Shape := ⟨2, ![512, 1024]⟩
abbrev S1024x8192 : Shape := ⟨2, ![1024, 8192]⟩
abbrev S512x32768 : Shape := ⟨2, ![512, 32768]⟩
abbrev S4x512x8192 : Shape := ⟨3, ![4, 512, 8192]⟩
abbrev S2x1024x512 : Shape := ⟨3, ![2, 1024, 512]⟩
abbrev S2x512x2048 : Shape := ⟨3, ![2, 512, 2048]⟩
abbrev S11 : Shape := ⟨1, ![11]⟩
abbrev S2 : Shape := ⟨1, ![2]⟩
abbrev S_ : Shape := ⟨0, ![]⟩
abbrev S1 : Shape := ⟨1, ![1]⟩
abbrev S1x1024x512 : Shape := ⟨3, ![1, 1024, 512]⟩
abbrev S1024x512 : Shape := ⟨2, ![1024, 512]⟩
abbrev S512x1 : Shape := ⟨2, ![512, 1]⟩
abbrev S512x512 : Shape := ⟨2, ![512, 512]⟩
abbrev S1x512x512 : Shape := ⟨3, ![1, 512, 512]⟩
abbrev S512 : Shape := ⟨1, ![512]⟩
abbrev S1x512x1024 : Shape := ⟨3, ![1, 512, 1024]⟩
abbrev S1x512x8192 : Shape := ⟨3, ![1, 512, 8192]⟩
abbrev S512x8192 : Shape := ⟨2, ![512, 8192]⟩
abbrev S1x512x4096 : Shape := ⟨3, ![1, 512, 4096]⟩
abbrev S512x4096 : Shape := ⟨2, ![512, 4096]⟩
abbrev S512x2048 : Shape := ⟨2, ![512, 2048]⟩
abbrev S1x512x2048 : Shape := ⟨3, ![1, 512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x32768, .bf16⟩
  | .local _ .vmem, ⟨0, _⟩ => ⟨S512x1024, .f32⟩
  | .local _ .vmem, ⟨1, _⟩ => ⟨S4x512x8192, .bf16⟩
  | .local _ .vmem, ⟨2, _⟩ => ⟨S512x1024, .bf16⟩
  | .local _ .vmem, ⟨3, _⟩ => ⟨S2x1024x512, .f32⟩
  | .local _ .vmem, ⟨4, _⟩ => ⟨S2x512x2048, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_16 : BitVec 32 := 8#32
  let v32 : BitVec 32 := Scalar.muli v2 c8_i32_16
  let v33 : BitVec 32 := Scalar.addi c0_i32_17 v32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_18 : BitVec 32 := 4#32
  let v34 : BitVec 32 := Scalar.muli v5 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_19 : BitVec 32 := 1#32
  let v36 : BitVec 32 := Scalar.muli v19 c1_i32_19
  let v37 : BitVec 32 := Scalar.addi v35 v36
  v37.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v38 : BitVec 32 := Scalar.muli v2 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_24 : BitVec 32 := 1#32
  let v42 : BitVec 32 := Scalar.muli v30 c1_i32_24
  let v43 : BitVec 32 := Scalar.addi v41 v42
  v43.toNat
@[reducible] def k0_t1_loop : Scf.Loop 32 :=
  let c0_i32_40 : BitVec 32 := 0#32
  let c2_i32_41 : BitVec 32 := 2#32
  let v61 : BitVec 32 := Scalar.addi c0_i32_40 c2_i32_41
  let c1_i32_42 : BitVec 32 := 1#32
  ⟨c0_i32_40, v61, c1_i32_42⟩
def k0_off1 (k0_t1 : Fin k0_t1_loop.trips) : Fin 1 → Nat :=
  let c0_i32_40 : BitVec 32 := 0#32
  let c1_i32_42 : BitVec 32 := 1#32
  let arg11 : BitVec 32 := Scf.iv c0_i32_40 c1_i32_42 k0_t1
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off2 (k0_t1 : Fin k0_t1_loop.trips) : Fin 3 → Nat :=
  let c0_i32_40 : BitVec 32 := 0#32
  let c1_i32_42 : BitVec 32 := 1#32
  let arg11 : BitVec 32 := Scf.iv c0_i32_40 c1_i32_42 k0_t1
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_462 : BitVec 32 := 0#32
  let c0_i32_463 : BitVec 32 := 0#32
  ![v465.toNat, 0, 0]
def k0_off3 (k0_t1 : Fin k0_t1_loop.trips) : Fin 2 → Nat :=
  let c0_i32_464 : BitVec 32 := 0#32
  let c0_i32_40 : BitVec 32 := 0#32
  let c1_i32_42 : BitVec 32 := 1#32
  let arg11 : BitVec 32 := Scf.iv c0_i32_40 c1_i32_42 k0_t1
  let c512_i32_461 : BitVec 32 := 512#32
  let v466 : BitVec 32 := Scalar.muli arg11 c512_i32_461
  ![0, v466.toNat]
def k0_off4 (k0_t1 : Fin k0_t1_loop.trips) : Fin 3 → Nat :=
  let c0_i32_40 : BitVec 32 := 0#32
  let c1_i32_42 : BitVec 32 := 1#32
  let arg11 : BitVec 32 := Scf.iv c0_i32_40 c1_i32_42 k0_t1
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let v472 : Index := Scalar.indexCast v465
  let c0_465 : Index := 0#32
  let c0_466 : Index := 0#32
  ![v472.toNat, 0, 0]
def k0_cond1 (k0_t1 : Fin k0_t1_loop.trips) : BitVec 1 :=
  let c0_i32_40 : BitVec 32 := 0#32
  let c1_i32_42 : BitVec 32 := 1#32
  let arg11 : BitVec 32 := Scf.iv c0_i32_40 c1_i32_42 k0_t1
  let c14_i32_470 : BitVec 32 := 14#32
  let v478 : BitVec 1 := Scalar.cmpi .slt arg11 c14_i32_470
  let v479 : BitVec 32 := Scalar.extui v478
  let c0_i32_471 : BitVec 32 := 0#32
  let v480 : BitVec 1 := Scalar.cmpi .ne v479 c0_i32_471
  v480

def k0_off5 (k0_t1 : Fin k0_t1_loop.trips) : Fin 1 → Nat :=
  let c0_i32_40 : BitVec 32 := 0#32
  let c1_i32_42 : BitVec 32 := 1#32
  let arg11 : BitVec 32 := Scf.iv c0_i32_40 c1_i32_42 k0_t1
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off6 (k0_t1 : Fin k0_t1_loop.trips) : Fin 3 → Nat :=
  let c0_i32_40 : BitVec 32 := 0#32
  let c1_i32_42 : BitVec 32 := 1#32
  let arg11 : BitVec 32 := Scf.iv c0_i32_40 c1_i32_42 k0_t1
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_478 : BitVec 32 := 0#32
  let c0_i32_479 : BitVec 32 := 0#32
  ![v465.toNat, 0, 0]
def k0_off7 (k0_t1 : Fin k0_t1_loop.trips) : Fin 2 → Nat :=
  let c0_i32_480 : BitVec 32 := 0#32
  let c0_i32_40 : BitVec 32 := 0#32
  let c1_i32_42 : BitVec 32 := 1#32
  let arg11 : BitVec 32 := Scf.iv c0_i32_40 c1_i32_42 k0_t1
  let c2_i32_476 : BitVec 32 := 2#32
  let v491 : BitVec 32 := Scalar.addi arg11 c2_i32_476
  let c512_i32_477 : BitVec 32 := 512#32
  let v492 : BitVec 32 := Scalar.muli v491 c512_i32_477
  ![0, v492.toNat]
def k0_off8 (k0_t1 : Fin k0_t1_loop.trips) : Fin 3 → Nat :=
  let c0_473 : Index := 0#32
  let c0_474 : Index := 0#32
  let c0_i32_40 : BitVec 32 := 0#32
  let c1_i32_42 : BitVec 32 := 1#32
  let arg11 : BitVec 32 := Scf.iv c0_i32_40 c1_i32_42 k0_t1
  let c512_i32_472 : BitVec 32 := 512#32
  let v483 : BitVec 32 := Scalar.muli arg11 c512_i32_472
  let v484 : Index := Scalar.indexCast v483
  ![0, 0, v484.toNat]
def k0_dev3 (d0 : Dev nD) : Nat :=
  let c0_i32_49 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_48 : BitVec 32 := 8#32
  let v63 : BitVec 32 := Scalar.muli v2 c8_i32_48
  let v64 : BitVec 32 := Scalar.addi c0_i32_49 v63
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_50 : BitVec 32 := 4#32
  let v65 : BitVec 32 := Scalar.muli v5 c4_i32_50
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_51 : BitVec 32 := 1#32
  let v67 : BitVec 32 := Scalar.muli v30 c1_i32_51
  let v68 : BitVec 32 := Scalar.addi v66 v67
  v68.toNat
@[reducible] def k0_t2_loop : Scf.Loop 32 :=
  let c2_i32_56 : BitVec 32 := 2#32
  let c2_i32_57 : BitVec 32 := 2#32
  let v77 : BitVec 32 := Scalar.addi c2_i32_56 c2_i32_57
  let c1_i32_58 : BitVec 32 := 1#32
  ⟨c2_i32_56, v77, c1_i32_58⟩
def k0_off9 (k0_t2 : Fin k0_t2_loop.trips) : Fin 1 → Nat :=
  let c2_i32_56 : BitVec 32 := 2#32
  let c1_i32_58 : BitVec 32 := 1#32
  let arg11 : BitVec 32 := Scf.iv c2_i32_56 c1_i32_58 k0_t2
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off10 (k0_t2 : Fin k0_t2_loop.trips) : Fin 3 → Nat :=
  let c2_i32_56 : BitVec 32 := 2#32
  let c1_i32_58 : BitVec 32 := 1#32
  let arg11 : BitVec 32 := Scf.iv c2_i32_56 c1_i32_58 k0_t2
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_462 : BitVec 32 := 0#32
  let c0_i32_463 : BitVec 32 := 0#32
  ![v465.toNat, 0, 0]
def k0_off11 (k0_t2 : Fin k0_t2_loop.trips) : Fin 2 → Nat :=
  let c0_i32_464 : BitVec 32 := 0#32
  let c2_i32_56 : BitVec 32 := 2#32
  let c1_i32_58 : BitVec 32 := 1#32
  let arg11 : BitVec 32 := Scf.iv c2_i32_56 c1_i32_58 k0_t2
  let c512_i32_461 : BitVec 32 := 512#32
  let v466 : BitVec 32 := Scalar.muli arg11 c512_i32_461
  ![0, v466.toNat]
def k0_off12 (k0_t2 : Fin k0_t2_loop.trips) : Fin 3 → Nat :=
  let c2_i32_56 : BitVec 32 := 2#32
  let c1_i32_58 : BitVec 32 := 1#32
  let arg11 : BitVec 32 := Scf.iv c2_i32_56 c1_i32_58 k0_t2
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let v472 : Index := Scalar.indexCast v465
  let c0_465 : Index := 0#32
  let c0_466 : Index := 0#32
  ![v472.toNat, 0, 0]
def k0_cond2 (k0_t2 : Fin k0_t2_loop.trips) : BitVec 1 :=
  let c2_i32_56 : BitVec 32 := 2#32
  let c1_i32_58 : BitVec 32 := 1#32
  let arg11 : BitVec 32 := Scf.iv c2_i32_56 c1_i32_58 k0_t2
  let c14_i32_470 : BitVec 32 := 14#32
  let v478 : BitVec 1 := Scalar.cmpi .slt arg11 c14_i32_470
  let v479 : BitVec 32 := Scalar.extui v478
  let c0_i32_471 : BitVec 32 := 0#32
  let v480 : BitVec 1 := Scalar.cmpi .ne v479 c0_i32_471
  v480

def k0_off13 (k0_t2 : Fin k0_t2_loop.trips) : Fin 1 → Nat :=
  let c2_i32_56 : BitVec 32 := 2#32
  let c1_i32_58 : BitVec 32 := 1#32
  let arg11 : BitVec 32 := Scf.iv c2_i32_56 c1_i32_58 k0_t2
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off14 (k0_t2 : Fin k0_t2_loop.trips) : Fin 3 → Nat :=
  let c2_i32_56 : BitVec 32 := 2#32
  let c1_i32_58 : BitVec 32 := 1#32
  let arg11 : BitVec 32 := Scf.iv c2_i32_56 c1_i32_58 k0_t2
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_478 : BitVec 32 := 0#32
  let c0_i32_479 : BitVec 32 := 0#32
  ![v465.toNat, 0, 0]
def k0_off15 (k0_t2 : Fin k0_t2_loop.trips) : Fin 2 → Nat :=
  let c0_i32_480 : BitVec 32 := 0#32
  let c2_i32_56 : BitVec 32 := 2#32
  let c1_i32_58 : BitVec 32 := 1#32
  let arg11 : BitVec 32 := Scf.iv c2_i32_56 c1_i32_58 k0_t2
  let c2_i32_476 : BitVec 32 := 2#32
  let v491 : BitVec 32 := Scalar.addi arg11 c2_i32_476
  let c512_i32_477 : BitVec 32 := 512#32
  let v492 : BitVec 32 := Scalar.muli v491 c512_i32_477
  ![0, v492.toNat]
def k0_off16 (k0_t2 : Fin k0_t2_loop.trips) : Fin 3 → Nat :=
  let c0_473 : Index := 0#32
  let c0_474 : Index := 0#32
  let c2_i32_56 : BitVec 32 := 2#32
  let c1_i32_58 : BitVec 32 := 1#32
  let arg11 : BitVec 32 := Scf.iv c2_i32_56 c1_i32_58 k0_t2
  let c512_i32_472 : BitVec 32 := 512#32
  let v483 : BitVec 32 := Scalar.muli arg11 c512_i32_472
  let v484 : Index := Scalar.indexCast v483
  ![0, 0, v484.toNat]
def k0_dev4 (d0 : Dev nD) : Nat :=
  let c0_i32_65 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_64 : BitVec 32 := 8#32
  let v79 : BitVec 32 := Scalar.muli v2 c8_i32_64
  let v80 : BitVec 32 := Scalar.addi c0_i32_65 v79
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_66 : BitVec 32 := 4#32
  let v81 : BitVec 32 := Scalar.muli v5 c4_i32_66
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_67 : BitVec 32 := 1#32
  let v83 : BitVec 32 := Scalar.muli v30 c1_i32_67
  let v84 : BitVec 32 := Scalar.addi v82 v83
  v84.toNat
@[reducible] def k0_t3_loop : Scf.Loop 32 :=
  let c4_i32_71 : BitVec 32 := 4#32
  let c2_i32_72 : BitVec 32 := 2#32
  let v93 : BitVec 32 := Scalar.addi c4_i32_71 c2_i32_72
  let c1_i32_73 : BitVec 32 := 1#32
  ⟨c4_i32_71, v93, c1_i32_73⟩
def k0_off17 (k0_t3 : Fin k0_t3_loop.trips) : Fin 1 → Nat :=
  let c4_i32_71 : BitVec 32 := 4#32
  let c1_i32_73 : BitVec 32 := 1#32
  let arg11 : BitVec 32 := Scf.iv c4_i32_71 c1_i32_73 k0_t3
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off18 (k0_t3 : Fin k0_t3_loop.trips) : Fin 3 → Nat :=
  let c4_i32_71 : BitVec 32 := 4#32
  let c1_i32_73 : BitVec 32 := 1#32
  let arg11 : BitVec 32 := Scf.iv c4_i32_71 c1_i32_73 k0_t3
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_462 : BitVec 32 := 0#32
  let c0_i32_463 : BitVec 32 := 0#32
  ![v465.toNat, 0, 0]
def k0_off19 (k0_t3 : Fin k0_t3_loop.trips) : Fin 2 → Nat :=
  let c0_i32_464 : BitVec 32 := 0#32
  let c4_i32_71 : BitVec 32 := 4#32
  let c1_i32_73 : BitVec 32 := 1#32
  let arg11 : BitVec 32 := Scf.iv c4_i32_71 c1_i32_73 k0_t3
  let c512_i32_461 : BitVec 32 := 512#32
  let v466 : BitVec 32 := Scalar.muli arg11 c512_i32_461
  ![0, v466.toNat]
def k0_off20 (k0_t3 : Fin k0_t3_loop.trips) : Fin 3 → Nat :=
  let c4_i32_71 : BitVec 32 := 4#32
  let c1_i32_73 : BitVec 32 := 1#32
  let arg11 : BitVec 32 := Scf.iv c4_i32_71 c1_i32_73 k0_t3
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let v472 : Index := Scalar.indexCast v465
  let c0_465 : Index := 0#32
  let c0_466 : Index := 0#32
  ![v472.toNat, 0, 0]
def k0_cond3 (k0_t3 : Fin k0_t3_loop.trips) : BitVec 1 :=
  let c4_i32_71 : BitVec 32 := 4#32
  let c1_i32_73 : BitVec 32 := 1#32
  let arg11 : BitVec 32 := Scf.iv c4_i32_71 c1_i32_73 k0_t3
  let c14_i32_470 : BitVec 32 := 14#32
  let v478 : BitVec 1 := Scalar.cmpi .slt arg11 c14_i32_470
  let v479 : BitVec 32 := Scalar.extui v478
  let c0_i32_471 : BitVec 32 := 0#32
  let v480 : BitVec 1 := Scalar.cmpi .ne v479 c0_i32_471
  v480

def k0_off21 (k0_t3 : Fin k0_t3_loop.trips) : Fin 1 → Nat :=
  let c4_i32_71 : BitVec 32 := 4#32
  let c1_i32_73 : BitVec 32 := 1#32
  let arg11 : BitVec 32 := Scf.iv c4_i32_71 c1_i32_73 k0_t3
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off22 (k0_t3 : Fin k0_t3_loop.trips) : Fin 3 → Nat :=
  let c4_i32_71 : BitVec 32 := 4#32
  let c1_i32_73 : BitVec 32 := 1#32
  let arg11 : BitVec 32 := Scf.iv c4_i32_71 c1_i32_73 k0_t3
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_478 : BitVec 32 := 0#32
  let c0_i32_479 : BitVec 32 := 0#32
  ![v465.toNat, 0, 0]
def k0_off23 (k0_t3 : Fin k0_t3_loop.trips) : Fin 2 → Nat :=
  let c0_i32_480 : BitVec 32 := 0#32
  let c4_i32_71 : BitVec 32 := 4#32
  let c1_i32_73 : BitVec 32 := 1#32
  let arg11 : BitVec 32 := Scf.iv c4_i32_71 c1_i32_73 k0_t3
  let c2_i32_476 : BitVec 32 := 2#32
  let v491 : BitVec 32 := Scalar.addi arg11 c2_i32_476
  let c512_i32_477 : BitVec 32 := 512#32
  let v492 : BitVec 32 := Scalar.muli v491 c512_i32_477
  ![0, v492.toNat]
def k0_off24 (k0_t3 : Fin k0_t3_loop.trips) : Fin 3 → Nat :=
  let c0_473 : Index := 0#32
  let c0_474 : Index := 0#32
  let c4_i32_71 : BitVec 32 := 4#32
  let c1_i32_73 : BitVec 32 := 1#32
  let arg11 : BitVec 32 := Scf.iv c4_i32_71 c1_i32_73 k0_t3
  let c512_i32_472 : BitVec 32 := 512#32
  let v483 : BitVec 32 := Scalar.muli arg11 c512_i32_472
  let v484 : Index := Scalar.indexCast v483
  ![0, 0, v484.toNat]
def k0_dev5 (d0 : Dev nD) : Nat :=
  let c0_i32_80 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_79 : BitVec 32 := 8#32
  let v95 : BitVec 32 := Scalar.muli v2 c8_i32_79
  let v96 : BitVec 32 := Scalar.addi c0_i32_80 v95
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_81 : BitVec 32 := 4#32
  let v97 : BitVec 32 := Scalar.muli v5 c4_i32_81
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_82 : BitVec 32 := 1#32
  let v99 : BitVec 32 := Scalar.muli v30 c1_i32_82
  let v100 : BitVec 32 := Scalar.addi v98 v99
  v100.toNat
@[reducible] def k0_t4_loop : Scf.Loop 32 :=
  let c6_i32 : BitVec 32 := 6#32
  let c2_i32_86 : BitVec 32 := 2#32
  let v109 : BitVec 32 := Scalar.addi c6_i32 c2_i32_86
  let c1_i32_87 : BitVec 32 := 1#32
  ⟨c6_i32, v109, c1_i32_87⟩
def k0_off25 (k0_t4 : Fin k0_t4_loop.trips) : Fin 1 → Nat :=
  let c6_i32 : BitVec 32 := 6#32
  let c1_i32_87 : BitVec 32 := 1#32
  let arg11 : BitVec 32 := Scf.iv c6_i32 c1_i32_87 k0_t4
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off26 (k0_t4 : Fin k0_t4_loop.trips) : Fin 3 → Nat :=
  let c6_i32 : BitVec 32 := 6#32
  let c1_i32_87 : BitVec 32 := 1#32
  let arg11 : BitVec 32 := Scf.iv c6_i32 c1_i32_87 k0_t4
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_462 : BitVec 32 := 0#32
  let c0_i32_463 : BitVec 32 := 0#32
  ![v465.toNat, 0, 0]
def k0_off27 (k0_t4 : Fin k0_t4_loop.trips) : Fin 2 → Nat :=
  let c0_i32_464 : BitVec 32 := 0#32
  let c6_i32 : BitVec 32 := 6#32
  let c1_i32_87 : BitVec 32 := 1#32
  let arg11 : BitVec 32 := Scf.iv c6_i32 c1_i32_87 k0_t4
  let c512_i32_461 : BitVec 32 := 512#32
  let v466 : BitVec 32 := Scalar.muli arg11 c512_i32_461
  ![0, v466.toNat]
def k0_off28 (k0_t4 : Fin k0_t4_loop.trips) : Fin 3 → Nat :=
  let c6_i32 : BitVec 32 := 6#32
  let c1_i32_87 : BitVec 32 := 1#32
  let arg11 : BitVec 32 := Scf.iv c6_i32 c1_i32_87 k0_t4
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let v472 : Index := Scalar.indexCast v465
  let c0_465 : Index := 0#32
  let c0_466 : Index := 0#32
  ![v472.toNat, 0, 0]
def k0_cond4 (k0_t4 : Fin k0_t4_loop.trips) : BitVec 1 :=
  let c6_i32 : BitVec 32 := 6#32
  let c1_i32_87 : BitVec 32 := 1#32
  let arg11 : BitVec 32 := Scf.iv c6_i32 c1_i32_87 k0_t4
  let c14_i32_470 : BitVec 32 := 14#32
  let v478 : BitVec 1 := Scalar.cmpi .slt arg11 c14_i32_470
  let v479 : BitVec 32 := Scalar.extui v478
  let c0_i32_471 : BitVec 32 := 0#32
  let v480 : BitVec 1 := Scalar.cmpi .ne v479 c0_i32_471
  v480

def k0_off29 (k0_t4 : Fin k0_t4_loop.trips) : Fin 1 → Nat :=
  let c6_i32 : BitVec 32 := 6#32
  let c1_i32_87 : BitVec 32 := 1#32
  let arg11 : BitVec 32 := Scf.iv c6_i32 c1_i32_87 k0_t4
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off30 (k0_t4 : Fin k0_t4_loop.trips) : Fin 3 → Nat :=
  let c6_i32 : BitVec 32 := 6#32
  let c1_i32_87 : BitVec 32 := 1#32
  let arg11 : BitVec 32 := Scf.iv c6_i32 c1_i32_87 k0_t4
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_478 : BitVec 32 := 0#32
  let c0_i32_479 : BitVec 32 := 0#32
  ![v465.toNat, 0, 0]
def k0_off31 (k0_t4 : Fin k0_t4_loop.trips) : Fin 2 → Nat :=
  let c0_i32_480 : BitVec 32 := 0#32
  let c6_i32 : BitVec 32 := 6#32
  let c1_i32_87 : BitVec 32 := 1#32
  let arg11 : BitVec 32 := Scf.iv c6_i32 c1_i32_87 k0_t4
  let c2_i32_476 : BitVec 32 := 2#32
  let v491 : BitVec 32 := Scalar.addi arg11 c2_i32_476
  let c512_i32_477 : BitVec 32 := 512#32
  let v492 : BitVec 32 := Scalar.muli v491 c512_i32_477
  ![0, v492.toNat]
def k0_off32 (k0_t4 : Fin k0_t4_loop.trips) : Fin 3 → Nat :=
  let c0_473 : Index := 0#32
  let c0_474 : Index := 0#32
  let c6_i32 : BitVec 32 := 6#32
  let c1_i32_87 : BitVec 32 := 1#32
  let arg11 : BitVec 32 := Scf.iv c6_i32 c1_i32_87 k0_t4
  let c512_i32_472 : BitVec 32 := 512#32
  let v483 : BitVec 32 := Scalar.muli arg11 c512_i32_472
  let v484 : Index := Scalar.indexCast v483
  ![0, 0, v484.toNat]
def k0_dev6 (d0 : Dev nD) : Nat :=
  let c0_i32_93 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_92 : BitVec 32 := 8#32
  let v111 : BitVec 32 := Scalar.muli v2 c8_i32_92
  let v112 : BitVec 32 := Scalar.addi c0_i32_93 v111
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_94 : BitVec 32 := 4#32
  let v113 : BitVec 32 := Scalar.muli v5 c4_i32_94
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_95 : BitVec 32 := 1#32
  let v115 : BitVec 32 := Scalar.muli v30 c1_i32_95
  let v116 : BitVec 32 := Scalar.addi v114 v115
  v116.toNat
@[reducible] def k0_t5_loop : Scf.Loop 32 :=
  let c8_i32_99 : BitVec 32 := 8#32
  let c2_i32_100 : BitVec 32 := 2#32
  let v125 : BitVec 32 := Scalar.addi c8_i32_99 c2_i32_100
  let c1_i32_101 : BitVec 32 := 1#32
  ⟨c8_i32_99, v125, c1_i32_101⟩
def k0_off33 (k0_t5 : Fin k0_t5_loop.trips) : Fin 1 → Nat :=
  let c8_i32_99 : BitVec 32 := 8#32
  let c1_i32_101 : BitVec 32 := 1#32
  let arg11 : BitVec 32 := Scf.iv c8_i32_99 c1_i32_101 k0_t5
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off34 (k0_t5 : Fin k0_t5_loop.trips) : Fin 3 → Nat :=
  let c8_i32_99 : BitVec 32 := 8#32
  let c1_i32_101 : BitVec 32 := 1#32
  let arg11 : BitVec 32 := Scf.iv c8_i32_99 c1_i32_101 k0_t5
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_462 : BitVec 32 := 0#32
  let c0_i32_463 : BitVec 32 := 0#32
  ![v465.toNat, 0, 0]
def k0_off35 (k0_t5 : Fin k0_t5_loop.trips) : Fin 2 → Nat :=
  let c0_i32_464 : BitVec 32 := 0#32
  let c8_i32_99 : BitVec 32 := 8#32
  let c1_i32_101 : BitVec 32 := 1#32
  let arg11 : BitVec 32 := Scf.iv c8_i32_99 c1_i32_101 k0_t5
  let c512_i32_461 : BitVec 32 := 512#32
  let v466 : BitVec 32 := Scalar.muli arg11 c512_i32_461
  ![0, v466.toNat]
def k0_off36 (k0_t5 : Fin k0_t5_loop.trips) : Fin 3 → Nat :=
  let c8_i32_99 : BitVec 32 := 8#32
  let c1_i32_101 : BitVec 32 := 1#32
  let arg11 : BitVec 32 := Scf.iv c8_i32_99 c1_i32_101 k0_t5
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let v472 : Index := Scalar.indexCast v465
  let c0_465 : Index := 0#32
  let c0_466 : Index := 0#32
  ![v472.toNat, 0, 0]
def k0_cond5 (k0_t5 : Fin k0_t5_loop.trips) : BitVec 1 :=
  let c8_i32_99 : BitVec 32 := 8#32
  let c1_i32_101 : BitVec 32 := 1#32
  let arg11 : BitVec 32 := Scf.iv c8_i32_99 c1_i32_101 k0_t5
  let c14_i32_470 : BitVec 32 := 14#32
  let v478 : BitVec 1 := Scalar.cmpi .slt arg11 c14_i32_470
  let v479 : BitVec 32 := Scalar.extui v478
  let c0_i32_471 : BitVec 32 := 0#32
  let v480 : BitVec 1 := Scalar.cmpi .ne v479 c0_i32_471
  v480

def k0_off37 (k0_t5 : Fin k0_t5_loop.trips) : Fin 1 → Nat :=
  let c8_i32_99 : BitVec 32 := 8#32
  let c1_i32_101 : BitVec 32 := 1#32
  let arg11 : BitVec 32 := Scf.iv c8_i32_99 c1_i32_101 k0_t5
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off38 (k0_t5 : Fin k0_t5_loop.trips) : Fin 3 → Nat :=
  let c8_i32_99 : BitVec 32 := 8#32
  let c1_i32_101 : BitVec 32 := 1#32
  let arg11 : BitVec 32 := Scf.iv c8_i32_99 c1_i32_101 k0_t5
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_478 : BitVec 32 := 0#32
  let c0_i32_479 : BitVec 32 := 0#32
  ![v465.toNat, 0, 0]
def k0_off39 (k0_t5 : Fin k0_t5_loop.trips) : Fin 2 → Nat :=
  let c0_i32_480 : BitVec 32 := 0#32
  let c8_i32_99 : BitVec 32 := 8#32
  let c1_i32_101 : BitVec 32 := 1#32
  let arg11 : BitVec 32 := Scf.iv c8_i32_99 c1_i32_101 k0_t5
  let c2_i32_476 : BitVec 32 := 2#32
  let v491 : BitVec 32 := Scalar.addi arg11 c2_i32_476
  let c512_i32_477 : BitVec 32 := 512#32
  let v492 : BitVec 32 := Scalar.muli v491 c512_i32_477
  ![0, v492.toNat]
def k0_off40 (k0_t5 : Fin k0_t5_loop.trips) : Fin 3 → Nat :=
  let c0_473 : Index := 0#32
  let c0_474 : Index := 0#32
  let c8_i32_99 : BitVec 32 := 8#32
  let c1_i32_101 : BitVec 32 := 1#32
  let arg11 : BitVec 32 := Scf.iv c8_i32_99 c1_i32_101 k0_t5
  let c512_i32_472 : BitVec 32 := 512#32
  let v483 : BitVec 32 := Scalar.muli arg11 c512_i32_472
  let v484 : Index := Scalar.indexCast v483
  ![0, 0, v484.toNat]
def k0_dev7 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v127 : BitVec 32 := Scalar.muli v2 c8_i32_107
  let v128 : BitVec 32 := Scalar.addi c0_i32_108 v127
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v129 : BitVec 32 := Scalar.muli v5 c4_i32_109
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_110 : BitVec 32 := 1#32
  let v131 : BitVec 32 := Scalar.muli v30 c1_i32_110
  let v132 : BitVec 32 := Scalar.addi v130 v131
  v132.toNat
@[reducible] def k0_t6_loop : Scf.Loop 32 :=
  let c10_i32 : BitVec 32 := 10#32
  let c2_i32_114 : BitVec 32 := 2#32
  let v141 : BitVec 32 := Scalar.addi c10_i32 c2_i32_114
  let c1_i32_115 : BitVec 32 := 1#32
  ⟨c10_i32, v141, c1_i32_115⟩
def k0_off41 (k0_t6 : Fin k0_t6_loop.trips) : Fin 1 → Nat :=
  let c10_i32 : BitVec 32 := 10#32
  let c1_i32_115 : BitVec 32 := 1#32
  let arg11 : BitVec 32 := Scf.iv c10_i32 c1_i32_115 k0_t6
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off42 (k0_t6 : Fin k0_t6_loop.trips) : Fin 3 → Nat :=
  let c10_i32 : BitVec 32 := 10#32
  let c1_i32_115 : BitVec 32 := 1#32
  let arg11 : BitVec 32 := Scf.iv c10_i32 c1_i32_115 k0_t6
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_462 : BitVec 32 := 0#32
  let c0_i32_463 : BitVec 32 := 0#32
  ![v465.toNat, 0, 0]
def k0_off43 (k0_t6 : Fin k0_t6_loop.trips) : Fin 2 → Nat :=
  let c0_i32_464 : BitVec 32 := 0#32
  let c10_i32 : BitVec 32 := 10#32
  let c1_i32_115 : BitVec 32 := 1#32
  let arg11 : BitVec 32 := Scf.iv c10_i32 c1_i32_115 k0_t6
  let c512_i32_461 : BitVec 32 := 512#32
  let v466 : BitVec 32 := Scalar.muli arg11 c512_i32_461
  ![0, v466.toNat]
def k0_off44 (k0_t6 : Fin k0_t6_loop.trips) : Fin 3 → Nat :=
  let c10_i32 : BitVec 32 := 10#32
  let c1_i32_115 : BitVec 32 := 1#32
  let arg11 : BitVec 32 := Scf.iv c10_i32 c1_i32_115 k0_t6
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let v472 : Index := Scalar.indexCast v465
  let c0_465 : Index := 0#32
  let c0_466 : Index := 0#32
  ![v472.toNat, 0, 0]
def k0_cond6 (k0_t6 : Fin k0_t6_loop.trips) : BitVec 1 :=
  let c10_i32 : BitVec 32 := 10#32
  let c1_i32_115 : BitVec 32 := 1#32
  let arg11 : BitVec 32 := Scf.iv c10_i32 c1_i32_115 k0_t6
  let c14_i32_470 : BitVec 32 := 14#32
  let v478 : BitVec 1 := Scalar.cmpi .slt arg11 c14_i32_470
  let v479 : BitVec 32 := Scalar.extui v478
  let c0_i32_471 : BitVec 32 := 0#32
  let v480 : BitVec 1 := Scalar.cmpi .ne v479 c0_i32_471
  v480

def k0_off45 (k0_t6 : Fin k0_t6_loop.trips) : Fin 1 → Nat :=
  let c10_i32 : BitVec 32 := 10#32
  let c1_i32_115 : BitVec 32 := 1#32
  let arg11 : BitVec 32 := Scf.iv c10_i32 c1_i32_115 k0_t6
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off46 (k0_t6 : Fin k0_t6_loop.trips) : Fin 3 → Nat :=
  let c10_i32 : BitVec 32 := 10#32
  let c1_i32_115 : BitVec 32 := 1#32
  let arg11 : BitVec 32 := Scf.iv c10_i32 c1_i32_115 k0_t6
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_478 : BitVec 32 := 0#32
  let c0_i32_479 : BitVec 32 := 0#32
  ![v465.toNat, 0, 0]
def k0_off47 (k0_t6 : Fin k0_t6_loop.trips) : Fin 2 → Nat :=
  let c0_i32_480 : BitVec 32 := 0#32
  let c10_i32 : BitVec 32 := 10#32
  let c1_i32_115 : BitVec 32 := 1#32
  let arg11 : BitVec 32 := Scf.iv c10_i32 c1_i32_115 k0_t6
  let c2_i32_476 : BitVec 32 := 2#32
  let v491 : BitVec 32 := Scalar.addi arg11 c2_i32_476
  let c512_i32_477 : BitVec 32 := 512#32
  let v492 : BitVec 32 := Scalar.muli v491 c512_i32_477
  ![0, v492.toNat]
def k0_off48 (k0_t6 : Fin k0_t6_loop.trips) : Fin 3 → Nat :=
  let c0_473 : Index := 0#32
  let c0_474 : Index := 0#32
  let c10_i32 : BitVec 32 := 10#32
  let c1_i32_115 : BitVec 32 := 1#32
  let arg11 : BitVec 32 := Scf.iv c10_i32 c1_i32_115 k0_t6
  let c512_i32_472 : BitVec 32 := 512#32
  let v483 : BitVec 32 := Scalar.muli arg11 c512_i32_472
  let v484 : Index := Scalar.indexCast v483
  ![0, 0, v484.toNat]
def k0_dev8 (d0 : Dev nD) : Nat :=
  let c0_i32_121 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_120 : BitVec 32 := 8#32
  let v143 : BitVec 32 := Scalar.muli v2 c8_i32_120
  let v144 : BitVec 32 := Scalar.addi c0_i32_121 v143
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_122 : BitVec 32 := 4#32
  let v145 : BitVec 32 := Scalar.muli v5 c4_i32_122
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_123 : BitVec 32 := 1#32
  let v147 : BitVec 32 := Scalar.muli v30 c1_i32_123
  let v148 : BitVec 32 := Scalar.addi v146 v147
  v148.toNat
@[reducible] def k0_t7_loop : Scf.Loop 32 :=
  let c12_i32 : BitVec 32 := 12#32
  let c2_i32_127 : BitVec 32 := 2#32
  let v157 : BitVec 32 := Scalar.addi c12_i32 c2_i32_127
  let c1_i32_128 : BitVec 32 := 1#32
  ⟨c12_i32, v157, c1_i32_128⟩
def k0_off49 (k0_t7 : Fin k0_t7_loop.trips) : Fin 1 → Nat :=
  let c12_i32 : BitVec 32 := 12#32
  let c1_i32_128 : BitVec 32 := 1#32
  let arg11 : BitVec 32 := Scf.iv c12_i32 c1_i32_128 k0_t7
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off50 (k0_t7 : Fin k0_t7_loop.trips) : Fin 3 → Nat :=
  let c12_i32 : BitVec 32 := 12#32
  let c1_i32_128 : BitVec 32 := 1#32
  let arg11 : BitVec 32 := Scf.iv c12_i32 c1_i32_128 k0_t7
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_462 : BitVec 32 := 0#32
  let c0_i32_463 : BitVec 32 := 0#32
  ![v465.toNat, 0, 0]
def k0_off51 (k0_t7 : Fin k0_t7_loop.trips) : Fin 2 → Nat :=
  let c0_i32_464 : BitVec 32 := 0#32
  let c12_i32 : BitVec 32 := 12#32
  let c1_i32_128 : BitVec 32 := 1#32
  let arg11 : BitVec 32 := Scf.iv c12_i32 c1_i32_128 k0_t7
  let c512_i32_461 : BitVec 32 := 512#32
  let v466 : BitVec 32 := Scalar.muli arg11 c512_i32_461
  ![0, v466.toNat]
def k0_off52 (k0_t7 : Fin k0_t7_loop.trips) : Fin 3 → Nat :=
  let c12_i32 : BitVec 32 := 12#32
  let c1_i32_128 : BitVec 32 := 1#32
  let arg11 : BitVec 32 := Scf.iv c12_i32 c1_i32_128 k0_t7
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let v472 : Index := Scalar.indexCast v465
  let c0_465 : Index := 0#32
  let c0_466 : Index := 0#32
  ![v472.toNat, 0, 0]
def k0_cond7 (k0_t7 : Fin k0_t7_loop.trips) : BitVec 1 :=
  let c12_i32 : BitVec 32 := 12#32
  let c1_i32_128 : BitVec 32 := 1#32
  let arg11 : BitVec 32 := Scf.iv c12_i32 c1_i32_128 k0_t7
  let c14_i32_470 : BitVec 32 := 14#32
  let v478 : BitVec 1 := Scalar.cmpi .slt arg11 c14_i32_470
  let v479 : BitVec 32 := Scalar.extui v478
  let c0_i32_471 : BitVec 32 := 0#32
  let v480 : BitVec 1 := Scalar.cmpi .ne v479 c0_i32_471
  v480

def k0_off53 (k0_t7 : Fin k0_t7_loop.trips) : Fin 1 → Nat :=
  let c12_i32 : BitVec 32 := 12#32
  let c1_i32_128 : BitVec 32 := 1#32
  let arg11 : BitVec 32 := Scf.iv c12_i32 c1_i32_128 k0_t7
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off54 (k0_t7 : Fin k0_t7_loop.trips) : Fin 3 → Nat :=
  let c12_i32 : BitVec 32 := 12#32
  let c1_i32_128 : BitVec 32 := 1#32
  let arg11 : BitVec 32 := Scf.iv c12_i32 c1_i32_128 k0_t7
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_478 : BitVec 32 := 0#32
  let c0_i32_479 : BitVec 32 := 0#32
  ![v465.toNat, 0, 0]
def k0_off55 (k0_t7 : Fin k0_t7_loop.trips) : Fin 2 → Nat :=
  let c0_i32_480 : BitVec 32 := 0#32
  let c12_i32 : BitVec 32 := 12#32
  let c1_i32_128 : BitVec 32 := 1#32
  let arg11 : BitVec 32 := Scf.iv c12_i32 c1_i32_128 k0_t7
  let c2_i32_476 : BitVec 32 := 2#32
  let v491 : BitVec 32 := Scalar.addi arg11 c2_i32_476
  let c512_i32_477 : BitVec 32 := 512#32
  let v492 : BitVec 32 := Scalar.muli v491 c512_i32_477
  ![0, v492.toNat]
def k0_off56 (k0_t7 : Fin k0_t7_loop.trips) : Fin 3 → Nat :=
  let c0_473 : Index := 0#32
  let c0_474 : Index := 0#32
  let c12_i32 : BitVec 32 := 12#32
  let c1_i32_128 : BitVec 32 := 1#32
  let arg11 : BitVec 32 := Scf.iv c12_i32 c1_i32_128 k0_t7
  let c512_i32_472 : BitVec 32 := 512#32
  let v483 : BitVec 32 := Scalar.muli arg11 c512_i32_472
  let v484 : Index := Scalar.indexCast v483
  ![0, 0, v484.toNat]
def k0_dev9 (d0 : Dev nD) : Nat :=
  let c0_i32_135 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_134 : BitVec 32 := 8#32
  let v159 : BitVec 32 := Scalar.muli v2 c8_i32_134
  let v160 : BitVec 32 := Scalar.addi c0_i32_135 v159
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_136 : BitVec 32 := 4#32
  let v161 : BitVec 32 := Scalar.muli v5 c4_i32_136
  let v162 : BitVec 32 := Scalar.addi v160 v161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_137 : BitVec 32 := 1#32
  let v163 : BitVec 32 := Scalar.muli v30 c1_i32_137
  let v164 : BitVec 32 := Scalar.addi v162 v163
  v164.toNat
@[reducible] def k0_t8_loop : Scf.Loop 32 :=
  let c14_i32 : BitVec 32 := 14#32
  let c2_i32_141 : BitVec 32 := 2#32
  let v173 : BitVec 32 := Scalar.addi c14_i32 c2_i32_141
  let c1_i32_142 : BitVec 32 := 1#32
  ⟨c14_i32, v173, c1_i32_142⟩
def k0_off57 (k0_t8 : Fin k0_t8_loop.trips) : Fin 1 → Nat :=
  let c14_i32 : BitVec 32 := 14#32
  let c1_i32_142 : BitVec 32 := 1#32
  let arg11 : BitVec 32 := Scf.iv c14_i32 c1_i32_142 k0_t8
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off58 (k0_t8 : Fin k0_t8_loop.trips) : Fin 3 → Nat :=
  let c14_i32 : BitVec 32 := 14#32
  let c1_i32_142 : BitVec 32 := 1#32
  let arg11 : BitVec 32 := Scf.iv c14_i32 c1_i32_142 k0_t8
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_462 : BitVec 32 := 0#32
  let c0_i32_463 : BitVec 32 := 0#32
  ![v465.toNat, 0, 0]
def k0_off59 (k0_t8 : Fin k0_t8_loop.trips) : Fin 2 → Nat :=
  let c0_i32_464 : BitVec 32 := 0#32
  let c14_i32 : BitVec 32 := 14#32
  let c1_i32_142 : BitVec 32 := 1#32
  let arg11 : BitVec 32 := Scf.iv c14_i32 c1_i32_142 k0_t8
  let c512_i32_461 : BitVec 32 := 512#32
  let v466 : BitVec 32 := Scalar.muli arg11 c512_i32_461
  ![0, v466.toNat]
def k0_off60 (k0_t8 : Fin k0_t8_loop.trips) : Fin 3 → Nat :=
  let c14_i32 : BitVec 32 := 14#32
  let c1_i32_142 : BitVec 32 := 1#32
  let arg11 : BitVec 32 := Scf.iv c14_i32 c1_i32_142 k0_t8
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let v472 : Index := Scalar.indexCast v465
  let c0_465 : Index := 0#32
  let c0_466 : Index := 0#32
  ![v472.toNat, 0, 0]
def k0_cond8 (k0_t8 : Fin k0_t8_loop.trips) : BitVec 1 :=
  let c14_i32 : BitVec 32 := 14#32
  let c1_i32_142 : BitVec 32 := 1#32
  let arg11 : BitVec 32 := Scf.iv c14_i32 c1_i32_142 k0_t8
  let c14_i32_470 : BitVec 32 := 14#32
  let v478 : BitVec 1 := Scalar.cmpi .slt arg11 c14_i32_470
  let v479 : BitVec 32 := Scalar.extui v478
  let c0_i32_471 : BitVec 32 := 0#32
  let v480 : BitVec 1 := Scalar.cmpi .ne v479 c0_i32_471
  v480

def k0_off61 (k0_t8 : Fin k0_t8_loop.trips) : Fin 1 → Nat :=
  let c14_i32 : BitVec 32 := 14#32
  let c1_i32_142 : BitVec 32 := 1#32
  let arg11 : BitVec 32 := Scf.iv c14_i32 c1_i32_142 k0_t8
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off62 (k0_t8 : Fin k0_t8_loop.trips) : Fin 3 → Nat :=
  let c14_i32 : BitVec 32 := 14#32
  let c1_i32_142 : BitVec 32 := 1#32
  let arg11 : BitVec 32 := Scf.iv c14_i32 c1_i32_142 k0_t8
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_478 : BitVec 32 := 0#32
  let c0_i32_479 : BitVec 32 := 0#32
  ![v465.toNat, 0, 0]
def k0_off63 (k0_t8 : Fin k0_t8_loop.trips) : Fin 2 → Nat :=
  let c0_i32_480 : BitVec 32 := 0#32
  let c14_i32 : BitVec 32 := 14#32
  let c1_i32_142 : BitVec 32 := 1#32
  let arg11 : BitVec 32 := Scf.iv c14_i32 c1_i32_142 k0_t8
  let c2_i32_476 : BitVec 32 := 2#32
  let v491 : BitVec 32 := Scalar.addi arg11 c2_i32_476
  let c512_i32_477 : BitVec 32 := 512#32
  let v492 : BitVec 32 := Scalar.muli v491 c512_i32_477
  ![0, v492.toNat]
def k0_off64 (k0_t8 : Fin k0_t8_loop.trips) : Fin 3 → Nat :=
  let c0_473 : Index := 0#32
  let c0_474 : Index := 0#32
  let c14_i32 : BitVec 32 := 14#32
  let c1_i32_142 : BitVec 32 := 1#32
  let arg11 : BitVec 32 := Scf.iv c14_i32 c1_i32_142 k0_t8
  let c512_i32_472 : BitVec 32 := 512#32
  let v483 : BitVec 32 := Scalar.muli arg11 c512_i32_472
  let v484 : Index := Scalar.indexCast v483
  ![0, 0, v484.toNat]
def k0_dev10 (d0 : Dev nD) : Nat :=
  let c0_i32_148 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_147 : BitVec 32 := 8#32
  let v175 : BitVec 32 := Scalar.muli v2 c8_i32_147
  let v176 : BitVec 32 := Scalar.addi c0_i32_148 v175
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_149 : BitVec 32 := 4#32
  let v177 : BitVec 32 := Scalar.muli v5 c4_i32_149
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_150 : BitVec 32 := 1#32
  let v179 : BitVec 32 := Scalar.muli v30 c1_i32_150
  let v180 : BitVec 32 := Scalar.addi v178 v179
  v180.toNat
def k0_dev11 (d0 : Dev nD) : Nat :=
  let c0_i32_327 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_326 : BitVec 32 := 8#32
  let v333 : BitVec 32 := Scalar.muli v2 c8_i32_326
  let v334 : BitVec 32 := Scalar.addi c0_i32_327 v333
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_328 : BitVec 32 := 4#32
  let v335 : BitVec 32 := Scalar.muli v5 c4_i32_328
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_329 : BitVec 32 := 1#32
  let v337 : BitVec 32 := Scalar.muli v30 c1_i32_329
  let v338 : BitVec 32 := Scalar.addi v336 v337
  v338.toNat
@[reducible] def k0_t9_loop : Scf.Loop 32 :=
  let c0_i32_335 : BitVec 32 := 0#32
  let c16_i32 : BitVec 32 := 16#32
  let v348 : BitVec 32 := Scalar.addi c0_i32_335 c16_i32
  let c1_i32_336 : BitVec 32 := 1#32
  ⟨c0_i32_335, v348, c1_i32_336⟩
def k0_off65 (k0_t9 : Fin k0_t9_loop.trips) : Fin 3 → Nat :=
  let c1 : Index := 1#32
  let c0_456 : Index := 0#32
  let c0_i32_335 : BitVec 32 := 0#32
  let c1_i32_336 : BitVec 32 := 1#32
  let arg11 : BitVec 32 := Scf.iv c0_i32_335 c1_i32_336 k0_t9
  let c512_i32_455 : BitVec 32 := 512#32
  let v456 : BitVec 32 := Scalar.muli arg11 c512_i32_455
  let v457 : Index := Scalar.indexCast v456
  ![1, 0, v457.toNat]
def k0_dev12 (d0 : Dev nD) : Nat :=
  let c0_i32_363 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_362 : BitVec 32 := 8#32
  let v368 : BitVec 32 := Scalar.muli v2 c8_i32_362
  let v369 : BitVec 32 := Scalar.addi c0_i32_363 v368
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_364 : BitVec 32 := 4#32
  let v370 : BitVec 32 := Scalar.muli v5 c4_i32_364
  let v371 : BitVec 32 := Scalar.addi v369 v370
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_365 : BitVec 32 := 1#32
  let v372 : BitVec 32 := Scalar.muli v30 c1_i32_365
  let v373 : BitVec 32 := Scalar.addi v371 v372
  v373.toNat
def k0_dev13 (d0 : Dev nD) : Nat :=
  let c0_i32_375 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_374 : BitVec 32 := 8#32
  let v382 : BitVec 32 := Scalar.muli v2 c8_i32_374
  let v383 : BitVec 32 := Scalar.addi c0_i32_375 v382
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_376 : BitVec 32 := 4#32
  let v384 : BitVec 32 := Scalar.muli v5 c4_i32_376
  let v385 : BitVec 32 := Scalar.addi v383 v384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_377 : BitVec 32 := 1#32
  let v386 : BitVec 32 := Scalar.muli v30 c1_i32_377
  let v387 : BitVec 32 := Scalar.addi v385 v386
  v387.toNat
@[reducible] def k0_t10_loop : Scf.Loop 32 :=
  let c0_i32_383 : BitVec 32 := 0#32
  let c16_i32_384 : BitVec 32 := 16#32
  let v397 : BitVec 32 := Scalar.addi c0_i32_383 c16_i32_384
  let c1_i32_385 : BitVec 32 := 1#32
  ⟨c0_i32_383, v397, c1_i32_385⟩
def k0_off66 (k0_t10 : Fin k0_t10_loop.trips) : Fin 3 → Nat :=
  let c2 : Index := 2#32
  let c0_456 : Index := 0#32
  let c0_i32_383 : BitVec 32 := 0#32
  let c1_i32_385 : BitVec 32 := 1#32
  let arg11 : BitVec 32 := Scf.iv c0_i32_383 c1_i32_385 k0_t10
  let c512_i32_455 : BitVec 32 := 512#32
  let v456 : BitVec 32 := Scalar.muli arg11 c512_i32_455
  let v457 : Index := Scalar.indexCast v456
  ![2, 0, v457.toNat]
@[reducible] def k0_t11_loop : Scf.Loop 32 :=
  let c0_i32_409 : BitVec 32 := 0#32
  let c8_i32_410 : BitVec 32 := 8#32
  let v418 : BitVec 32 := Scalar.addi c0_i32_409 c8_i32_410
  let c1_i32_411 : BitVec 32 := 1#32
  ⟨c0_i32_409, v418, c1_i32_411⟩
def k0_off67 (k0_t11 : Fin k0_t11_loop.trips) : Fin 3 → Nat :=
  let c3 : Index := 3#32
  let c0_456 : Index := 0#32
  let c0_i32_409 : BitVec 32 := 0#32
  let c1_i32_411 : BitVec 32 := 1#32
  let arg11 : BitVec 32 := Scf.iv c0_i32_409 c1_i32_411 k0_t11
  let c512_i32_455 : BitVec 32 := 512#32
  let v456 : BitVec 32 := Scalar.muli arg11 c512_i32_455
  let v457 : Index := Scalar.indexCast v456
  ![3, 0, v457.toNat]
@[reducible] def k0_t12_loop : Scf.Loop 32 :=
  let c8_i32_434 : BitVec 32 := 8#32
  let c8_i32_435 : BitVec 32 := 8#32
  let v438 : BitVec 32 := Scalar.addi c8_i32_434 c8_i32_435
  let c1_i32_436 : BitVec 32 := 1#32
  ⟨c8_i32_434, v438, c1_i32_436⟩
def k0_off68 (k0_t12 : Fin k0_t12_loop.trips) : Fin 3 → Nat :=
  let c3 : Index := 3#32
  let c0_456 : Index := 0#32
  let c8_i32_434 : BitVec 32 := 8#32
  let c1_i32_436 : BitVec 32 := 1#32
  let arg11 : BitVec 32 := Scf.iv c8_i32_434 c1_i32_436 k0_t12
  let c512_i32_455 : BitVec 32 := 512#32
  let v456 : BitVec 32 := Scalar.muli arg11 c512_i32_455
  let v457 : Index := Scalar.indexCast v456
  ![3, 0, v457.toNat]
@[reducible] def k0_t13_loop : Scf.Loop 32 :=
  let c0_i32_439 : BitVec 32 := 0#32
  let c16_i32_440 : BitVec 32 := 16#32
  let v445 : BitVec 32 := Scalar.addi c0_i32_439 c16_i32_440
  let c1_i32_441 : BitVec 32 := 1#32
  ⟨c0_i32_439, v445, c1_i32_441⟩
def k0_cond9 (k0_t13 : Fin k0_t13_loop.trips) : BitVec 1 :=
  let c0_i32_439 : BitVec 32 := 0#32
  let c1_i32_441 : BitVec 32 := 1#32
  let arg11 : BitVec 32 := Scf.iv c0_i32_439 c1_i32_441 k0_t13
  let c2_i32_461 : BitVec 32 := 2#32
  let v466 : BitVec 1 := Scalar.cmpi .sge arg11 c2_i32_461
  let v467 : BitVec 32 := Scalar.extui v466
  let c0_i32_462 : BitVec 32 := 0#32
  let v468 : BitVec 1 := Scalar.cmpi .ne v467 c0_i32_462
  v468

def k0_off69 (k0_t13 : Fin k0_t13_loop.trips) : Fin 1 → Nat :=
  let c0_i32_439 : BitVec 32 := 0#32
  let c1_i32_441 : BitVec 32 := 1#32
  let arg11 : BitVec 32 := Scf.iv c0_i32_439 c1_i32_441 k0_t13
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off70 (k0_t13 : Fin k0_t13_loop.trips) : Fin 3 → Nat :=
  let c0_i32_439 : BitVec 32 := 0#32
  let c1_i32_441 : BitVec 32 := 1#32
  let arg11 : BitVec 32 := Scf.iv c0_i32_439 c1_i32_441 k0_t13
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_492 : BitVec 32 := 0#32
  let c0_i32_493 : BitVec 32 := 0#32
  ![v465.toNat, 0, 0]
def k0_off71 (d0 : Dev nD) (k0_t13 : Fin k0_t13_loop.trips) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_439 : BitVec 32 := 0#32
  let c1_i32_441 : BitVec 32 := 1#32
  let arg11 : BitVec 32 := Scf.iv c0_i32_439 c1_i32_441 k0_t13
  let c0_i32_464 : BitVec 32 := 0#32
  let v470 : BitVec 1 := Scalar.cmpi .sgt arg11 c0_i32_464
  let v471 : BitVec 32 := Scalar.extui v470
  let c0_i32_465 : BitVec 32 := 0#32
  let v472 : BitVec 1 := Scalar.cmpi .slt arg11 c0_i32_465
  let v473 : BitVec 32 := Scalar.extui v472
  let v474 : BitVec 32 := Scalar.subi v471 v473
  let c4_i32_463 : BitVec 32 := 4#32
  let c0_i32_466 : BitVec 32 := 0#32
  let v475 : BitVec 1 := Scalar.cmpi .sgt c4_i32_463 c0_i32_466
  let v476 : BitVec 32 := Scalar.extui v475
  let c0_i32_467 : BitVec 32 := 0#32
  let v477 : BitVec 1 := Scalar.cmpi .slt c4_i32_463 c0_i32_467
  let v478 : BitVec 32 := Scalar.extui v477
  let v479 : BitVec 32 := Scalar.subi v476 v478
  let v480 : BitVec 1 := Scalar.cmpi .ne v474 v479
  let v481 : BitVec 32 := Scalar.remsi arg11 c4_i32_463
  let c0_i32_468 : BitVec 32 := 0#32
  let v482 : BitVec 1 := Scalar.cmpi .ne v481 c0_i32_468
  let v483 : BitVec 1 := Scalar.andi v480 v482
  let v469 : BitVec 32 := Scalar.divsi arg11 c4_i32_463
  let c1_i32_469 : BitVec 32 := 1#32
  let v484 : BitVec 32 := Scalar.subi v469 c1_i32_469
  let v485 : BitVec 32 := Scalar.select v483 v484 v469
  let v486 : BitVec 32 := Scalar.subi v8 v485
  let c4_i32_470 : BitVec 32 := 4#32
  let c0_i32_471 : BitVec 32 := 0#32
  let v487 : BitVec 1 := Scalar.cmpi .eq c4_i32_470 c0_i32_471
  let c1_i32_472 : BitVec 32 := 1#32
  let v488 : BitVec 32 := Scalar.select v487 c1_i32_472 c4_i32_470
  let v489 : BitVec 32 := Scalar.remsi v486 v488
  let c0_i32_474 : BitVec 32 := 0#32
  let v491 : BitVec 1 := Scalar.cmpi .slt v489 c0_i32_474
  let c0_i32_475 : BitVec 32 := 0#32
  let v492 : BitVec 1 := Scalar.cmpi .slt v488 c0_i32_475
  let v493 : BitVec 1 := Scalar.xori v491 v492
  let c0_i32_473 : BitVec 32 := 0#32
  let v490 : BitVec 1 := Scalar.cmpi .ne v489 c0_i32_473
  let v494 : BitVec 1 := Scalar.andi v493 v490
  let v495 : BitVec 32 := Scalar.addi v489 v488
  let v496 : BitVec 32 := Scalar.select v494 v495 v489
  let v508 : Index := Scalar.indexCast v496
  let c0_483 : Index := 0#32
  let c4_i32_476 : BitVec 32 := 4#32
  let c0_i32_477 : BitVec 32 := 0#32
  let v497 : BitVec 1 := Scalar.cmpi .eq c4_i32_476 c0_i32_477
  let c1_i32_478 : BitVec 32 := 1#32
  let v498 : BitVec 32 := Scalar.select v497 c1_i32_478 c4_i32_476
  let v499 : BitVec 32 := Scalar.remsi arg11 v498
  let c0_i32_480 : BitVec 32 := 0#32
  let v501 : BitVec 1 := Scalar.cmpi .slt v499 c0_i32_480
  let c0_i32_481 : BitVec 32 := 0#32
  let v502 : BitVec 1 := Scalar.cmpi .slt v498 c0_i32_481
  let v503 : BitVec 1 := Scalar.xori v501 v502
  let c0_i32_479 : BitVec 32 := 0#32
  let v500 : BitVec 1 := Scalar.cmpi .ne v499 c0_i32_479
  let v504 : BitVec 1 := Scalar.andi v503 v500
  let v505 : BitVec 32 := Scalar.addi v499 v498
  let v506 : BitVec 32 := Scalar.select v504 v505 v499
  let c2048_i32_482 : BitVec 32 := 2048#32
  let v507 : BitVec 32 := Scalar.muli v506 c2048_i32_482
  let v509 : Index := Scalar.indexCast v507
  ![v508.toNat, 0, v509.toNat]
def k0_off72 (k0_t13 : Fin k0_t13_loop.trips) : Fin 3 → Nat :=
  let c0_i32_439 : BitVec 32 := 0#32
  let c1_i32_441 : BitVec 32 := 1#32
  let arg11 : BitVec 32 := Scf.iv c0_i32_439 c1_i32_441 k0_t13
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let v516 : Index := Scalar.indexCast v465
  let c0_484 : Index := 0#32
  let c0_485 : Index := 0#32
  ![v516.toNat, 0, 0]
def k0_off73 (k0_t13 : Fin k0_t13_loop.trips) : Fin 1 → Nat :=
  let c0_i32_439 : BitVec 32 := 0#32
  let c1_i32_441 : BitVec 32 := 1#32
  let arg11 : BitVec 32 := Scf.iv c0_i32_439 c1_i32_441 k0_t13
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  ![v465.toNat]
def k0_off74 (k0_t13 : Fin k0_t13_loop.trips) : Fin 2 → Nat :=
  let c0_i32_487 : BitVec 32 := 0#32
  let c0_i32_439 : BitVec 32 := 0#32
  let c1_i32_441 : BitVec 32 := 1#32
  let arg11 : BitVec 32 := Scf.iv c0_i32_439 c1_i32_441 k0_t13
  let c2048_i32_486 : BitVec 32 := 2048#32
  let v520 : BitVec 32 := Scalar.muli arg11 c2048_i32_486
  ![0, v520.toNat]
def k0_off75 (k0_t13 : Fin k0_t13_loop.trips) : Fin 3 → Nat :=
  let c0_i32_439 : BitVec 32 := 0#32
  let c1_i32_441 : BitVec 32 := 1#32
  let arg11 : BitVec 32 := Scf.iv c0_i32_439 c1_i32_441 k0_t13
  let c2_i32_455 : BitVec 32 := 2#32
  let c0_i32_456 : BitVec 32 := 0#32
  let v456 : BitVec 1 := Scalar.cmpi .eq c2_i32_455 c0_i32_456
  let c1_i32_457 : BitVec 32 := 1#32
  let v457 : BitVec 32 := Scalar.select v456 c1_i32_457 c2_i32_455
  let v458 : BitVec 32 := Scalar.remsi arg11 v457
  let c0_i32_459 : BitVec 32 := 0#32
  let v460 : BitVec 1 := Scalar.cmpi .slt v458 c0_i32_459
  let c0_i32_460 : BitVec 32 := 0#32
  let v461 : BitVec 1 := Scalar.cmpi .slt v457 c0_i32_460
  let v462 : BitVec 1 := Scalar.xori v460 v461
  let c0_i32_458 : BitVec 32 := 0#32
  let v459 : BitVec 1 := Scalar.cmpi .ne v458 c0_i32_458
  let v463 : BitVec 1 := Scalar.andi v462 v459
  let v464 : BitVec 32 := Scalar.addi v458 v457
  let v465 : BitVec 32 := Scalar.select v463 v464 v458
  let c0_i32_488 : BitVec 32 := 0#32
  let c0_i32_489 : BitVec 32 := 0#32
  ![v465.toNat, 0, 0]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  hamt_2 : (2#32 : BitVec 32).msb = false
  inb_S2_S1_0 : ∀ a, (![0] : Fin 1 → Nat) a + S1.size a ≤ S2.size a
  squeezes_S1_S_ : S1.Squeezes S_
  inb_S2x1024x512_S1x1024x512_0_0_0 : ∀ a, (![0, 0, 0] : Fin 3 → Nat) a + S1x1024x512.size a ≤ S2x1024x512.size a
  squeezes_S1x1024x512_S1024x512 : S1x1024x512.Squeezes S1024x512
  inb_S1024x8192_S1024x512_0_0 : ∀ a, (![0, 0] : Fin 2 → Nat) a + S1024x512.size a ≤ S1024x8192.size a
  inb_S2_S1_1 : ∀ a, (![1] : Fin 1 → Nat) a + S1.size a ≤ S2.size a
  inb_S2x1024x512_S1x1024x512_1_0_0 : ∀ a, (![1, 0, 0] : Fin 3 → Nat) a + S1x1024x512.size a ≤ S2x1024x512.size a
  inb_S1024x8192_S1024x512_0_512 : ∀ a, (![0, 512] : Fin 2 → Nat) a + S1024x512.size a ≤ S1024x8192.size a
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  h_S1x1024x512 : 0 < S1x1024x512.numel
  shapeCasts_S1x1024x512_S1024x512 : S1x1024x512.ShapeCasts S1024x512
  h_S1x512x512 : 0 < S1x512x512.numel
  shapeCasts_S1x512x512_S512x512 : S1x512x512.ShapeCasts S512x512
  shapeCasts_S512x512_S1x512x512 : S512x512.ShapeCasts S1x512x512
  reduces_S512x512_S512 : S512x512.Reduces [1] S512
  shapeCasts_S512_S512x1 : S512.ShapeCasts S512x1
  inb_S11_S1_0 : ∀ a, (![0] : Fin 1 → Nat) a + S1.size a ≤ S11.size a
  inb_S4x512x8192_S1x512x1024_1_0_0 : ∀ a, (![1, 0, 0] : Fin 3 → Nat) a + S1x512x1024.size a ≤ S4x512x8192.size a
  squeezes_S1x512x1024_S512x1024 : S1x512x1024.Squeezes S512x1024
  inb_S4x512x8192_S1x512x1024_0_0_0 : ∀ a, (![0, 0, 0] : Fin 3 → Nat) a + S1x512x1024.size a ≤ S4x512x8192.size a
  wordsbf16_S4x512x8192_S1x512x1024_0_0_0 : (Rect.unit (s := S4x512x8192) ![0, 0, 0] S1x512x1024.size inb_S4x512x8192_S1x512x1024_0_0_0).WholeWords (EltTy.packing .bf16)
  wordsbf16_S4x512x8192_S1x512x1024_1_0_0 : (Rect.unit (s := S4x512x8192) ![1, 0, 0] S1x512x1024.size inb_S4x512x8192_S1x512x1024_1_0_0).WholeWords (EltTy.packing .bf16)
  inb_S11_S1_1 : ∀ a, (![1] : Fin 1 → Nat) a + S1.size a ≤ S11.size a
  inb_S4x512x8192_S1x512x1024_1_0_1024 : ∀ a, (![1, 0, 1024] : Fin 3 → Nat) a + S1x512x1024.size a ≤ S4x512x8192.size a
  inb_S4x512x8192_S1x512x1024_0_0_1024 : ∀ a, (![0, 0, 1024] : Fin 3 → Nat) a + S1x512x1024.size a ≤ S4x512x8192.size a
  wordsbf16_S4x512x8192_S1x512x1024_0_0_1024 : (Rect.unit (s := S4x512x8192) ![0, 0, 1024] S1x512x1024.size inb_S4x512x8192_S1x512x1024_0_0_1024).WholeWords (EltTy.packing .bf16)
  wordsbf16_S4x512x8192_S1x512x1024_1_0_1024 : (Rect.unit (s := S4x512x8192) ![1, 0, 1024] S1x512x1024.size inb_S4x512x8192_S1x512x1024_1_0_1024).WholeWords (EltTy.packing .bf16)
  inb_S11_S1_2 : ∀ a, (![2] : Fin 1 → Nat) a + S1.size a ≤ S11.size a
  inb_S4x512x8192_S1x512x1024_1_0_2048 : ∀ a, (![1, 0, 2048] : Fin 3 → Nat) a + S1x512x1024.size a ≤ S4x512x8192.size a
  inb_S4x512x8192_S1x512x1024_0_0_2048 : ∀ a, (![0, 0, 2048] : Fin 3 → Nat) a + S1x512x1024.size a ≤ S4x512x8192.size a
  wordsbf16_S4x512x8192_S1x512x1024_0_0_2048 : (Rect.unit (s := S4x512x8192) ![0, 0, 2048] S1x512x1024.size inb_S4x512x8192_S1x512x1024_0_0_2048).WholeWords (EltTy.packing .bf16)
  wordsbf16_S4x512x8192_S1x512x1024_1_0_2048 : (Rect.unit (s := S4x512x8192) ![1, 0, 2048] S1x512x1024.size inb_S4x512x8192_S1x512x1024_1_0_2048).WholeWords (EltTy.packing .bf16)
  inb_S11_S1_3 : ∀ a, (![3] : Fin 1 → Nat) a + S1.size a ≤ S11.size a
  inb_S4x512x8192_S1x512x1024_1_0_3072 : ∀ a, (![1, 0, 3072] : Fin 3 → Nat) a + S1x512x1024.size a ≤ S4x512x8192.size a
  inb_S4x512x8192_S1x512x1024_0_0_3072 : ∀ a, (![0, 0, 3072] : Fin 3 → Nat) a + S1x512x1024.size a ≤ S4x512x8192.size a
  wordsbf16_S4x512x8192_S1x512x1024_0_0_3072 : (Rect.unit (s := S4x512x8192) ![0, 0, 3072] S1x512x1024.size inb_S4x512x8192_S1x512x1024_0_0_3072).WholeWords (EltTy.packing .bf16)
  wordsbf16_S4x512x8192_S1x512x1024_1_0_3072 : (Rect.unit (s := S4x512x8192) ![1, 0, 3072] S1x512x1024.size inb_S4x512x8192_S1x512x1024_1_0_3072).WholeWords (EltTy.packing .bf16)
  inb_S11_S1_4 : ∀ a, (![4] : Fin 1 → Nat) a + S1.size a ≤ S11.size a
  inb_S4x512x8192_S1x512x1024_1_0_4096 : ∀ a, (![1, 0, 4096] : Fin 3 → Nat) a + S1x512x1024.size a ≤ S4x512x8192.size a
  inb_S4x512x8192_S1x512x1024_0_0_4096 : ∀ a, (![0, 0, 4096] : Fin 3 → Nat) a + S1x512x1024.size a ≤ S4x512x8192.size a
  wordsbf16_S4x512x8192_S1x512x1024_0_0_4096 : (Rect.unit (s := S4x512x8192) ![0, 0, 4096] S1x512x1024.size inb_S4x512x8192_S1x512x1024_0_0_4096).WholeWords (EltTy.packing .bf16)
  wordsbf16_S4x512x8192_S1x512x1024_1_0_4096 : (Rect.unit (s := S4x512x8192) ![1, 0, 4096] S1x512x1024.size inb_S4x512x8192_S1x512x1024_1_0_4096).WholeWords (EltTy.packing .bf16)
  inb_S11_S1_5 : ∀ a, (![5] : Fin 1 → Nat) a + S1.size a ≤ S11.size a
  inb_S4x512x8192_S1x512x1024_1_0_5120 : ∀ a, (![1, 0, 5120] : Fin 3 → Nat) a + S1x512x1024.size a ≤ S4x512x8192.size a
  inb_S4x512x8192_S1x512x1024_0_0_5120 : ∀ a, (![0, 0, 5120] : Fin 3 → Nat) a + S1x512x1024.size a ≤ S4x512x8192.size a
  wordsbf16_S4x512x8192_S1x512x1024_0_0_5120 : (Rect.unit (s := S4x512x8192) ![0, 0, 5120] S1x512x1024.size inb_S4x512x8192_S1x512x1024_0_0_5120).WholeWords (EltTy.packing .bf16)
  wordsbf16_S4x512x8192_S1x512x1024_1_0_5120 : (Rect.unit (s := S4x512x8192) ![1, 0, 5120] S1x512x1024.size inb_S4x512x8192_S1x512x1024_1_0_5120).WholeWords (EltTy.packing .bf16)
  inb_S11_S1_6 : ∀ a, (![6] : Fin 1 → Nat) a + S1.size a ≤ S11.size a
  inb_S4x512x8192_S1x512x1024_1_0_6144 : ∀ a, (![1, 0, 6144] : Fin 3 → Nat) a + S1x512x1024.size a ≤ S4x512x8192.size a
  inb_S4x512x8192_S1x512x1024_0_0_6144 : ∀ a, (![0, 0, 6144] : Fin 3 → Nat) a + S1x512x1024.size a ≤ S4x512x8192.size a
  wordsbf16_S4x512x8192_S1x512x1024_0_0_6144 : (Rect.unit (s := S4x512x8192) ![0, 0, 6144] S1x512x1024.size inb_S4x512x8192_S1x512x1024_0_0_6144).WholeWords (EltTy.packing .bf16)
  wordsbf16_S4x512x8192_S1x512x1024_1_0_6144 : (Rect.unit (s := S4x512x8192) ![1, 0, 6144] S1x512x1024.size inb_S4x512x8192_S1x512x1024_1_0_6144).WholeWords (EltTy.packing .bf16)
  inb_S11_S1_7 : ∀ a, (![7] : Fin 1 → Nat) a + S1.size a ≤ S11.size a
  inb_S4x512x8192_S1x512x1024_1_0_7168 : ∀ a, (![1, 0, 7168] : Fin 3 → Nat) a + S1x512x1024.size a ≤ S4x512x8192.size a
  inb_S4x512x8192_S1x512x1024_0_0_7168 : ∀ a, (![0, 0, 7168] : Fin 3 → Nat) a + S1x512x1024.size a ≤ S4x512x8192.size a
  wordsbf16_S4x512x8192_S1x512x1024_0_0_7168 : (Rect.unit (s := S4x512x8192) ![0, 0, 7168] S1x512x1024.size inb_S4x512x8192_S1x512x1024_0_0_7168).WholeWords (EltTy.packing .bf16)
  wordsbf16_S4x512x8192_S1x512x1024_1_0_7168 : (Rect.unit (s := S4x512x8192) ![1, 0, 7168] S1x512x1024.size inb_S4x512x8192_S1x512x1024_1_0_7168).WholeWords (EltTy.packing .bf16)
  inb_S11_S1_8 : ∀ a, (![8] : Fin 1 → Nat) a + S1.size a ≤ S11.size a
  inb_S4x512x8192_S1x512x8192_2_0_0 : ∀ a, (![2, 0, 0] : Fin 3 → Nat) a + S1x512x8192.size a ≤ S4x512x8192.size a
  squeezes_S1x512x8192_S512x8192 : S1x512x8192.Squeezes S512x8192
  inb_S4x512x8192_S1x512x8192_1_0_0 : ∀ a, (![1, 0, 0] : Fin 3 → Nat) a + S1x512x8192.size a ≤ S4x512x8192.size a
  wordsbf16_S4x512x8192_S1x512x8192_1_0_0 : (Rect.unit (s := S4x512x8192) ![1, 0, 0] S1x512x8192.size inb_S4x512x8192_S1x512x8192_1_0_0).WholeWords (EltTy.packing .bf16)
  wordsbf16_S4x512x8192_S1x512x8192_2_0_0 : (Rect.unit (s := S4x512x8192) ![2, 0, 0] S1x512x8192.size inb_S4x512x8192_S1x512x8192_2_0_0).WholeWords (EltTy.packing .bf16)
  inb_S11_S1_9 : ∀ a, (![9] : Fin 1 → Nat) a + S1.size a ≤ S11.size a
  inb_S4x512x8192_S1x512x4096_3_0_0 : ∀ a, (![3, 0, 0] : Fin 3 → Nat) a + S1x512x4096.size a ≤ S4x512x8192.size a
  squeezes_S1x512x4096_S512x4096 : S1x512x4096.Squeezes S512x4096
  inb_S4x512x8192_S1x512x4096_2_0_0 : ∀ a, (![2, 0, 0] : Fin 3 → Nat) a + S1x512x4096.size a ≤ S4x512x8192.size a
  wordsbf16_S4x512x8192_S1x512x4096_2_0_0 : (Rect.unit (s := S4x512x8192) ![2, 0, 0] S1x512x4096.size inb_S4x512x8192_S1x512x4096_2_0_0).WholeWords (EltTy.packing .bf16)
  wordsbf16_S4x512x8192_S1x512x4096_3_0_0 : (Rect.unit (s := S4x512x8192) ![3, 0, 0] S1x512x4096.size inb_S4x512x8192_S1x512x4096_3_0_0).WholeWords (EltTy.packing .bf16)
  inb_S11_S1_10 : ∀ a, (![10] : Fin 1 → Nat) a + S1.size a ≤ S11.size a
  inb_S4x512x8192_S1x512x4096_3_0_4096 : ∀ a, (![3, 0, 4096] : Fin 3 → Nat) a + S1x512x4096.size a ≤ S4x512x8192.size a
  inb_S4x512x8192_S1x512x4096_2_0_4096 : ∀ a, (![2, 0, 4096] : Fin 3 → Nat) a + S1x512x4096.size a ≤ S4x512x8192.size a
  wordsbf16_S4x512x8192_S1x512x4096_2_0_4096 : (Rect.unit (s := S4x512x8192) ![2, 0, 4096] S1x512x4096.size inb_S4x512x8192_S1x512x4096_2_0_4096).WholeWords (EltTy.packing .bf16)
  wordsbf16_S4x512x8192_S1x512x4096_3_0_4096 : (Rect.unit (s := S4x512x8192) ![3, 0, 4096] S1x512x4096.size inb_S4x512x8192_S1x512x4096_3_0_4096).WholeWords (EltTy.packing .bf16)
  inb_S512x32768_S512x2048_0_0 : ∀ a, (![0, 0] : Fin 2 → Nat) a + S512x2048.size a ≤ S512x32768.size a
  squeezes_S1x512x2048_S512x2048 : S1x512x2048.Squeezes S512x2048
  wordsbf16_S512x32768_S512x2048_0_0 : (Rect.unit (s := S512x32768) ![0, 0] S512x2048.size inb_S512x32768_S512x2048_0_0).WholeWords (EltTy.packing .bf16)
  h_S1x512x2048 : 0 < S1x512x2048.numel
  shapeCasts_S1x512x2048_S512x2048 : S1x512x2048.ShapeCasts S512x2048
  broadcasts_S512x1_S512x2048 : S512x1.Broadcasts S512x2048
  shapeCasts_S512x2048_S1x512x2048 : S512x2048.ShapeCasts S1x512x2048
  inb_S2x512x2048_S1x512x2048_0_0_0 : ∀ a, (![0, 0, 0] : Fin 3 → Nat) a + S1x512x2048.size a ≤ S2x512x2048.size a
  wordsbf16_S2x512x2048_S1x512x2048_0_0_0 : (Rect.unit (s := S2x512x2048) ![0, 0, 0] S1x512x2048.size inb_S2x512x2048_S1x512x2048_0_0_0).WholeWords (EltTy.packing .bf16)
  inb_S2x512x2048_S1x512x2048_1_0_0 : ∀ a, (![1, 0, 0] : Fin 3 → Nat) a + S1x512x2048.size a ≤ S2x512x2048.size a
  wordsbf16_S2x512x2048_S1x512x2048_1_0_0 : (Rect.unit (s := S2x512x2048) ![1, 0, 0] S1x512x2048.size inb_S2x512x2048_S1x512x2048_1_0_0).WholeWords (EltTy.packing .bf16)
  dot_S512x1024_S1024x512_S512x512_1_0_0_1_n_n_wf : DotDims.WF S512x1024 S1024x512 S512x512 [1] [0] [0] [1] [] []
  hcc0_scratch4 : 1 + S11.numel ≤ 27
  hcc0_scratch5 : 12 + S11.numel ≤ 27
  hcc0_scratch6 : 23 + S2.numel ≤ 27
  hcc0_scratch7 : 25 + S2.numel ≤ 27
  k0_dev1_lt : ∀ d0 : Dev nD, (k0_dev1 d0) < nD
  k0_dev2_lt : ∀ d0 : Dev nD, (k0_dev2 d0) < nD
  k0_t1_ok : k0_t1_loop.OK
  k0_off1_inb : ∀ k0_t1 : Fin k0_t1_loop.trips, ∀ a, (k0_off1 k0_t1) a + S1.size a ≤ S2.size a
  k0_off2_inb : ∀ k0_t1 : Fin k0_t1_loop.trips, ∀ a, (k0_off2 k0_t1) a + S1x1024x512.size a ≤ S2x1024x512.size a
  k0_off3_inb : ∀ k0_t1 : Fin k0_t1_loop.trips, ∀ a, (k0_off3 k0_t1) a + S1024x512.size a ≤ S1024x8192.size a
  k0_off4_inb : ∀ k0_t1 : Fin k0_t1_loop.trips, ∀ a, (k0_off4 k0_t1) a + S1x1024x512.size a ≤ S2x1024x512.size a
  k0_off5_inb : ∀ k0_t1 : Fin k0_t1_loop.trips, ∀ (k0_h1 : k0_cond1 k0_t1 = 1#1), ∀ a, (k0_off5 k0_t1) a + S1.size a ≤ S2.size a
  k0_off6_inb : ∀ k0_t1 : Fin k0_t1_loop.trips, ∀ (k0_h1 : k0_cond1 k0_t1 = 1#1), ∀ a, (k0_off6 k0_t1) a + S1x1024x512.size a ≤ S2x1024x512.size a
  k0_off7_inb : ∀ k0_t1 : Fin k0_t1_loop.trips, ∀ (k0_h1 : k0_cond1 k0_t1 = 1#1), ∀ a, (k0_off7 k0_t1) a + S1024x512.size a ≤ S1024x8192.size a
  k0_off8_inb : ∀ k0_t1 : Fin k0_t1_loop.trips, ∀ a, (k0_off8 k0_t1) a + S1x512x512.size a ≤ S4x512x8192.size a
  k0_off8_packedbf16 : ∀ k0_t1 : Fin k0_t1_loop.trips, (Rect.unit (s := S4x512x8192) (k0_off8 k0_t1) S1x512x512.size (k0_off8_inb k0_t1)).PackedRows (EltTy.packing .bf16)
  k0_dev3_lt : ∀ d0 : Dev nD, (k0_dev3 d0) < nD
  k0_t2_ok : k0_t2_loop.OK
  k0_off9_inb : ∀ k0_t2 : Fin k0_t2_loop.trips, ∀ a, (k0_off9 k0_t2) a + S1.size a ≤ S2.size a
  k0_off10_inb : ∀ k0_t2 : Fin k0_t2_loop.trips, ∀ a, (k0_off10 k0_t2) a + S1x1024x512.size a ≤ S2x1024x512.size a
  k0_off11_inb : ∀ k0_t2 : Fin k0_t2_loop.trips, ∀ a, (k0_off11 k0_t2) a + S1024x512.size a ≤ S1024x8192.size a
  k0_off12_inb : ∀ k0_t2 : Fin k0_t2_loop.trips, ∀ a, (k0_off12 k0_t2) a + S1x1024x512.size a ≤ S2x1024x512.size a
  k0_off13_inb : ∀ k0_t2 : Fin k0_t2_loop.trips, ∀ (k0_h2 : k0_cond2 k0_t2 = 1#1), ∀ a, (k0_off13 k0_t2) a + S1.size a ≤ S2.size a
  k0_off14_inb : ∀ k0_t2 : Fin k0_t2_loop.trips, ∀ (k0_h2 : k0_cond2 k0_t2 = 1#1), ∀ a, (k0_off14 k0_t2) a + S1x1024x512.size a ≤ S2x1024x512.size a
  k0_off15_inb : ∀ k0_t2 : Fin k0_t2_loop.trips, ∀ (k0_h2 : k0_cond2 k0_t2 = 1#1), ∀ a, (k0_off15 k0_t2) a + S1024x512.size a ≤ S1024x8192.size a
  k0_off16_inb : ∀ k0_t2 : Fin k0_t2_loop.trips, ∀ a, (k0_off16 k0_t2) a + S1x512x512.size a ≤ S4x512x8192.size a
  k0_off16_packedbf16 : ∀ k0_t2 : Fin k0_t2_loop.trips, (Rect.unit (s := S4x512x8192) (k0_off16 k0_t2) S1x512x512.size (k0_off16_inb k0_t2)).PackedRows (EltTy.packing .bf16)
  k0_dev4_lt : ∀ d0 : Dev nD, (k0_dev4 d0) < nD
  k0_t3_ok : k0_t3_loop.OK
  k0_off17_inb : ∀ k0_t3 : Fin k0_t3_loop.trips, ∀ a, (k0_off17 k0_t3) a + S1.size a ≤ S2.size a
  k0_off18_inb : ∀ k0_t3 : Fin k0_t3_loop.trips, ∀ a, (k0_off18 k0_t3) a + S1x1024x512.size a ≤ S2x1024x512.size a
  k0_off19_inb : ∀ k0_t3 : Fin k0_t3_loop.trips, ∀ a, (k0_off19 k0_t3) a + S1024x512.size a ≤ S1024x8192.size a
  k0_off20_inb : ∀ k0_t3 : Fin k0_t3_loop.trips, ∀ a, (k0_off20 k0_t3) a + S1x1024x512.size a ≤ S2x1024x512.size a
  k0_off21_inb : ∀ k0_t3 : Fin k0_t3_loop.trips, ∀ (k0_h3 : k0_cond3 k0_t3 = 1#1), ∀ a, (k0_off21 k0_t3) a + S1.size a ≤ S2.size a
  k0_off22_inb : ∀ k0_t3 : Fin k0_t3_loop.trips, ∀ (k0_h3 : k0_cond3 k0_t3 = 1#1), ∀ a, (k0_off22 k0_t3) a + S1x1024x512.size a ≤ S2x1024x512.size a
  k0_off23_inb : ∀ k0_t3 : Fin k0_t3_loop.trips, ∀ (k0_h3 : k0_cond3 k0_t3 = 1#1), ∀ a, (k0_off23 k0_t3) a + S1024x512.size a ≤ S1024x8192.size a
  k0_off24_inb : ∀ k0_t3 : Fin k0_t3_loop.trips, ∀ a, (k0_off24 k0_t3) a + S1x512x512.size a ≤ S4x512x8192.size a
  k0_off24_packedbf16 : ∀ k0_t3 : Fin k0_t3_loop.trips, (Rect.unit (s := S4x512x8192) (k0_off24 k0_t3) S1x512x512.size (k0_off24_inb k0_t3)).PackedRows (EltTy.packing .bf16)
  k0_dev5_lt : ∀ d0 : Dev nD, (k0_dev5 d0) < nD
  k0_t4_ok : k0_t4_loop.OK
  k0_off25_inb : ∀ k0_t4 : Fin k0_t4_loop.trips, ∀ a, (k0_off25 k0_t4) a + S1.size a ≤ S2.size a
  k0_off26_inb : ∀ k0_t4 : Fin k0_t4_loop.trips, ∀ a, (k0_off26 k0_t4) a + S1x1024x512.size a ≤ S2x1024x512.size a
  k0_off27_inb : ∀ k0_t4 : Fin k0_t4_loop.trips, ∀ a, (k0_off27 k0_t4) a + S1024x512.size a ≤ S1024x8192.size a
  k0_off28_inb : ∀ k0_t4 : Fin k0_t4_loop.trips, ∀ a, (k0_off28 k0_t4) a + S1x1024x512.size a ≤ S2x1024x512.size a
  k0_off29_inb : ∀ k0_t4 : Fin k0_t4_loop.trips, ∀ (k0_h4 : k0_cond4 k0_t4 = 1#1), ∀ a, (k0_off29 k0_t4) a + S1.size a ≤ S2.size a
  k0_off30_inb : ∀ k0_t4 : Fin k0_t4_loop.trips, ∀ (k0_h4 : k0_cond4 k0_t4 = 1#1), ∀ a, (k0_off30 k0_t4) a + S1x1024x512.size a ≤ S2x1024x512.size a
  k0_off31_inb : ∀ k0_t4 : Fin k0_t4_loop.trips, ∀ (k0_h4 : k0_cond4 k0_t4 = 1#1), ∀ a, (k0_off31 k0_t4) a + S1024x512.size a ≤ S1024x8192.size a
  k0_off32_inb : ∀ k0_t4 : Fin k0_t4_loop.trips, ∀ a, (k0_off32 k0_t4) a + S1x512x512.size a ≤ S4x512x8192.size a
  k0_off32_packedbf16 : ∀ k0_t4 : Fin k0_t4_loop.trips, (Rect.unit (s := S4x512x8192) (k0_off32 k0_t4) S1x512x512.size (k0_off32_inb k0_t4)).PackedRows (EltTy.packing .bf16)
  k0_dev6_lt : ∀ d0 : Dev nD, (k0_dev6 d0) < nD
  k0_t5_ok : k0_t5_loop.OK
  k0_off33_inb : ∀ k0_t5 : Fin k0_t5_loop.trips, ∀ a, (k0_off33 k0_t5) a + S1.size a ≤ S2.size a
  k0_off34_inb : ∀ k0_t5 : Fin k0_t5_loop.trips, ∀ a, (k0_off34 k0_t5) a + S1x1024x512.size a ≤ S2x1024x512.size a
  k0_off35_inb : ∀ k0_t5 : Fin k0_t5_loop.trips, ∀ a, (k0_off35 k0_t5) a + S1024x512.size a ≤ S1024x8192.size a
  k0_off36_inb : ∀ k0_t5 : Fin k0_t5_loop.trips, ∀ a, (k0_off36 k0_t5) a + S1x1024x512.size a ≤ S2x1024x512.size a
  k0_off37_inb : ∀ k0_t5 : Fin k0_t5_loop.trips, ∀ (k0_h5 : k0_cond5 k0_t5 = 1#1), ∀ a, (k0_off37 k0_t5) a + S1.size a ≤ S2.size a
  k0_off38_inb : ∀ k0_t5 : Fin k0_t5_loop.trips, ∀ (k0_h5 : k0_cond5 k0_t5 = 1#1), ∀ a, (k0_off38 k0_t5) a + S1x1024x512.size a ≤ S2x1024x512.size a
  k0_off39_inb : ∀ k0_t5 : Fin k0_t5_loop.trips, ∀ (k0_h5 : k0_cond5 k0_t5 = 1#1), ∀ a, (k0_off39 k0_t5) a + S1024x512.size a ≤ S1024x8192.size a
  k0_off40_inb : ∀ k0_t5 : Fin k0_t5_loop.trips, ∀ a, (k0_off40 k0_t5) a + S1x512x512.size a ≤ S4x512x8192.size a
  k0_off40_packedbf16 : ∀ k0_t5 : Fin k0_t5_loop.trips, (Rect.unit (s := S4x512x8192) (k0_off40 k0_t5) S1x512x512.size (k0_off40_inb k0_t5)).PackedRows (EltTy.packing .bf16)
  k0_dev7_lt : ∀ d0 : Dev nD, (k0_dev7 d0) < nD
  k0_t6_ok : k0_t6_loop.OK
  k0_off41_inb : ∀ k0_t6 : Fin k0_t6_loop.trips, ∀ a, (k0_off41 k0_t6) a + S1.size a ≤ S2.size a
  k0_off42_inb : ∀ k0_t6 : Fin k0_t6_loop.trips, ∀ a, (k0_off42 k0_t6) a + S1x1024x512.size a ≤ S2x1024x512.size a
  k0_off43_inb : ∀ k0_t6 : Fin k0_t6_loop.trips, ∀ a, (k0_off43 k0_t6) a + S1024x512.size a ≤ S1024x8192.size a
  k0_off44_inb : ∀ k0_t6 : Fin k0_t6_loop.trips, ∀ a, (k0_off44 k0_t6) a + S1x1024x512.size a ≤ S2x1024x512.size a
  k0_off45_inb : ∀ k0_t6 : Fin k0_t6_loop.trips, ∀ (k0_h6 : k0_cond6 k0_t6 = 1#1), ∀ a, (k0_off45 k0_t6) a + S1.size a ≤ S2.size a
  k0_off46_inb : ∀ k0_t6 : Fin k0_t6_loop.trips, ∀ (k0_h6 : k0_cond6 k0_t6 = 1#1), ∀ a, (k0_off46 k0_t6) a + S1x1024x512.size a ≤ S2x1024x512.size a
  k0_off47_inb : ∀ k0_t6 : Fin k0_t6_loop.trips, ∀ (k0_h6 : k0_cond6 k0_t6 = 1#1), ∀ a, (k0_off47 k0_t6) a + S1024x512.size a ≤ S1024x8192.size a
  k0_off48_inb : ∀ k0_t6 : Fin k0_t6_loop.trips, ∀ a, (k0_off48 k0_t6) a + S1x512x512.size a ≤ S4x512x8192.size a
  k0_off48_packedbf16 : ∀ k0_t6 : Fin k0_t6_loop.trips, (Rect.unit (s := S4x512x8192) (k0_off48 k0_t6) S1x512x512.size (k0_off48_inb k0_t6)).PackedRows (EltTy.packing .bf16)
  k0_dev8_lt : ∀ d0 : Dev nD, (k0_dev8 d0) < nD
  k0_t7_ok : k0_t7_loop.OK
  k0_off49_inb : ∀ k0_t7 : Fin k0_t7_loop.trips, ∀ a, (k0_off49 k0_t7) a + S1.size a ≤ S2.size a
  k0_off50_inb : ∀ k0_t7 : Fin k0_t7_loop.trips, ∀ a, (k0_off50 k0_t7) a + S1x1024x512.size a ≤ S2x1024x512.size a
  k0_off51_inb : ∀ k0_t7 : Fin k0_t7_loop.trips, ∀ a, (k0_off51 k0_t7) a + S1024x512.size a ≤ S1024x8192.size a
  k0_off52_inb : ∀ k0_t7 : Fin k0_t7_loop.trips, ∀ a, (k0_off52 k0_t7) a + S1x1024x512.size a ≤ S2x1024x512.size a
  k0_off53_inb : ∀ k0_t7 : Fin k0_t7_loop.trips, ∀ (k0_h7 : k0_cond7 k0_t7 = 1#1), ∀ a, (k0_off53 k0_t7) a + S1.size a ≤ S2.size a
  k0_off54_inb : ∀ k0_t7 : Fin k0_t7_loop.trips, ∀ (k0_h7 : k0_cond7 k0_t7 = 1#1), ∀ a, (k0_off54 k0_t7) a + S1x1024x512.size a ≤ S2x1024x512.size a
  k0_off55_inb : ∀ k0_t7 : Fin k0_t7_loop.trips, ∀ (k0_h7 : k0_cond7 k0_t7 = 1#1), ∀ a, (k0_off55 k0_t7) a + S1024x512.size a ≤ S1024x8192.size a
  k0_off56_inb : ∀ k0_t7 : Fin k0_t7_loop.trips, ∀ a, (k0_off56 k0_t7) a + S1x512x512.size a ≤ S4x512x8192.size a
  k0_off56_packedbf16 : ∀ k0_t7 : Fin k0_t7_loop.trips, (Rect.unit (s := S4x512x8192) (k0_off56 k0_t7) S1x512x512.size (k0_off56_inb k0_t7)).PackedRows (EltTy.packing .bf16)
  k0_dev9_lt : ∀ d0 : Dev nD, (k0_dev9 d0) < nD
  k0_t8_ok : k0_t8_loop.OK
  k0_off57_inb : ∀ k0_t8 : Fin k0_t8_loop.trips, ∀ a, (k0_off57 k0_t8) a + S1.size a ≤ S2.size a
  k0_off58_inb : ∀ k0_t8 : Fin k0_t8_loop.trips, ∀ a, (k0_off58 k0_t8) a + S1x1024x512.size a ≤ S2x1024x512.size a
  k0_off59_inb : ∀ k0_t8 : Fin k0_t8_loop.trips, ∀ a, (k0_off59 k0_t8) a + S1024x512.size a ≤ S1024x8192.size a
  k0_off60_inb : ∀ k0_t8 : Fin k0_t8_loop.trips, ∀ a, (k0_off60 k0_t8) a + S1x1024x512.size a ≤ S2x1024x512.size a
  k0_off61_inb : ∀ k0_t8 : Fin k0_t8_loop.trips, ∀ (k0_h8 : k0_cond8 k0_t8 = 1#1), ∀ a, (k0_off61 k0_t8) a + S1.size a ≤ S2.size a
  k0_off62_inb : ∀ k0_t8 : Fin k0_t8_loop.trips, ∀ (k0_h8 : k0_cond8 k0_t8 = 1#1), ∀ a, (k0_off62 k0_t8) a + S1x1024x512.size a ≤ S2x1024x512.size a
  k0_off63_inb : ∀ k0_t8 : Fin k0_t8_loop.trips, ∀ (k0_h8 : k0_cond8 k0_t8 = 1#1), ∀ a, (k0_off63 k0_t8) a + S1024x512.size a ≤ S1024x8192.size a
  k0_off64_inb : ∀ k0_t8 : Fin k0_t8_loop.trips, ∀ a, (k0_off64 k0_t8) a + S1x512x512.size a ≤ S4x512x8192.size a
  k0_off64_packedbf16 : ∀ k0_t8 : Fin k0_t8_loop.trips, (Rect.unit (s := S4x512x8192) (k0_off64 k0_t8) S1x512x512.size (k0_off64_inb k0_t8)).PackedRows (EltTy.packing .bf16)
  k0_dev10_lt : ∀ d0 : Dev nD, (k0_dev10 d0) < nD
  k0_dev11_lt : ∀ d0 : Dev nD, (k0_dev11 d0) < nD
  k0_t9_ok : k0_t9_loop.OK
  k0_off65_inb : ∀ k0_t9 : Fin k0_t9_loop.trips, ∀ a, (k0_off65 k0_t9) a + S1x512x512.size a ≤ S4x512x8192.size a
  k0_dev12_lt : ∀ d0 : Dev nD, (k0_dev12 d0) < nD
  k0_dev13_lt : ∀ d0 : Dev nD, (k0_dev13 d0) < nD
  k0_t10_ok : k0_t10_loop.OK
  k0_off66_inb : ∀ k0_t10 : Fin k0_t10_loop.trips, ∀ a, (k0_off66 k0_t10) a + S1x512x512.size a ≤ S4x512x8192.size a
  k0_t11_ok : k0_t11_loop.OK
  k0_off67_inb : ∀ k0_t11 : Fin k0_t11_loop.trips, ∀ a, (k0_off67 k0_t11) a + S1x512x512.size a ≤ S4x512x8192.size a
  k0_t12_ok : k0_t12_loop.OK
  k0_off68_inb : ∀ k0_t12 : Fin k0_t12_loop.trips, ∀ a, (k0_off68 k0_t12) a + S1x512x512.size a ≤ S4x512x8192.size a
  k0_t13_ok : k0_t13_loop.OK
  k0_off69_inb : ∀ k0_t13 : Fin k0_t13_loop.trips, ∀ (k0_h9 : k0_cond9 k0_t13 = 1#1), ∀ a, (k0_off69 k0_t13) a + S1.size a ≤ S2.size a
  k0_off70_inb : ∀ k0_t13 : Fin k0_t13_loop.trips, ∀ (k0_h9 : k0_cond9 k0_t13 = 1#1), ∀ a, (k0_off70 k0_t13) a + S1x512x2048.size a ≤ S2x512x2048.size a
  k0_off70_wordsbf16 : ∀ k0_t13 : Fin k0_t13_loop.trips, ∀ (k0_h9 : k0_cond9 k0_t13 = 1#1), (Rect.unit (s := S2x512x2048) (k0_off70 k0_t13) S1x512x2048.size (k0_off70_inb k0_t13 k0_h9)).WholeWords (EltTy.packing .bf16)
  k0_off71_inb : ∀ (d0 : Dev nD) (k0_t13 : Fin k0_t13_loop.trips), ∀ a, (k0_off71 d0 k0_t13) a + S1x512x2048.size a ≤ S4x512x8192.size a
  k0_off72_inb : ∀ k0_t13 : Fin k0_t13_loop.trips, ∀ a, (k0_off72 k0_t13) a + S1x512x2048.size a ≤ S2x512x2048.size a
  k0_off72_packedbf16 : ∀ k0_t13 : Fin k0_t13_loop.trips, (Rect.unit (s := S2x512x2048) (k0_off72 k0_t13) S1x512x2048.size (k0_off72_inb k0_t13)).PackedRows (EltTy.packing .bf16)
  k0_off73_inb : ∀ k0_t13 : Fin k0_t13_loop.trips, ∀ a, (k0_off73 k0_t13) a + S1.size a ≤ S2.size a
  k0_off74_inb : ∀ k0_t13 : Fin k0_t13_loop.trips, ∀ a, (k0_off74 k0_t13) a + S512x2048.size a ≤ S512x32768.size a
  k0_off75_inb : ∀ k0_t13 : Fin k0_t13_loop.trips, ∀ a, (k0_off75 k0_t13) a + S1x512x2048.size a ≤ S2x512x2048.size a
  k0_off75_wordsbf16 : ∀ k0_t13 : Fin k0_t13_loop.trips, (Rect.unit (s := S2x512x2048) (k0_off75 k0_t13) S1x512x2048.size (k0_off75_inb k0_t13)).WholeWords (EltTy.packing .bf16)
  k0_off74_wordsbf16 : ∀ k0_t13 : Fin k0_t13_loop.trips, (Rect.unit (s := S512x32768) (k0_off74 k0_t13) S512x2048.size (k0_off74_inb k0_t13)).WholeWords (EltTy.packing .bf16)
  hstage0_0 : ∀ j, (stage0_0 j).IsWhole

variable [Facts₀]

abbrev cc0_scratch4 : DmaSems sig S11 := SemArray.consecutive 1 S11 hcc0_scratch4
abbrev cc0_scratch5 : DmaSems sig S11 := SemArray.consecutive 12 S11 hcc0_scratch5
abbrev cc0_scratch6 : DmaSems sig S2 := SemArray.consecutive 23 S2 hcc0_scratch6
abbrev cc0_scratch7 : DmaSems sig S2 := SemArray.consecutive 25 S2 hcc0_scratch7
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.whole (Memref.whole main_arg0) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S512x1024 : Shape := ⟨2, ![512, 1024]⟩
abbrev S1024x32768 : Shape := ⟨2, ![1024, 32768]⟩
abbrev S512x32768 : Shape := ⟨2, ![512, 32768]⟩
abbrev S_ : Shape := ⟨0, ![]⟩
abbrev S512 : Shape := ⟨1, ![512]⟩
abbrev S512x1 : Shape := ⟨2, ![512, 1]⟩

abbrev nBuf : Space → Nat
  | .hbm => 15
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x32768, .f32⟩
  | .hbm, ⟨2, _⟩ => ⟨S512x32768, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x32768, .f32⟩
  | .hbm, ⟨7, _⟩ => ⟨S512x32768, .f32⟩
  | .hbm, ⟨8, _⟩ => ⟨S512x32768, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x32768, .f32⟩
  | .hbm, ⟨13, _⟩ => ⟨S512x32768, .f32⟩
  | .hbm, ⟨14, _⟩ => ⟨S512x32768, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  reducesTo_S512x32768_S512_d1 : S512x32768.ReducesTo [1] S512
  h_S_ : 0 < S_.numel
  bcast_S512_S512x1_0 : S512.BroadcastsInDim S512x1 (![0] : Fin 1 → Fin S512x1.rank)
  bcast_S512x1_S512x32768_0_1 : S512x1.BroadcastsInDim S512x32768 (![0, 1] : Fin 2 → Fin S512x32768.rank)
  bitsLt_bf16_f32 : FTy.bits .bf16 < FTy.bits .f32
  dot_S512x1024_S1024x32768_S512x32768_1_0_0_1_n_n_wf : DotDims.WF S512x1024 S1024x32768 S512x32768 [1] [0] [0] [1] [] []

variable [Facts₀]

def dot_S512x1024_S1024x32768_S512x32768_1_0_0_1_n_n : DotDims S512x1024 S1024x32768 S512x32768 where
  lhsContracting := [1]
  rhsContracting := [0]
  lhsNonContracting := [0]
  rhsNonContracting := [1]
  lhsBatch := []
  rhsBatch := []
  wf := dot_S512x1024_S1024x32768_S512x32768_1_0_0_1_n_n_wf

class Facts : Prop extends Facts₀ where

variable [Facts]
-- ==== Proof.KI.Ring.lean ====
/- The ring: the sixteen devices are the points (x, y, z) of a 2 × 2 × 4 mesh, and each talks to its two neighbours along z. -/
import proofs.«900748_g7700000000000749_dist_arsfmx_v7x_xyz2x2x4_z_t512_d1024_v8192_bf16_1_alg».proof.Proof.Gen.KernelIdeal

namespace Cert.KernelIdeal.P

open Cert.KernelIdeal Cert.KernelIdeal.Gen Idealize.ShloMosaic

/-- One step up the z axis, x and y kept. -/
def nxt (c : Dev nD) : Dev nD := ⟨4 * (c.val / 4) + (c.val % 4 + 1) % 4, by have := c.isLt; unfold nD at *; omega⟩

/-- One step down the z axis. -/
def prv (c : Dev nD) : Dev nD := ⟨4 * (c.val / 4) + (c.val % 4 + 3) % 4, by have := c.isLt; unfold nD at *; omega⟩

theorem prv_nxt (c : Dev nD) : prv (nxt c) = c := by revert c; decide
theorem nxt_prv (c : Dev nD) : nxt (prv c) = c := by revert c; decide
def ring : Dev nD ≃ Dev nD := ⟨nxt, prv, prv_nxt, nxt_prv⟩

/-- The device s hops down the ring: where slot s of a device's exchange buffer was computed. -/
def back (s : Nat) (c : Dev nD) : Dev nD := prv^[s] c

def zOf (c : Dev nD) : Fin 4 := ⟨c.val % 4, Nat.mod_lt _ (by decide)⟩

/-- The printed device chains are the two neighbours: the first signal goes down the ring, everything else up. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = nxt c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = nxt c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = nxt c := by revert c; decide +kernel
theorem dev9_eq (c : Dev nD) : (⟨k0_dev9 c, k0_dev9_lt c⟩ : Dev nD) = nxt c := by revert c; decide +kernel
theorem dev10_eq (c : Dev nD) : (⟨k0_dev10 c, k0_dev10_lt c⟩ : Dev nD) = nxt c := by revert c; decide +kernel
theorem dev11_eq (c : Dev nD) : (⟨k0_dev11 c, k0_dev11_lt c⟩ : Dev nD) = nxt c := by revert c; decide +kernel
theorem dev12_eq (c : Dev nD) : (⟨k0_dev12 c, k0_dev12_lt c⟩ : Dev nD) = nxt c := by revert c; decide +kernel
theorem dev13_eq (c : Dev nD) : (⟨k0_dev13 c, k0_dev13_lt c⟩ : Dev nD) = nxt c := by revert c; decide +kernel

end Cert.KernelIdeal.P
-- ==== Proof.KI.Vals.lean ====
/- What each buffer holds, as functions of the launch memory: the chunks of W, the tiles exp (x · W_k), the exchange buffer's final contents, the partial row sums, the result. -/
import proofs.«900748_g7700000000000749_dist_arsfmx_v7x_xyz2x2x4_z_t512_d1024_v8192_bf16_1_alg».proof.Proof.KI.Ring
import proofs.«900748_g7700000000000749_dist_arsfmx_v7x_xyz2x2x4_z_t512_d1024_v8192_bf16_1_alg».proof.Proof.KI.SkeletonP
import proofs.«900748_g7700000000000749_dist_arsfmx_v7x_xyz2x2x4_z_t512_d1024_v8192_bf16_1_alg».proof.Proof.Gen.KernelIdeal.Launch
import Idealize.ShloMosaic.Lib.ValueIdx

noncomputable section

namespace Cert.KernelIdeal.P

open Cert.KernelIdeal Cert.KernelIdeal.Gen Cert.KernelIdeal.GenP
open Idealize.ShloMosaic Idealize.ShloMosaic.TcCoe Idealize.ShloMosaic.ValueIdx

variable {F : FTy → Type} [FloatOps F]
variable (m : (ℓ : Loc nD τ sig) → Buf (Elt F) ℓ)

def xA (d : Dev nD) : Vec F S512x1024 .f32 := m ((d : Thread nD τ).loc main_arg0)

def wA (d : Dev nD) : Vec F S1024x8192 .f32 := m ((d : Thread nD τ).loc main_arg1)

def xS (d : Dev nD) : Vec F S512x1024 .f32 := (win0_0.blk (0 : Fin 1)).view.read (Elt F) (xA m d)

def xB (d : Dev nD) : FVec F S512x1024 .bf16 := k0_pay25 (xS m d)

def wChunk (d : Dev nD) (k : Fin 16) : Vec F S1x1024x512 .f32 :=
  fun i => wA m d (ix2 (i 1) ⟨512 * k.val + (i 2).val, by have h2 : (i 2).val < 512 := (i 2).isLt; have := k.isLt; show _ < 8192; omega⟩)

def eTile (d : Dev nD) (k : Fin 16) : FVec F S512x512 .f32 := k0_pay1 (wChunk m d k) (xB m d)

def eChunk (d : Dev nD) (k : Fin 16) : FVec F S1x512x512 .bf16 := k0_pay2 (wChunk m d k) (xB m d)

def eRow (d : Dev nD) (r : Fin 512) (j : Fin 8192) : Elt F .bf16 :=
  eChunk m d ⟨j.val / 512, by have := j.isLt; omega⟩ (ix3 (0 : Fin 1) r ⟨j.val % 512, Nat.mod_lt _ (by decide)⟩)

/-- The exchange buffer once every copy has landed: slot s is the row computed s hops down the ring. -/
def commF (c : Dev nD) : Vec F S4x512x8192 .bf16 := fun i => eRow m (back (i 0).val c) (i 1) (i 2)

def commChunk (c : Dev nD) (s : Fin 4) (k : Fin 16) : Vec F S1x512x512 .bf16 :=
  fun i => commF m c (ix3 s (i 1) ⟨512 * k.val + (i 2).val, by have h2 : (i 2).val < 512 := (i 2).isLt; have := k.isLt; show _ < 8192; omega⟩)

/-- The device's own partial row sum: its sixteen tiles' row sums added in order onto zero. -/
def sum0 (d : Dev nD) : FVec F S512x1 .f32 :=
  (List.finRange 16).foldl (fun acc k => k0_pay3 acc (wChunk m d k) (xB m d)) (k0_pay26 (F := F))

/-- The partial row sum of a received slot. -/
def sumS (c : Dev nD) (s : Fin 4) : FVec F S512x1 .f32 :=
  (List.finRange 16).foldl (fun acc k => k0_pay28 acc (commChunk m c s k)) (k0_pay27 (F := F))

def outSrc (c : Dev nD) (j : Fin 16) : Vec F S1x512x2048 .bf16 :=
  fun i => commF m c (ix3 (⟨((zOf c).val + 4 - j.val / 4) % 4, Nat.mod_lt _ (by decide)⟩ : Fin 4) (i 1)
    ⟨2048 * (j.val % 4) + (i 2).val, by have h2 : (i 2).val < 2048 := (i 2).isLt; show _ < 8192; omega⟩)

def outBlk (c : Dev nD) (j : Fin 16) : FVec F S1x512x2048 .bf16 :=
  k0_pay34 (sum0 m c) (sumS m c 1) (sumS m c 2) (sumS m c 3) (outSrc m c j)

/-- The result: each entry of the exchange buffer's final contents times the reciprocal of the four partial sums' total. -/
def outF (c : Dev nD) : Vec F S512x32768 .bf16 := fun i =>
  outBlk m c ⟨(i 1).val / 2048, by have h1 : (i 1).val < 32768 := (i 1).isLt; show _ < 16; omega⟩ (ix3 (0 : Fin 1) (i 0) ⟨(i 1).val % 2048, Nat.mod_lt _ (by decide)⟩)

end Cert.KernelIdeal.P

end
-- ==== Proof.KI.Sched.lean ====
/- The exchange as a schedule of rounds: one barrier cell and eleven send and eleven receive cells a device, each with one round; a copy's landing hands over the region at its final contents. -/
import proofs.«900748_g7700000000000749_dist_arsfmx_v7x_xyz2x2x4_z_t512_d1024_v8192_bf16_1_alg».proof.Proof.KI.Vals
import Idealize.ShloMosaic.Lib.Pipeline.Launch
import Idealize.ShloMosaic.Lib.Pipeline.Kit
import Idealize.ShloMosaic.Lib.Tactic
import Idealize.ShloMosaic.Lib.Transfers

noncomputable section

namespace Cert.KernelIdeal.P

open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool

abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER; infer_instance

abbrev 𝒱₀ : Variants := Variants.none

variable (m : (ℓ : Loc nD τ sig) → Buf (Elt F) ℓ) (ρ : Dev nD → PrngReg)

abbrev barS : Sem sig := (SemArray.scalar (sig.barrier 0 rfl) : Sems sig S_).sem
abbrev sS (q : Fin 11) : DmaSem sig := (cc0_scratch4 : DmaSems sig S11).ix (ix1 q)
abbrev rS (q : Fin 11) : DmaSem sig := (cc0_scratch5 : DmaSems sig S11).ix (ix1 q)

abbrev barCell (c : Dev nD) : GSem nD τ sig := ((c : Thread nD τ), .reg barS)
abbrev sendCell (c : Dev nD) (q : Fin 11) : GSem nD τ sig := ((c : Thread nD τ), .dma (sS q))
abbrev recvCell (c : Dev nD) (q : Fin 11) : GSem nD τ sig := ((c : Thread nD τ), .dma (rS q))

/-- Which copy a DMA semaphore belongs to, and on which side. -/
def kindOf (sm : SemLoc sig) : Option (Bool × Fin 11) :=
  (List.finRange 11).findSome? fun q => if sm = .dma (sS q) then some (false, q) else if sm = .dma (rS q) then some (true, q) else none

theorem kindOf_send : ∀ q : Fin 11, kindOf (.dma (sS q)) = some (false, q) := by decide
theorem kindOf_recv : ∀ q : Fin 11, kindOf (.dma (rS q)) = some (true, q) := by decide
theorem kindOf_bar : kindOf (.reg barS) = none := by decide

/-- The exchange buffer whole. -/
abbrev Wc : Memref sig .tc .vmem S4x512x8192 .bf16 := Memref.whole cc0_scratch0

abbrev srcM0 : Memref sig .tc .vmem S512x1024 .bf16 := ((Wc.slice (Rect.unit (s := S4x512x8192) ![0, 0, 0] S1x512x1024.size inb_S4x512x8192_S1x512x1024_0_0_0) (fun _ => rfl)).squeeze S512x1024 squeezes_S1x512x1024_S512x1024)
abbrev dstM0 : Memref sig .tc .vmem S512x1024 .bf16 := ((Wc.slice (Rect.unit (s := S4x512x8192) ![1, 0, 0] S1x512x1024.size inb_S4x512x8192_S1x512x1024_1_0_0) (fun _ => rfl)).squeeze S512x1024 squeezes_S1x512x1024_S512x1024)
abbrev srcM1 : Memref sig .tc .vmem S512x1024 .bf16 := ((Wc.slice (Rect.unit (s := S4x512x8192) ![0, 0, 1024] S1x512x1024.size inb_S4x512x8192_S1x512x1024_0_0_1024) (fun _ => rfl)).squeeze S512x1024 squeezes_S1x512x1024_S512x1024)
abbrev dstM1 : Memref sig .tc .vmem S512x1024 .bf16 := ((Wc.slice (Rect.unit (s := S4x512x8192) ![1, 0, 1024] S1x512x1024.size inb_S4x512x8192_S1x512x1024_1_0_1024) (fun _ => rfl)).squeeze S512x1024 squeezes_S1x512x1024_S512x1024)
abbrev srcM2 : Memref sig .tc .vmem S512x1024 .bf16 := ((Wc.slice (Rect.unit (s := S4x512x8192) ![0, 0, 2048] S1x512x1024.size inb_S4x512x8192_S1x512x1024_0_0_2048) (fun _ => rfl)).squeeze S512x1024 squeezes_S1x512x1024_S512x1024)
abbrev dstM2 : Memref sig .tc .vmem S512x1024 .bf16 := ((Wc.slice (Rect.unit (s := S4x512x8192) ![1, 0, 2048] S1x512x1024.size inb_S4x512x8192_S1x512x1024_1_0_2048) (fun _ => rfl)).squeeze S512x1024 squeezes_S1x512x1024_S512x1024)
abbrev srcM3 : Memref sig .tc .vmem S512x1024 .bf16 := ((Wc.slice (Rect.unit (s := S4x512x8192) ![0, 0, 3072] S1x512x1024.size inb_S4x512x8192_S1x512x1024_0_0_3072) (fun _ => rfl)).squeeze S512x1024 squeezes_S1x512x1024_S512x1024)
abbrev dstM3 : Memref sig .tc .vmem S512x1024 .bf16 := ((Wc.slice (Rect.unit (s := S4x512x8192) ![1, 0, 3072] S1x512x1024.size inb_S4x512x8192_S1x512x1024_1_0_3072) (fun _ => rfl)).squeeze S512x1024 squeezes_S1x512x1024_S512x1024)
abbrev srcM4 : Memref sig .tc .vmem S512x1024 .bf16 := ((Wc.slice (Rect.unit (s := S4x512x8192) ![0, 0, 4096] S1x512x1024.size inb_S4x512x8192_S1x512x1024_0_0_4096) (fun _ => rfl)).squeeze S512x1024 squeezes_S1x512x1024_S512x1024)
abbrev dstM4 : Memref sig .tc .vmem S512x1024 .bf16 := ((Wc.slice (Rect.unit (s := S4x512x8192) ![1, 0, 4096] S1x512x1024.size inb_S4x512x8192_S1x512x1024_1_0_4096) (fun _ => rfl)).squeeze S512x1024 squeezes_S1x512x1024_S512x1024)
abbrev srcM5 : Memref sig .tc .vmem S512x1024 .bf16 := ((Wc.slice (Rect.unit (s := S4x512x8192) ![0, 0, 5120] S1x512x1024.size inb_S4x512x8192_S1x512x1024_0_0_5120) (fun _ => rfl)).squeeze S512x1024 squeezes_S1x512x1024_S512x1024)
abbrev dstM5 : Memref sig .tc .vmem S512x1024 .bf16 := ((Wc.slice (Rect.unit (s := S4x512x8192) ![1, 0, 5120] S1x512x1024.size inb_S4x512x8192_S1x512x1024_1_0_5120) (fun _ => rfl)).squeeze S512x1024 squeezes_S1x512x1024_S512x1024)
abbrev srcM6 : Memref sig .tc .vmem S512x1024 .bf16 := ((Wc.slice (Rect.unit (s := S4x512x8192) ![0, 0, 6144] S1x512x1024.size inb_S4x512x8192_S1x512x1024_0_0_6144) (fun _ => rfl)).squeeze S512x1024 squeezes_S1x512x1024_S512x1024)
abbrev dstM6 : Memref sig .tc .vmem S512x1024 .bf16 := ((Wc.slice (Rect.unit (s := S4x512x8192) ![1, 0, 6144] S1x512x1024.size inb_S4x512x8192_S1x512x1024_1_0_6144) (fun _ => rfl)).squeeze S512x1024 squeezes_S1x512x1024_S512x1024)
abbrev srcM7 : Memref sig .tc .vmem S512x1024 .bf16 := ((Wc.slice (Rect.unit (s := S4x512x8192) ![0, 0, 7168] S1x512x1024.size inb_S4x512x8192_S1x512x1024_0_0_7168) (fun _ => rfl)).squeeze S512x1024 squeezes_S1x512x1024_S512x1024)
abbrev dstM7 : Memref sig .tc .vmem S512x1024 .bf16 := ((Wc.slice (Rect.unit (s := S4x512x8192) ![1, 0, 7168] S1x512x1024.size inb_S4x512x8192_S1x512x1024_1_0_7168) (fun _ => rfl)).squeeze S512x1024 squeezes_S1x512x1024_S512x1024)
abbrev srcM8 : Memref sig .tc .vmem S512x8192 .bf16 := ((Wc.slice (Rect.unit (s := S4x512x8192) ![1, 0, 0] S1x512x8192.size inb_S4x512x8192_S1x512x8192_1_0_0) (fun _ => rfl)).squeeze S512x8192 squeezes_S1x512x8192_S512x8192)
abbrev dstM8 : Memref sig .tc .vmem S512x8192 .bf16 := ((Wc.slice (Rect.unit (s := S4x512x8192) ![2, 0, 0] S1x512x8192.size inb_S4x512x8192_S1x512x8192_2_0_0) (fun _ => rfl)).squeeze S512x8192 squeezes_S1x512x8192_S512x8192)
abbrev srcM9 : Memref sig .tc .vmem S512x4096 .bf16 := ((Wc.slice (Rect.unit (s := S4x512x8192) ![2, 0, 0] S1x512x4096.size inb_S4x512x8192_S1x512x4096_2_0_0) (fun _ => rfl)).squeeze S512x4096 squeezes_S1x512x4096_S512x4096)
abbrev dstM9 : Memref sig .tc .vmem S512x4096 .bf16 := ((Wc.slice (Rect.unit (s := S4x512x8192) ![3, 0, 0] S1x512x4096.size inb_S4x512x8192_S1x512x4096_3_0_0) (fun _ => rfl)).squeeze S512x4096 squeezes_S1x512x4096_S512x4096)
abbrev srcM10 : Memref sig .tc .vmem S512x4096 .bf16 := ((Wc.slice (Rect.unit (s := S4x512x8192) ![2, 0, 4096] S1x512x4096.size inb_S4x512x8192_S1x512x4096_2_0_4096) (fun _ => rfl)).squeeze S512x4096 squeezes_S1x512x4096_S512x4096)
abbrev dstM10 : Memref sig .tc .vmem S512x4096 .bf16 := ((Wc.slice (Rect.unit (s := S4x512x8192) ![3, 0, 4096] S1x512x4096.size inb_S4x512x8192_S1x512x4096_3_0_4096) (fun _ => rfl)).squeeze S512x4096 squeezes_S1x512x4096_S512x4096)
abbrev wM0 : Memref sig .tc .vmem S1024x512 .f32 := (((Memref.whole cc0_scratch2 : Memref sig .tc .vmem S2x1024x512 .f32).slice (Rect.unit (s := S2x1024x512) ![0, 0, 0] S1x1024x512.size inb_S2x1024x512_S1x1024x512_0_0_0) (fun _ => rfl)).squeeze S1024x512 squeezes_S1x1024x512_S1024x512)
abbrev wM1 : Memref sig .tc .vmem S1024x512 .f32 := (((Memref.whole cc0_scratch2 : Memref sig .tc .vmem S2x1024x512 .f32).slice (Rect.unit (s := S2x1024x512) ![1, 0, 0] S1x1024x512.size inb_S2x1024x512_S1x1024x512_1_0_0) (fun _ => rfl)).squeeze S1024x512 squeezes_S1x1024x512_S1024x512)
abbrev oM0 : Memref sig .tc .vmem S512x2048 .bf16 := (((Memref.whole cc0_scratch3 : Memref sig .tc .vmem S2x512x2048 .bf16).slice (Rect.unit (s := S2x512x2048) ![0, 0, 0] S1x512x2048.size inb_S2x512x2048_S1x512x2048_0_0_0) (fun _ => rfl)).squeeze S512x2048 squeezes_S1x512x2048_S512x2048)
abbrev oM1 : Memref sig .tc .vmem S512x2048 .bf16 := (((Memref.whole cc0_scratch3 : Memref sig .tc .vmem S2x512x2048 .bf16).slice (Rect.unit (s := S2x512x2048) ![1, 0, 0] S1x512x2048.size inb_S2x512x2048_S1x512x2048_1_0_0) (fun _ => rfl)).squeeze S512x2048 squeezes_S1x512x2048_S512x2048)

/-- The lent source region of copy q, holding f. -/
def srcPts (c : Dev nD) (f : Vec F S4x512x8192 .bf16) : Fin 11 → sProp 𝕄
  | 0 => ((srcM0 : Memref sig .tc .vmem _ .bf16).view.loc (c : Thread nD τ) ↦[(srcM0 : Memref sig .tc .vmem _ .bf16).view.set]{fullShare} f)
  | 1 => ((srcM1 : Memref sig .tc .vmem _ .bf16).view.loc (c : Thread nD τ) ↦[(srcM1 : Memref sig .tc .vmem _ .bf16).view.set]{fullShare} f)
  | 2 => ((srcM2 : Memref sig .tc .vmem _ .bf16).view.loc (c : Thread nD τ) ↦[(srcM2 : Memref sig .tc .vmem _ .bf16).view.set]{fullShare} f)
  | 3 => ((srcM3 : Memref sig .tc .vmem _ .bf16).view.loc (c : Thread nD τ) ↦[(srcM3 : Memref sig .tc .vmem _ .bf16).view.set]{fullShare} f)
  | 4 => ((srcM4 : Memref sig .tc .vmem _ .bf16).view.loc (c : Thread nD τ) ↦[(srcM4 : Memref sig .tc .vmem _ .bf16).view.set]{fullShare} f)
  | 5 => ((srcM5 : Memref sig .tc .vmem _ .bf16).view.loc (c : Thread nD τ) ↦[(srcM5 : Memref sig .tc .vmem _ .bf16).view.set]{fullShare} f)
  | 6 => ((srcM6 : Memref sig .tc .vmem _ .bf16).view.loc (c : Thread nD τ) ↦[(srcM6 : Memref sig .tc .vmem _ .bf16).view.set]{fullShare} f)
  | 7 => ((srcM7 : Memref sig .tc .vmem _ .bf16).view.loc (c : Thread nD τ) ↦[(srcM7 : Memref sig .tc .vmem _ .bf16).view.set]{fullShare} f)
  | 8 => ((srcM8 : Memref sig .tc .vmem _ .bf16).view.loc (c : Thread nD τ) ↦[(srcM8 : Memref sig .tc .vmem _ .bf16).view.set]{fullShare.left} f)
  | 9 => ((srcM9 : Memref sig .tc .vmem _ .bf16).view.loc (c : Thread nD τ) ↦[(srcM9 : Memref sig .tc .vmem _ .bf16).view.set]{fullShare.left} f)
  | 10 => ((srcM10 : Memref sig .tc .vmem _ .bf16).view.loc (c : Thread nD τ) ↦[(srcM10 : Memref sig .tc .vmem _ .bf16).view.set]{fullShare.left} f)

/-- The landing region of copy q, holding f. -/
def dstPts (c : Dev nD) (f : Vec F S4x512x8192 .bf16) : Fin 11 → sProp 𝕄
  | 0 => ((dstM0 : Memref sig .tc .vmem _ .bf16).view.loc (c : Thread nD τ) ↦[(dstM0 : Memref sig .tc .vmem _ .bf16).view.set]{fullShare} f)
  | 1 => ((dstM1 : Memref sig .tc .vmem _ .bf16).view.loc (c : Thread nD τ) ↦[(dstM1 : Memref sig .tc .vmem _ .bf16).view.set]{fullShare} f)
  | 2 => ((dstM2 : Memref sig .tc .vmem _ .bf16).view.loc (c : Thread nD τ) ↦[(dstM2 : Memref sig .tc .vmem _ .bf16).view.set]{fullShare} f)
  | 3 => ((dstM3 : Memref sig .tc .vmem _ .bf16).view.loc (c : Thread nD τ) ↦[(dstM3 : Memref sig .tc .vmem _ .bf16).view.set]{fullShare} f)
  | 4 => ((dstM4 : Memref sig .tc .vmem _ .bf16).view.loc (c : Thread nD τ) ↦[(dstM4 : Memref sig .tc .vmem _ .bf16).view.set]{fullShare} f)
  | 5 => ((dstM5 : Memref sig .tc .vmem _ .bf16).view.loc (c : Thread nD τ) ↦[(dstM5 : Memref sig .tc .vmem _ .bf16).view.set]{fullShare} f)
  | 6 => ((dstM6 : Memref sig .tc .vmem _ .bf16).view.loc (c : Thread nD τ) ↦[(dstM6 : Memref sig .tc .vmem _ .bf16).view.set]{fullShare} f)
  | 7 => ((dstM7 : Memref sig .tc .vmem _ .bf16).view.loc (c : Thread nD τ) ↦[(dstM7 : Memref sig .tc .vmem _ .bf16).view.set]{fullShare} f)
  | 8 => ((dstM8 : Memref sig .tc .vmem _ .bf16).view.loc (c : Thread nD τ) ↦[(dstM8 : Memref sig .tc .vmem _ .bf16).view.set]{fullShare} f)
  | 9 => ((dstM9 : Memref sig .tc .vmem _ .bf16).view.loc (c : Thread nD τ) ↦[(dstM9 : Memref sig .tc .vmem _ .bf16).view.set]{fullShare} f)
  | 10 => ((dstM10 : Memref sig .tc .vmem _ .bf16).view.loc (c : Thread nD τ) ↦[(dstM10 : Memref sig .tc .vmem _ .bf16).view.set]{fullShare} f)

/-- The units copy q credits its two cells with. -/
def amt : Fin 11 → ℕ
  | 0 => (dstM0 : Memref sig .tc .vmem _ .bf16).view.dmaCredit
  | 1 => (dstM1 : Memref sig .tc .vmem _ .bf16).view.dmaCredit
  | 2 => (dstM2 : Memref sig .tc .vmem _ .bf16).view.dmaCredit
  | 3 => (dstM3 : Memref sig .tc .vmem _ .bf16).view.dmaCredit
  | 4 => (dstM4 : Memref sig .tc .vmem _ .bf16).view.dmaCredit
  | 5 => (dstM5 : Memref sig .tc .vmem _ .bf16).view.dmaCredit
  | 6 => (dstM6 : Memref sig .tc .vmem _ .bf16).view.dmaCredit
  | 7 => (dstM7 : Memref sig .tc .vmem _ .bf16).view.dmaCredit
  | 8 => (dstM8 : Memref sig .tc .vmem _ .bf16).view.dmaCredit
  | 9 => (dstM9 : Memref sig .tc .vmem _ .bf16).view.dmaCredit
  | 10 => (dstM10 : Memref sig .tc .vmem _ .bf16).view.dmaCredit

theorem amt_pos : ∀ q : Fin 11, 0 < amt q := by
  intro q; fin_cases q <;> exact View.dmaCredit_pos _ (by decide)

/-- What a device hands its lower neighbour with its barrier signal: its eleven landing regions and their cells at round 0. -/
def barPay (p : Dev nD) : sProp 𝕄 :=
  iprop((bigSep Finset.univ fun q : Fin 11 => iprop(∃ f, dstPts (F := F) p f q)) ∗ (bigSep Finset.univ fun q : Fin 11 => reached ER (recvCell p q) 0))

abbrev IsBar (g : GSem nD τ sig) : Prop := g.1.2 = .tc ∧ g.2 = .reg barS
abbrev IsXfer (g : GSem nD τ sig) : Prop := g.1.2 = .tc ∧ (kindOf g.2).isSome

/-- One round a cell: the barrier cell takes a unit from each neighbour; a send cell hands back the lent source, a receive cell hands over the landing region at the final contents. -/
def ringRd : Rounds.Schedule (GSem nD τ sig) Bool 𝕄 where
  duties g r := if r = 0 ∧ IsBar g then Finset.univ else if r = 0 ∧ IsXfer g then {false} else ∅
  unitless _ := False
  amount g _ _ := match kindOf g.2 with | some (_, q) => amt q | none => 1
  payload g _ d := match kindOf g.2 with
    | some (false, q) => srcPts g.1.1 (commF m g.1.1) q
    | some (true, q) => dstPts g.1.1 (commF m g.1.1) q
    | none => if g.2 = .reg barS then (if d then barPay (nxt g.1.1) else iprop(emp)) else iprop(emp)
  amount_pos g _ _ _ := by
    cases h : kindOf g.2 with
    | none => exact Nat.one_pos
    | some p => exact amt_pos p.2

end Cert.KernelIdeal.P

end
-- ==== Proof.KI.Tables.lean ====
/- The schedule read cell by cell (duties, amounts, payloads), and what a device owes at launch. -/
import proofs.«900748_g7700000000000749_dist_arsfmx_v7x_xyz2x2x4_z_t512_d1024_v8192_bf16_1_alg».proof.Proof.KI.Sched

noncomputable section

namespace Cert.KernelIdeal.P

open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD) (q : Fin 11)

theorem isXfer_send : IsXfer (sendCell c q) := ⟨rfl, by show (kindOf (.dma (sS q))).isSome = true; rw [kindOf_send]; rfl⟩
theorem isXfer_recv : IsXfer (recvCell c q) := ⟨rfl, by show (kindOf (.dma (rS q))).isSome = true; rw [kindOf_recv]; rfl⟩
theorem not_bar_send : ¬ IsBar (sendCell c q) := fun h => by cases h.2
theorem not_bar_recv : ¬ IsBar (recvCell c q) := fun h => by cases h.2

theorem duties_bar : (ringRd (F := F) m).duties (barCell c) 0 = Finset.univ := by dsimp only [ringRd]; exact if_pos ⟨rfl, rfl, rfl⟩
theorem duties_send : (ringRd (F := F) m).duties (sendCell c q) 0 = {false} := by
  dsimp only [ringRd]; rw [if_neg (fun h => not_bar_send c q h.2)]; exact if_pos ⟨rfl, isXfer_send c q⟩
theorem duties_recv : (ringRd (F := F) m).duties (recvCell c q) 0 = {false} := by
  dsimp only [ringRd]; rw [if_neg (fun h => not_bar_recv c q h.2)]; exact if_pos ⟨rfl, isXfer_recv c q⟩
theorem duties_later (g : GSem nD τ sig) : ∀ r, 1 ≤ r → (ringRd (F := F) m).duties g r = ∅ :=
  fun r hr => by dsimp only [ringRd]; rw [if_neg fun h => by omega, if_neg fun h => by omega]

theorem amount_bar (d : Bool) : (ringRd (F := F) m).amount (barCell c) 0 d = 1 := by
  show (match kindOf (.reg barS) with | some (_, q) => amt q | none => 1) = 1; rw [kindOf_bar]
theorem amount_send (d : Bool) : (ringRd (F := F) m).amount (sendCell c q) 0 d = amt q := by
  show (match kindOf (.dma (sS q)) with | some (_, q) => amt q | none => 1) = amt q; rw [kindOf_send]
theorem amount_recv (d : Bool) : (ringRd (F := F) m).amount (recvCell c q) 0 d = amt q := by
  show (match kindOf (.dma (rS q)) with | some (_, q) => amt q | none => 1) = amt q; rw [kindOf_recv]

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (ringRd (F := F) m).expect (sendCell c q) 0 = amt q := by
  unfold Schedule.expect Schedule.amountOf; rw [duties_send, Finset.sum_singleton, amount_send]
theorem expect_recv : (ringRd (F := F) m).expect (recvCell c q) 0 = amt q := by
  unfold Schedule.expect Schedule.amountOf; rw [duties_recv, Finset.sum_singleton, amount_recv]

theorem payload_bar_true : (ringRd (F := F) m).payload (barCell c) 0 true = barPay (nxt c) := by
  dsimp only [ringRd]; rw [kindOf_bar]; dsimp only; rw [if_pos rfl, if_pos rfl]

theorem payload_bar_true_prv : (ringRd (F := F) m).payload (barCell (prv c)) 0 true = barPay c :=
  (payload_bar_true m (prv c)).trans (congrArg barPay (nxt_prv c))
theorem payload_bar_false : (ringRd (F := F) m).payload (barCell c) 0 false = iprop(emp) := by
  dsimp only [ringRd]; rw [kindOf_bar]; dsimp only; rw [if_pos rfl]; exact if_neg Bool.false_ne_true
theorem payload_send (d : Bool) : (ringRd (F := F) m).payload (sendCell c q) 0 d = srcPts c (commF m c) q := by
  show (match kindOf (.dma (sS q)) with | some (false, q) => _ | some (true, q) => _ | none => _) = _
  rw [kindOf_send]
theorem payload_recv (d : Bool) : (ringRd (F := F) m).payload (recvCell c q) 0 d = dstPts c (commF m c) q := by
  show (match kindOf (.dma (rS q)) with | some (false, q) => _ | some (true, q) => _ | none => _) = _
  rw [kindOf_recv]

end Tables

/-- The units of the eleven copies, owed to the upper neighbour's receive cells. -/
def Orecv (c : Dev nD) : CellTallies nD τ sig Unit :=
  tallyAt (recvCell (nxt c) 10) () (amt 10) + tallyAt (recvCell (nxt c) 9) () (amt 9) + tallyAt (recvCell (nxt c) 8) () (amt 8)
    + tallyAt (recvCell (nxt c) 7) () (amt 7) + tallyAt (recvCell (nxt c) 6) () (amt 6) + tallyAt (recvCell (nxt c) 5) () (amt 5)
    + tallyAt (recvCell (nxt c) 4) () (amt 4) + tallyAt (recvCell (nxt c) 3) () (amt 3) + tallyAt (recvCell (nxt c) 2) () (amt 2)
    + tallyAt (recvCell (nxt c) 1) () (amt 1) + tallyAt (recvCell (nxt c) 0) () (amt 0)

def O₁ (c : Dev nD) : CellTallies nD τ sig Unit := Orecv c + tallyAt (barCell (nxt c)) () 1
/-- With the two barrier units: what a device owes at launch. -/
def O₀ (c : Dev nD) : CellTallies nD τ sig Unit := O₁ c + tallyAt (barCell (prv c)) () 1

def L (g : GSem nD τ sig) : Finset Unit := if g.1.2 = .tc then {()} else ∅
def lv (g : GSem nD τ sig) (_ : Unit) : ℕ :=
  if g.2 = .reg barS then 1 else match kindOf g.2 with
    | some (true, q) => if q.val < 8 then 2 else if q.val = 8 then 3 else 4
    | _ => 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.P

end
-- ==== Proof.KI.Data.lean ====
/- The cells and own semaphores indexed by kind, the ghost records of the cells, and the proof data of the one grid point. -/
import proofs.«900748_g7700000000000749_dist_arsfmx_v7x_xyz2x2x4_z_t512_d1024_v8192_bf16_1_alg».proof.Proof.KI.Tables
import proofs.«900748_g7700000000000749_dist_arsfmx_v7x_xyz2x2x4_z_t512_d1024_v8192_bf16_1_alg».proof.Proof.Gen.KernelIdeal.Points
import Mathlib.Logic.Equiv.Fin.Basic

noncomputable section

namespace Cert.KernelIdeal.P

open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Twenty-three cells: the barrier cell, eleven send cells, eleven receive cells. -/
def e23 : Fin 1 ⊕ (Fin 11 ⊕ Fin 11) ≃ Fin 23 := (Equiv.sumCongr (Equiv.refl (Fin 1)) finSumFinEquiv).trans finSumFinEquiv

def kB : Fin 23 := e23 (.inl 0)
def kS (q : Fin 11) : Fin 23 := e23 (.inr (.inl q))
def kR (q : Fin 11) : Fin 23 := e23 (.inr (.inr q))

def semOf : Fin 1 ⊕ (Fin 11 ⊕ Fin 11) → SemLoc sig
  | .inl _ => .reg barS
  | .inr (.inl q) => .dma (sS q)
  | .inr (.inr q) => .dma (rS q)

def csem (k : Fin 23) : SemLoc sig := semOf (e23.symm k)

abbrev kcell (ck : Dev nD × Fin 23) : GSem nD τ sig := ((ck.1 : Thread nD τ), csem ck.2)

theorem csem_kB : csem kB = .reg barS := by unfold csem kB; rw [Equiv.symm_apply_apply]; rfl
theorem csem_kS (q : Fin 11) : csem (kS q) = .dma (sS q) := by unfold csem kS; rw [Equiv.symm_apply_apply]; rfl
theorem csem_kR (q : Fin 11) : csem (kR q) = .dma (rS q) := by unfold csem kR; rw [Equiv.symm_apply_apply]; rfl

theorem kcell_kB (c : Dev nD) : kcell (c, kB) = barCell c := by show ((c : Thread nD τ), csem kB) = _; rw [csem_kB]
theorem kcell_kS (c : Dev nD) (q : Fin 11) : kcell (c, kS q) = sendCell c q := by show ((c : Thread nD τ), csem (kS q)) = _; rw [csem_kS]
theorem kcell_kR (c : Dev nD) (q : Fin 11) : kcell (c, kR q) = recvCell c q := by show ((c : Thread nD τ), csem (kR q)) = _; rw [csem_kR]

/-- The kind of a cell is read back off its semaphore. -/
theorem semOf_injective : Function.Injective semOf := by
  intro a b h
  have hk : kindOf (semOf a) = kindOf (semOf b) := congrArg kindOf h
  rcases a with a | a | a <;> rcases b with b | b | b
  · exact congrArg Sum.inl (Subsingleton.elim a b)
  · exact absurd h (fun h' => by cases h')
  · exact absurd h (fun h' => by cases h')
  · exact absurd h (fun h' => by cases h')
  · simp only [semOf, kindOf_send] at hk; rw [(Prod.mk.inj (Option.some.inj hk)).2]
  · simp only [semOf, kindOf_send, kindOf_recv] at hk; exact absurd (Prod.mk.inj (Option.some.inj hk)).1 (by decide)
  · exact absurd h (fun h' => by cases h')
  · simp only [semOf, kindOf_send, kindOf_recv] at hk; exact absurd (Prod.mk.inj (Option.some.inj hk)).1 (by decide)
  · simp only [semOf, kindOf_recv] at hk; rw [(Prod.mk.inj (Option.some.inj hk)).2]

theorem csem_injective : Function.Injective csem := semOf_injective.comp e23.symm.injective

theorem kcell_injective : Function.Injective (kcell : Dev nD × Fin 23 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem bigSep_fin23 (Φ : Fin 23 → sProp 𝕄) :
    bigSep Finset.univ Φ = iprop(Φ kB ∗ (bigSep Finset.univ fun q : Fin 11 => Φ (kS q)) ∗ (bigSep Finset.univ fun q : Fin 11 => Φ (kR q))) := by
  rw [bigSep_univ_equiv e23 Φ, bigSep_univ_sum, bigSep_univ_sum, bigSep_univ_of_subsingleton (0 : Fin 1)]
  rfl

def lsem : Fin 4 → SemLoc sig
  | 0 => .dma ((cc0_scratch6 : DmaSems sig S2).ix (ix1 0))
  | 1 => .dma ((cc0_scratch6 : DmaSems sig S2).ix (ix1 1))
  | 2 => .dma ((cc0_scratch7 : DmaSems sig S2).ix (ix1 0))
  | 3 => .dma ((cc0_scratch7 : DmaSems sig S2).ix (ix1 1))

def e26 : (Fin 11 ⊕ Fin 11) ⊕ Fin 4 ≃ Fin 26 := (Equiv.sumCongr finSumFinEquiv (Equiv.refl (Fin 4))).trans finSumFinEquiv

def osemOf : (Fin 11 ⊕ Fin 11) ⊕ Fin 4 → SemLoc sig
  | .inl (.inl q) => .dma (sS q)
  | .inl (.inr q) => .dma (rS q)
  | .inr i => lsem i

def osem (k : Fin 26) : SemLoc sig := osemOf (e26.symm k)

theorem ownSemFacts : Pipeline.OwnSemFacts cfg0.spec osem := by decide

def oS (q : Fin 11) : Fin 26 := e26 (.inl (.inl q))
def oR (q : Fin 11) : Fin 26 := e26 (.inl (.inr q))
def oL (i : Fin 4) : Fin 26 := e26 (.inr i)

theorem osem_oS (q : Fin 11) : osem (oS q) = .dma (sS q) := by unfold osem oS; rw [Equiv.symm_apply_apply]; rfl
theorem osem_oR (q : Fin 11) : osem (oR q) = .dma (rS q) := by unfold osem oR; rw [Equiv.symm_apply_apply]; rfl
theorem osem_oL (i : Fin 4) : osem (oL i) = lsem i := by unfold osem oL; rw [Equiv.symm_apply_apply]; rfl

theorem bigSep_fin26 (Φ : Fin 26 → sProp 𝕄) :
    bigSep Finset.univ Φ = iprop(((bigSep Finset.univ fun q : Fin 11 => Φ (oS q)) ∗ (bigSep Finset.univ fun q : Fin 11 => Φ (oR q))) ∗ (bigSep Finset.univ fun i : Fin 4 => Φ (oL i))) := by
  rw [bigSep_univ_equiv e26 Φ, bigSep_univ_sum, bigSep_univ_sum]
  rfl

def localSems (c : Dev nD) : sProp 𝕄 := bigSep Finset.univ fun i : Fin 4 => semVal ((c : Thread nD τ), lsem i) 0

theorem ownSems_eq (c : Dev nD) :
    (bigSep Finset.univ fun k : Fin 26 => (semVal ((c : Thread nD τ), osem k) 0 : sProp 𝕄))
      = iprop(((bigSep Finset.univ fun q : Fin 11 => semVal (sendCell c q) 0) ∗ (bigSep Finset.univ fun q : Fin 11 => semVal (recvCell c q) 0)) ∗ localSems c) := by
  rw [bigSep_fin26]
  simp only [osem_oS, osem_oR, osem_oL]
  rfl

/-- Every cell's invariant and every cell at round 0, under the names the invariants were allocated at. -/
def records (K : Dev nD × Fin 23 → ℕ) : sProp 𝕄 :=
  iprop((bigSep Finset.univ fun ck : Dev nD × Fin 23 => cellInv ER (ringRd m) (K ck) (kcell ck))
    ∗ bigSep Finset.univ fun ck : Dev nD × Fin 23 => reached ER (kcell ck) 0)

instance records_persistent (K : Dev nD × Fin 23 → ℕ) : BI.Persistent (records m K) := by unfold records; infer_instance

theorem inv_at (K : Dev nD × Fin 23 → ℕ) (ck : Dev nD × Fin 23) :
    (records m K : sProp 𝕄) ⊢ cellInv ER (ringRd m) (K ck) (kcell ck) :=
  sep_elim_left.trans (bigSep_elim (Finset.mem_univ ck))
theorem reached_at (K : Dev nD × Fin 23 → ℕ) (ck : Dev nD × Fin 23) :
    (records m K : sProp 𝕄) ⊢ reached ER (kcell ck) 0 :=
  sep_elim_right.trans (bigSep_elim (Finset.mem_univ ck))

theorem inv_bar (K : Dev nD × Fin 23 → ℕ) (c : Dev nD) : (records m K : sProp 𝕄) ⊢ cellInv ER (ringRd m) (K (c, kB)) (barCell c) := by
  have := inv_at m K (c, kB); rwa [kcell_kB] at this
theorem inv_send (K : Dev nD × Fin 23 → ℕ) (c : Dev nD) (q : Fin 11) : (records m K : sProp 𝕄) ⊢ cellInv ER (ringRd m) (K (c, kS q)) (sendCell c q) := by
  have := inv_at m K (c, kS q); rwa [kcell_kS] at this
theorem inv_recv (K : Dev nD × Fin 23 → ℕ) (c : Dev nD) (q : Fin 11) : (records m K : sProp 𝕄) ⊢ cellInv ER (ringRd m) (K (c, kR q)) (recvCell c q) := by
  have := inv_at m K (c, kR q); rwa [kcell_kR] at this
theorem reached_bar (K : Dev nD × Fin 23 → ℕ) (c : Dev nD) : (records m K : sProp 𝕄) ⊢ reached ER (barCell c) 0 := by
  have := reached_at m K (c, kB); rwa [kcell_kB] at this
theorem reached_send (K : Dev nD × Fin 23 → ℕ) (c : Dev nD) (q : Fin 11) : (records m K : sProp 𝕄) ⊢ reached ER (sendCell c q) 0 := by
  have := reached_at m K (c, kS q); rwa [kcell_kS] at this
theorem reached_recv (K : Dev nD × Fin 23 → ℕ) (c : Dev nD) (q : Fin 11) : (records m K : sProp 𝕄) ⊢ reached ER (recvCell c q) 0 := by
  have := reached_at m K (c, kR q); rwa [kcell_kR] at this

def payToks (c : Dev nD) : sProp 𝕄 :=
  iprop(dutyTok ER (barCell (nxt c)) 0 false ∗ dutyTok ER (barCell (prv c)) 0 true
    ∗ (bigSep Finset.univ fun q : Fin 11 => dutyTok ER (recvCell (nxt c) q) 0 false)
    ∗ (bigSep Finset.univ fun q : Fin 11 => dutyTok ER (sendCell c q) 0 false))

/-- What stays with a device: its positions in its own cells, the tokens it pays with, its local semaphores at zero. -/
def linear (c : Dev nD) : sProp 𝕄 :=
  iprop((bigSep Finset.univ fun k : Fin 23 => atPos ER (kcell (c, k)) 0 ∅ 0) ∗ payToks c ∗ localSems c)

theorem atPos_eq (c : Dev nD) :
    (bigSep Finset.univ fun k : Fin 23 => (atPos ER (kcell (c, k)) 0 ∅ 0 : sProp 𝕄))
      = iprop(atPos ER (barCell c) 0 ∅ 0 ∗ (bigSep Finset.univ fun q : Fin 11 => atPos ER (sendCell c q) 0 ∅ 0)
          ∗ (bigSep Finset.univ fun q : Fin 11 => atPos ER (recvCell c q) 0 ∅ 0)) := by
  rw [bigSep_fin23]
  simp only [kcell_kB, kcell_kS, kcell_kR]

def G' (c : Dev nD) : sProp 𝕄 := iprop(∃ K, records m K ∗ linear c)

def start (c : Dev nD) : sProp 𝕄 :=
  iprop(G' m c ∗ cred (tallyAt (barCell c) () 2) ∗ (bigSep Finset.univ fun q : Fin 11 => cred (tallyAt (recvCell c q) () (amt q))) ∗ levAts L lv)

def X (c : Dev nD) : sProp 𝕄 :=
  iprop(start m c ∗ (((c : Thread nD τ).loc main_arg1) ↦{fullShare} wA m c) ∗ (((c : Thread nD τ).loc main_v1) ↦{fullShare} m ((c : Thread nD τ).loc main_v1)))

def Φ₀ (c : Dev nD) : sProp 𝕄 :=
  iprop(X m c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₁ (c : Dev nD) : sProp 𝕄 :=
  iprop((((c : Thread nD τ).loc main_arg1) ↦{fullShare} wA m c) ∗ (((c : Thread nD τ).loc main_v1) ↦{fullShare} outF m c)
    ∗ (bigSep Finset.univ fun k : Fin 26 => semVal ((c : Thread nD τ), osem k) 0)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The proof data of the one grid point. -/
def dats (ρ : Dev nD → PrngReg) (_ : Fin 1) (c : Dev nD) : Dat τ (Elt F) Unit ℕ UU ℕ cfg0 c where
  A w := m ((cfg0.win w).arr.view.loc (c : Thread nD τ))
  after w _ := match w with
    | ⟨0, _⟩ => xS m c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.P

end
-- ==== Proof.KI.Levels.lean ====
/- Levels that order the waits: send cells 0, the barrier 1, receive cells above; a wait is allowed when everything owed lies strictly higher. -/
import proofs.«900748_g7700000000000749_dist_arsfmx_v7x_xyz2x2x4_z_t512_d1024_v8192_bf16_1_alg».proof.Proof.KI.Tables

noncomputable section

namespace Cert.KernelIdeal.P

open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ UU ℕ

/-- The tallies are positive only at cells satisfying P. -/
def Supp (P : GSem nD τ sig → Prop) (O : CellTallies nD τ sig Unit) : Prop := ∀ g u, 0 < O g u → P g

theorem Supp.zero (P : GSem nD τ sig → Prop) : Supp P 0 := fun g u h => absurd h (Nat.lt_irrefl 0)

theorem Supp.add {P : GSem nD τ sig → Prop} {O₁ O₂ : CellTallies nD τ sig Unit} (h₁ : Supp P O₁) (h₂ : Supp P O₂) : Supp P (O₁ + O₂) :=
  fun g u h => (Pipeline.add_pos_cases h).elim (h₁ g u) (h₂ g u)

theorem Supp.tallyAt {P : GSem nD τ sig → Prop} {g : GSem nD τ sig} (hg : P g) (k : ℕ) : Supp P (tallyAt g () k) := fun g' u h => by
  rw [tallyAt_apply] at h
  by_cases hh : g' = g ∧ u = ()
  · rw [hh.1]; exact hg
  · rw [if_neg hh] at h; exact absurd h (Nat.lt_irrefl 0)

theorem Supp.mono {P Q : GSem nD τ sig → Prop} (hPQ : ∀ g, P g → Q g) {O : CellTallies nD τ sig Unit} (h : Supp P O) : Supp Q O :=
  fun g u hg => hPQ g (h g u hg)

def lvq (q : Fin 11) : ℕ := if q.val < 8 then 2 else if q.val = 8 then 3 else 4

theorem lv_bar (c : Dev nD) : lv (barCell c) () = 1 := if_pos rfl
theorem lv_recv (c : Dev nD) (q : Fin 11) : lv (recvCell c q) () = lvq q := by
  show (if (SemLoc.dma (rS q) : SemLoc sig) = .reg barS then 1 else match kindOf (.dma (rS q)) with
    | some (true, q) => if q.val < 8 then 2 else if q.val = 8 then 3 else 4
    | _ => 0) = lvq q
  rw [if_neg (fun h => by cases h), kindOf_recv]; rfl
theorem lvq_pos (q : Fin 11) : 0 < lvq q := by unfold lvq; split_ifs <;> decide
theorem one_lt_lvq (q : Fin 11) : 1 < lvq q := by unfold lvq; split_ifs <;> decide

/-- A device may wait on a cell while all it owes lies on cells of strictly higher level. -/
theorem mayWait_of_lt (c : Dev nD) (sm : SemLoc sig) (O : CellTallies nD τ sig Unit)
    (hO : Supp (fun g => g.1.2 = .tc ∧ lv ((c : Thread nD τ), sm) () < lv g ()) O) :
    (levAts L lv : sProp 𝕄) ⊢ MayWait (c : Thread nD τ) sm () O :=
  Pipeline.mayWait_of_levAts (by rw [L_tc]; exact Finset.mem_singleton_self _)
    (fun g i hg => ⟨by rw [show L g = {()} from if_pos (hO g i hg).1]; exact Finset.mem_singleton_self _, (hO g i hg).2⟩)

/-- The cells a device pays: the upper neighbour's receive cells and both neighbours' barrier cells. -/
def Paid (c : Dev nD) (g : GSem nD τ sig) : Prop := (∃ q, g = recvCell (nxt c) q) ∨ g = barCell (nxt c) ∨ g = barCell (prv c)

def PaidRecv (c : Dev nD) (g : GSem nD τ sig) : Prop := ∃ q, g = recvCell (nxt c) q
def PaidRecvAbove (c : Dev nD) (n : ℕ) (g : GSem nD τ sig) : Prop := ∃ q, g = recvCell (nxt c) q ∧ n < lvq q

theorem mayWait_low (c : Dev nD) (sm : SemLoc sig) (hsm : lv ((c : Thread nD τ), sm) () = 0) (O : CellTallies nD τ sig Unit)
    (hO : Supp (Paid c) O) : (levAts L lv : sProp 𝕄) ⊢ MayWait (c : Thread nD τ) sm () O :=
  mayWait_of_lt c sm O (hO.mono fun g hg => by
    rw [hsm]
    rcases hg with ⟨q, rfl⟩ | rfl | rfl
    · exact ⟨rfl, by rw [lv_recv]; exact lvq_pos q⟩
    · exact ⟨rfl, by rw [lv_bar]; exact Nat.one_pos⟩
    · exact ⟨rfl, by rw [lv_bar]; exact Nat.one_pos⟩)

theorem mayWait_bar (c : Dev nD) (O : CellTallies nD τ sig Unit) (hO : Supp (PaidRecv c) O) :
    (levAts L lv : sProp 𝕄) ⊢ MayWait (c : Thread nD τ) (.reg barS) () O :=
  mayWait_of_lt c (.reg barS) O (hO.mono fun g hg => by
    obtain ⟨q, rfl⟩ := hg
    exact ⟨rfl, by rw [show lv ((c : Thread nD τ), SemLoc.reg barS) () = 1 from lv_bar c, lv_recv]; exact one_lt_lvq q⟩)

theorem mayWait_recv (c : Dev nD) (q : Fin 11) (O : CellTallies nD τ sig Unit) (hO : Supp (PaidRecvAbove c (lvq q)) O) :
    (levAts L lv : sProp 𝕄) ⊢ MayWait (c : Thread nD τ) (.dma (rS q)) () O :=
  mayWait_of_lt c (.dma (rS q)) O (hO.mono fun g hg => by
    obtain ⟨q', rfl, hq'⟩ := hg
    exact ⟨rfl, by rw [show lv ((c : Thread nD τ), SemLoc.dma (rS q)) () = lvq q from lv_recv c q, lv_recv]; exact hq'⟩)

theorem supp_Orecv (c : Dev nD) : Supp (PaidRecv c) (Orecv c) := by
  unfold Orecv
  repeat' first | apply Supp.add | exact Supp.tallyAt ⟨_, rfl⟩ _
theorem supp_O₁ (c : Dev nD) : Supp (Paid c) (O₁ c) :=
  Supp.add ((supp_Orecv c).mono fun g hg => Or.inl hg) (Supp.tallyAt (Or.inr (Or.inl rfl)) _)
theorem supp_O₀ (c : Dev nD) : Supp (Paid c) (O₀ c) :=
  Supp.add (supp_O₁ c) (Supp.tallyAt (Or.inr (Or.inr rfl)) _)

end Cert.KernelIdeal.P

end
-- ==== Proof.KI.Launch.lean ====
/- The launch: the ghost state is dealt to the devices, tokens are passed around the ring, launch credit matches what is owed, and the run follows from the body's obligation. -/
import proofs.«900748_g7700000000000749_dist_arsfmx_v7x_xyz2x2x4_z_t512_d1024_v8192_bf16_1_alg».proof.Proof.KI.Data
import proofs.«900748_g7700000000000749_dist_arsfmx_v7x_xyz2x2x4_z_t512_d1024_v8192_bf16_1_alg».proof.Proof.KI.Levels
import proofs.«900748_g7700000000000749_dist_arsfmx_v7x_xyz2x2x4_z_t512_d1024_v8192_bf16_1_alg».proof.Proof.Gen.KernelIdeal.Launch

noncomputable section

namespace Cert.KernelIdeal.P

open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance srcPts_storable (c : Dev nD) (f : Vec F S4x512x8192 .bf16) (q : Fin 11) : BI.Storable (upEmb : UEmb _ 𝕄) (srcPts (F := F) c f q) := by
  unfold srcPts; split <;> infer_instance
instance dstPts_storable (c : Dev nD) (f : Vec F S4x512x8192 .bf16) (q : Fin 11) : BI.Storable (upEmb : UEmb _ 𝕄) (dstPts (F := F) c f q) := by
  unfold dstPts; split <;> infer_instance
instance barPay_storable (p : Dev nD) : BI.Storable (upEmb : UEmb _ 𝕄) (barPay (F := F) p) := by unfold barPay; infer_instance

instance ringRd_payload_storable (g : GSem nD τ sig) (r : ℕ) (d : Bool) :
    BI.Storable (upEmb : UEmb _ 𝕄) ((ringRd (F := F) m).payload g r d) := by
  show BI.Storable upEmb (match kindOf g.2 with
    | some (false, q) => srcPts g.1.1 (commF m g.1.1) q
    | some (true, q) => dstPts g.1.1 (commF m g.1.1) q
    | none => if g.2 = .reg barS then (if d then barPay (nxt g.1.1) else iprop(emp)) else iprop(emp))
  (repeat' split) <;> infer_instance

def ringCells : Finset (GSem nD τ sig) := Finset.univ.map ⟨kcell, kcell_injective⟩

def tokOf (cj : Dev nD × (Bool ⊕ (Fin 11 ⊕ Fin 11))) : GSem nD τ sig × ℕ × Bool := match cj.2 with
  | .inl d => (barCell cj.1, 0, d)
  | .inr (.inl q) => (sendCell cj.1 q, 0, false)
  | .inr (.inr q) => (recvCell cj.1 q, 0, false)

theorem tokOf_injective : Function.Injective tokOf := by
  rintro ⟨c, j⟩ ⟨c', j'⟩ h
  have h1 : c = c' := by
    have := congrArg (fun x : GSem nD τ sig × ℕ × Bool => x.1.1.1) h
    rcases j with d | q | q <;> rcases j' with d' | q' | q' <;> exact this
  subst h1
  have hs := congrArg (fun x : GSem nD τ sig × ℕ × Bool => x.1.2) h
  have hd := congrArg (fun x : GSem nD τ sig × ℕ × Bool => x.2.2) h
  rcases j with d | q | q <;> rcases j' with d' | q' | q'
  · have : d = d' := hd
    rw [this]
  · exact absurd hs (fun h' => by cases h')
  · exact absurd hs (fun h' => by cases h')
  · exact absurd hs (fun h' => by cases h')
  · have hk : kindOf (.dma (sS q)) = kindOf (.dma (sS q')) := congrArg kindOf hs
    rw [kindOf_send, kindOf_send] at hk
    rw [(Prod.mk.inj (Option.some.inj hk)).2]
  · have hk : kindOf (.dma (sS q)) = kindOf (.dma (rS q')) := congrArg kindOf hs
    rw [kindOf_send, kindOf_recv] at hk
    exact absurd (Prod.mk.inj (Option.some.inj hk)).1 (by decide)
  · exact absurd hs (fun h' => by cases h')
  · have hk : kindOf (.dma (rS q)) = kindOf (.dma (sS q')) := congrArg kindOf hs
    rw [kindOf_recv, kindOf_send] at hk
    exact absurd (Prod.mk.inj (Option.some.inj hk)).1 (by decide)
  · have hk : kindOf (.dma (rS q)) = kindOf (.dma (rS q')) := congrArg kindOf hs
    rw [kindOf_recv, kindOf_recv] at hk
    rw [(Prod.mk.inj (Option.some.inj hk)).2]

def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

def toks (c : Dev nD) : sProp 𝕄 :=
  iprop((dutyTok ER (barCell c) 0 false ∗ dutyTok ER (barCell c) 0 true)
    ∗ ((bigSep Finset.univ fun q : Fin 11 => dutyTok ER (sendCell c q) 0 false)
      ∗ (bigSep Finset.univ fun q : Fin 11 => dutyTok ER (recvCell c q) 0 false)))

def G (c : Dev nD) : sProp 𝕄 :=
  iprop((bigSep Finset.univ fun k : Fin 23 => roundState ER (ringRd m) (kcell (c, k)) 0)
    ∗ (bigSep Finset.univ fun k : Fin 23 => iprop(atPos ER (kcell (c, k)) 0 ∅ 0 ∗ reached ER (kcell (c, k)) 0)) ∗ toks c)

theorem bigSep_bool (Φ : Bool → sProp 𝕄) : bigSep Finset.univ Φ = iprop(Φ false ∗ Φ true) := by
  rw [bigSep_univ_eq_bigSepL [false, true] (by decide) (by decide), bigSepL_cons_cons, bigSepL_singleton]
  rfl

/-- The ring's initial element is dealt to the devices: every cell's invariant, round 0 reached, and each device's own duty tokens. -/
theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 23 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_sum, bigSep_bool]
      rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 23 => semVal (kcell (c, k)) 0 : sProp 𝕄) ∗ localSems c) := by
  rw [unscopedSems0_eq, bigSep_fin23]
  simp only [kcell_kB, kcell_kS, kcell_kR]
  unfold Pipeline.ownSems0
  rw [ownSems_eq]
  iintro ⟨⟨⟨HS, HV⟩, HL⟩, HB⟩
  isplitr [HL]
  · isplitl [HB]; · iexact HB
    isplitl [HS] <;> iassumption
  · iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 23 => iprop(∃ κ : ℕ, cellInv ER (ringRd m) κ (kcell (c, k))))
          ∗ (bigSep Finset.univ fun k : Fin 23 => iprop(atPos ER (kcell (c, k)) 0 ∅ 0 ∗ reached ER (kcell (c, k)) 0)) ∗ toks c ∗ localSems c) := by
  unfold G
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : Fin 23 => semVal (kcell (c, k)) 0) ∗ bigSep Finset.univ fun k : Fin 23 => roundState ER (ringRd m) (kcell (c, k)) 0)
      ⊢ (|={Set.univ}=> bigSep Finset.univ fun k : Fin 23 => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-- Tokens pass around the ring: each device ends with the tokens of the duties it pays, since the ring is a permutation. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun q : Fin 11 => dutyTok ER (recvCell c q) 0 false : sProp 𝕄))]
  iintro ⟨⟨H1, H2⟩, H3, H4⟩
  isplitl [H1]; · iexact H1
  isplitl [H2]; · iexact H2
  isplitl [H4]; · iexact H4
  iexact H3

theorem ghost_intro (K : Dev nD × Fin 23 → ℕ) (c : Dev nD) : iprop(records m K ∗ linear c) ⊢ G' m c := by
  unfold G'
  iintro H
  iexists K
  iexact H

theorem regroup :
    (bigSep Finset.univ fun c : Dev nD => iprop((bigSep Finset.univ fun k : Fin 23 => iprop(∃ κ : ℕ, cellInv ER (ringRd m) κ (kcell (c, k))))
          ∗ (bigSep Finset.univ fun k : Fin 23 => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 23 => iprop(∃ κ : ℕ, cellInv ER (ringRd m) κ (kcell ck))),
    bigSep_congr (s := Finset.univ) (fun (c : Dev nD) _ => bigSep_sep' Finset.univ (fun k : Fin 23 => (atPos ER (kcell (c, k)) 0 ∅ 0 : sProp 𝕄)) (fun k => reached ER (kcell (c, k)) 0)),
    bigSep_sep', ← bigSep_univ_prod (fun ck : Dev nD × Fin 23 => (reached ER (kcell ck) 0 : sProp 𝕄))]
  iintro ⟨HI, ⟨Hat, #HR⟩, Htok, HL⟩
  ihave HK := (BI.bigSep_exists_pi Finset.univ (fun (ck : Dev nD × Fin 23) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear
    rw [bigSep_sep', bigSep_sep']
    isplitl [Hat]; · iexact Hat
    isplitl [Htk]; · iexact Htk
    iexact HL

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem cred_nxt (c : Dev nD) : (Pipeline.launchCred (fun d => tallyAt (barCell (nxt d)) () 1) c : sProp 𝕄) ⊢ cred (tallyAt (barCell c) () 1) :=
  Pipeline.launchCred_tallyAt (.reg barS) nxt prv nxt_prv prv_nxt () 1 c
theorem cred_prv (c : Dev nD) : (Pipeline.launchCred (fun d => tallyAt (barCell (prv d)) () 1) c : sProp 𝕄) ⊢ cred (tallyAt (barCell c) () 1) :=
  Pipeline.launchCred_tallyAt (.reg barS) prv nxt prv_nxt nxt_prv () 1 c
theorem cred_recv (c : Dev nD) (q : Fin 11) :
    (Pipeline.launchCred (fun d => tallyAt (recvCell (nxt d) q) () (amt q)) c : sProp 𝕄) ⊢ cred (tallyAt (recvCell c q) () (amt q)) :=
  Pipeline.launchCred_tallyAt (.dma (rS q)) nxt prv nxt_prv prv_nxt () (amt q) c

theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem launchCred_O₀ (c : Dev nD) : (Pipeline.launchCred O₀ c : sProp 𝕄) =
    iprop((((((((((((Pipeline.launchCred (fun d => tallyAt (recvCell (nxt d) 10) () (amt 10)) c ∗ Pipeline.launchCred (fun d => tallyAt (recvCell (nxt d) 9) () (amt 9)) c) ∗ Pipeline.launchCred (fun d => tallyAt (recvCell (nxt d) 8) () (amt 8)) c) ∗ Pipeline.launchCred (fun d => tallyAt (recvCell (nxt d) 7) () (amt 7)) c) ∗ Pipeline.launchCred (fun d => tallyAt (recvCell (nxt d) 6) () (amt 6)) c) ∗ Pipeline.launchCred (fun d => tallyAt (recvCell (nxt d) 5) () (amt 5)) c) ∗ Pipeline.launchCred (fun d => tallyAt (recvCell (nxt d) 4) () (amt 4)) c) ∗ Pipeline.launchCred (fun d => tallyAt (recvCell (nxt d) 3) () (amt 3)) c) ∗ Pipeline.launchCred (fun d => tallyAt (recvCell (nxt d) 2) () (amt 2)) c) ∗ Pipeline.launchCred (fun d => tallyAt (recvCell (nxt d) 1) () (amt 1)) c) ∗ Pipeline.launchCred (fun d => tallyAt (recvCell (nxt d) 0) () (amt 0)) c) ∗ Pipeline.launchCred (fun d => tallyAt (barCell (nxt d)) () 1) c) ∗ Pipeline.launchCred (fun d => tallyAt (barCell (prv d)) () 1) c) := by
  simp only [← Pipeline.launchCred_add]
  rfl

/-- What the devices owe each other at launch is what each device's cells are credited. -/
theorem creds (c : Dev nD) :
    (Pipeline.launchCred O₀ c : sProp 𝕄)
      ⊢ iprop(cred (tallyAt (barCell c) () 2) ∗ bigSep Finset.univ fun q : Fin 11 => cred (tallyAt (recvCell c q) () (amt q))) := by
  have h2 : (tallyAt (barCell c) () 2 : CellTallies nD τ sig Unit) = tallyAt (barCell c) () 1 + tallyAt (barCell c) () 1 :=
    (tallyAt_add (barCell c) () 1 1).symm
  rw [launchCred_O₀, bigSep_fin11, h2]
  iintro ⟨⟨⟨⟨⟨⟨⟨⟨⟨⟨⟨⟨H10, H9⟩, H8⟩, H7⟩, H6⟩, H5⟩, H4⟩, H3⟩, H2⟩, H1⟩, H0⟩, Hn⟩, Hp⟩
  isplitl [Hn Hp]
  · ihave Cn := (cred_nxt (F := F) c) $$ Hn
    ihave Cp := (cred_prv (F := F) c) $$ Hp
    iapply (cred_add _ _).2
    isplitl [Cn] <;> iassumption
  isplitl [H0]; · iapply (cred_recv (F := F) c 0); iexact H0
  isplitl [H1]; · iapply (cred_recv (F := F) c 1); iexact H1
  isplitl [H2]; · iapply (cred_recv (F := F) c 2); iexact H2
  isplitl [H3]; · iapply (cred_recv (F := F) c 3); iexact H3
  isplitl [H4]; · iapply (cred_recv (F := F) c 4); iexact H4
  isplitl [H5]; · iapply (cred_recv (F := F) c 5); iexact H5
  isplitl [H6]; · iapply (cred_recv (F := F) c 6); iexact H6
  isplitl [H7]; · iapply (cred_recv (F := F) c 7); iexact H7
  isplitl [H8]; · iapply (cred_recv (F := F) c 8); iexact H8
  isplitl [H9]; · iapply (cred_recv (F := F) c 9); iexact H9
  iapply (cred_recv (F := F) c 10); iexact H10

def lvS (sm : SemLoc sig) : ℕ :=
  if sm = .reg barS then 1 else match kindOf sm with
    | some (true, q) => if q.val < 8 then 2 else if q.val = 8 then 3 else 4
    | _ => 0
theorem lv_eq (c : Dev nD) (sm : SemLoc sig) : lv ((c : Thread nD τ), sm) () = lvS sm := rfl

def Y (c : Dev nD) : sProp 𝕄 :=
  iprop((((c : Thread nD τ).loc main_arg1) ↦{fullShare} wA m c) ∗ (((c : Thread nD τ).loc main_v1) ↦{fullShare} outF m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨HW, HO⟩, Hlev, Hcr, -, HG⟩
  ihave Hc := (creds (F := F) c) $$ Hcr
  icases Hc with ⟨H1, HN⟩
  imodintro
  unfold X start wA
  isplitl
  · isplitr [HW HO]
    · isplitl [HG]; · iexact HG
      isplitl [H1]; · iexact H1
      isplitl [HN]; · iexact HN
      iexact Hlev
    · isplitl [HW] <;> iassumption
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq]
  unfold Φ₁ Y Pipeline.ownSems0
  iintro ⟨HW, HO, Hz, Hr⟩
  isplitl [HW HO]
  · isplitl [HW] <;> iassumption
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_low c _ (by rw [lv_eq]; fin_cases w <;> fin_cases s <;> decide) _ (by
      rcases t with ⟨_ | _, ht⟩
      · exact supp_O₀ c
      · exact Supp.zero _)

theorem share_eq (c : Dev nD) (w : Fin cfg0.W) : (dats m ρ 0 c).share w = fullShare := by unfold Dat.share; split <;> rfl

set_option maxRecDepth 8000 in

/-- If the body meets its obligation on every device, the program terminates with each device's result at the computed contents and both arguments kept. -/
theorem run_main (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outF m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H2 := (own_pair_emb (F := embR) _ _) $$ HX
      icases H2 with ⟨HR, -⟩
      imod (fund_ring m) $$ HR with HG
      imodintro
      isplitl [HP] <;> iassumption)
    (hglob := glob m)
    (hA := fun _ _ => rfl) (hpf := fun _ k => k.elim0)
    (X := X m) (Y := Y m) (Z := fun _ => iprop(emp))
    (hX := start_intro m ρ) (hin := phi0_intro m ρ) (hout := phi1_exit m ρ)
    (QY := fun c s => s.mem ((c : Thread nD τ).loc main_v1) = outF m c ∧ s.mem ((c : Thread nD τ).loc main_arg1) = m ((c : Thread nD τ).loc main_arg1))
    (hY := fun c s' => by
      unfold Y
      iintro ⟨⟨HW, HO⟩, -, HSI⟩
      icombine HSI HO gives %ho
      icombine HSI HW gives %hw
      imodintro
      isplitr; · ipureintro; exact ⟨Buf.eq_of_forall_mem_univ ho, Buf.eq_of_forall_mem_univ hw⟩
      iexact HSI)
    (hQ := fun s h c => ⟨(h c).2.2.1, ((h c).1 0).trans ((dats (F := F) m ρ 0 c).arrAt_in (0 : Fin 1) rfl _), (h c).2.2.2⟩)

end Cert.KernelIdeal.P

end
-- ==== Proof.V.Spec.lean ====
/- The specification: the softmax of the rows of x · W over the extended reals, and the law that a common real shift of a row's exponents cancels. -/
import Idealize.ShloMosaic.PureOps.Ideal
import Idealize.ShloMosaic.PureOps.Ideal.Laws
import Idealize.ShloMosaic.Lib.ValueIdx
import Mathlib.Data.EReal.Basic
import Mathlib.Data.EReal.Operations
import Mathlib.Data.EReal.Inv
import Mathlib.Data.Finset.Fold
import Mathlib.Analysis.Complex.Exponential
import Mathlib.Algebra.BigOperators.Field
import Mathlib.Algebra.Order.BigOperators.Group.Finset

noncomputable section

namespace Cert.Softmax

open Idealize.ShloMosaic
open scoped BigOperators

def logit (x : Fin 512 → Fin 1024 → EReal) (W : Fin 1024 → Fin 32768 → EReal) (r : Fin 512) (j : Fin 32768) : EReal :=
  ∑ d : Fin 1024, x r d * W d j

def rowSum (x : Fin 512 → Fin 1024 → EReal) (W : Fin 1024 → Fin 32768 → EReal) (r : Fin 512) : EReal :=
  ∑ j : Fin 32768, Ideal.exp (logit x W r j)

/-- The softmax of row r at column j: the exponential of the product's entry times the reciprocal of the row's sum. -/
def spec (x : Fin 512 → Fin 1024 → EReal) (W : Fin 1024 → Fin 32768 → EReal) (r : Fin 512) (j : Fin 32768) : EReal :=
  Ideal.exp (logit x W r j) * Ideal.div 1 (rowSum x W r)

theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_real {ι : Type*} (s : Finset ι) (f : ι → EReal) (hf : ∀ i, ∃ a : ℝ, f i = (a : EReal)) :
    ∃ a : ℝ, ∑ i ∈ s, f i = (a : EReal) := by
  choose g hg using hf
  exact ⟨∑ i ∈ s, g i, by rw [coe_finset_sum]; exact Finset.sum_congr rfl fun i _ => hg i⟩

section Real
variable {x : Fin 512 → Fin 1024 → EReal} {W : Fin 1024 → Fin 32768 → EReal}

theorem logit_real (hx : ∀ r d, ∃ a : ℝ, x r d = (a : EReal)) (hW : ∀ d j, ∃ a : ℝ, W d j = (a : EReal))
    (r : Fin 512) (j : Fin 32768) : ∃ a : ℝ, logit x W r j = (a : EReal) := by
  unfold logit
  refine sum_real _ _ fun d => ?_
  obtain ⟨a, ha⟩ := hx r d
  obtain ⟨b, hb⟩ := hW d j
  exact ⟨a * b, by rw [ha, hb, EReal.coe_mul]⟩

theorem real_shift {n : ℕ} (l : Fin n → ℝ) (m : ℝ) (j : Fin n) :
    Real.exp (l j - m) * (1 / ∑ k, Real.exp (l k - m)) = Real.exp (l j) * (1 / ∑ k, Real.exp (l k)) := by
  have hm : Real.exp m ≠ 0 := (Real.exp_pos m).ne'
  have hS : (∑ k, Real.exp (l k)) ≠ 0 :=
    (Finset.sum_pos (fun k _ => Real.exp_pos (l k)) ⟨j, Finset.mem_univ j⟩).ne'
  have e : ∑ k, Real.exp (l k - m) = (∑ k, Real.exp (l k)) / Real.exp m := by
    rw [Finset.sum_div]; exact Finset.sum_congr rfl fun k _ => Real.exp_sub _ _
  rw [e, Real.exp_sub]
  field_simp

/-- With real inputs, shifting a row's exponents by any real leaves the quotient unchanged. -/
theorem shift_law (hx : ∀ r d, ∃ a : ℝ, x r d = (a : EReal)) (hW : ∀ d j, ∃ a : ℝ, W d j = (a : EReal))
    (r : Fin 512) (m : ℝ) (j : Fin 32768) :
    FloatOps.hostDivf (F := Ideal) (φ := .f32)
        (FloatOps.hostUnary (F := Ideal) .exp (φ := .f32) (FloatOps.subf (F := Ideal) (φ := .f32) (logit x W r j) (m : EReal)))
        (∑ k : Fin 32768,
          FloatOps.hostUnary (F := Ideal) .exp (φ := .f32) (FloatOps.subf (F := Ideal) (φ := .f32) (logit x W r k) (m : EReal)))
      = spec x W r j := by
  choose l hl using logit_real hx hW r
  simp only [Ideal.hostDivf_def, Ideal.hostUnary_exp_def, Ideal.subf_def, spec, rowSum, hl, ← EReal.coe_sub,
    Ideal.exp_coe, ← coe_finset_sum]
  have hpos : ∀ f : Fin 32768 → ℝ, (∑ k, Real.exp (f k)) ≠ 0 := fun f =>
    (Finset.sum_pos (fun k _ => Real.exp_pos (f k)) ⟨j, Finset.mem_univ j⟩).ne'
  rw [Ideal.div_coe (hpos fun k => l k - m), Ideal.div_coe (hpos l), one_mul, ← EReal.coe_mul, ← EReal.coe_mul]
  exact congrArg _ (real_shift l m j)

end Real

/-- The maximum of a nonempty finite family of reals is a real. -/
theorem fold_max_real {ι : Type*} (s : Finset ι) (hs : s.Nonempty) (f : ι → EReal)
    (hf : ∀ i, ∃ a : ℝ, f i = (a : EReal)) :
    ∃ m : ℝ, s.fold (FloatOps.maximumf (F := Ideal) (φ := .f32)) (⊥ : EReal) f = (m : EReal) := by
  classical
  induction s using Finset.induction_on with
  | empty => exact absurd hs Finset.not_nonempty_empty
  | insert a s ha ih =>
    obtain ⟨b, hb⟩ := hf a
    rw [Finset.fold_insert ha, hb]
    rcases s.eq_empty_or_nonempty with rfl | hne
    · exact ⟨b, by rw [Finset.fold_empty]; exact max_bot_right _⟩
    · obtain ⟨c, hc⟩ := ih hne
      rw [hc]
      exact ⟨max b c, (EReal.coe_strictMono.monotone.map_max (a := b) (b := c)).symm⟩

theorem fold_max_univ_real {n : ℕ} (hn : 0 < n) (f : Fin n → EReal) (hf : ∀ i, ∃ a : ℝ, f i = (a : EReal)) :
    ∃ m : ℝ, (Finset.univ : Finset (Fin n)).fold (FloatOps.maximumf (F := Ideal) (φ := .f32)) (⊥ : EReal) f = (m : EReal) :=
  fold_max_real _ ⟨⟨0, hn⟩, Finset.mem_univ _⟩ f hf

theorem ofBits_neg_inf_f32 : Ideal.ofBits .f32 0xFF800000#32 = ⊥ := by simp [Ideal.ofBits, Ideal.ieee]

end Cert.Softmax

end
-- ==== Proof.V.KTile.lean ====
/- The kernel's tiles at an index: on extended reals a tile is the exponential of the product's entries at its columns. -/
import proofs.«900748_g7700000000000749_dist_arsfmx_v7x_xyz2x2x4_z_t512_d1024_v8192_bf16_1_alg».proof.Proof.KI.Vals
import proofs.«900748_g7700000000000749_dist_arsfmx_v7x_xyz2x2x4_z_t512_d1024_v8192_bf16_1_alg».proof.Proof.V.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.KValue

open Cert.KernelIdeal Cert.KernelIdeal.Gen Cert.KernelIdeal.GenP Cert.KernelIdeal.P
open Idealize.ShloMosaic Idealize.ShloMosaic.TcCoe Idealize.ShloMosaic.ValueIdx
open scoped BigOperators

section Staged
variable (m : (ℓ : Loc nD τ sig) → Buf (Elt Ideal) ℓ)

theorem xS_eq (d : Dev nD) : xS (F := Ideal) m d = xA m d := by
  funext i
  unfold xS
  show xA m d ((win0_0.blk (0 : Fin 1)).view.emb i) = xA m d i
  refine congrArg (xA m d) (funext fun a => Fin.ext ?_)
  match a with
  | ⟨0, _⟩ =>
    show win0_0.index (0 : Fin 1) 0 * 512 + 1 * (i 0).val = (i 0).val
    have h0 : win0_0.index (0 : Fin 1) 0 = 0 := rfl
    rw [h0]; omega
  | ⟨1, _⟩ =>
    show win0_0.index (0 : Fin 1) 1 * 1024 + 1 * (i 1).val = (i 1).val
    have h0 : win0_0.index (0 : Fin 1) 1 = 0 := rfl
    rw [h0]; omega

theorem pay25_eq (v : Vec Ideal S512x1024 .f32) : k0_pay25 (F := Ideal) v = v := by
  unfold k0_pay25
  exact (shapeCast_self _ _).trans (shapeCast_self v _)

theorem xB_eq (d : Dev nD) : xB (F := Ideal) m d = xA m d := by
  unfold xB
  rw [pay25_eq, xS_eq]

end Staged

theorem lhs_tile_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_tile_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_tile_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_tile_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The product into a zero accumulator, read at (r, q): the sum over the contracted axis. -/
theorem matmul_tile_apply (lhs : FVec Ideal S512x1024 .bf16) (rhs : FVec Ideal S1024x512 .bf16) (r q : Fin 512) :
    matmul dot_S512x1024_S1024x512_S512x512_1_0_0_1_n_n none lhs rhs (constant (F := Ideal) S512x512 .f32 0x00000000#32) (ix2 r q)
      = ∑ k : Fin 1024, lhs (ix2 r k) * rhs (ix2 k q) := by
  simp only [matmul]
  rw [Ideal.matmul_constant_zero_apply, ← Equiv.sum_comp (ValueIdx.contrEquiv1 dot_S512x1024_S1024x512_S512x512_1_0_0_1_n_n 1024 rfl rfl).symm]
  refine Finset.sum_congr rfl fun k _ => ?_
  have hk := ValueIdx.contrEquiv1_symm_val dot_S512x1024_S1024x512_S512x512_1_0_0_1_n_n 1024 rfl rfl k
  have el : dot_S512x1024_S1024x512_S512x512_1_0_0_1_n_n.lhsIdx (ix2 r q) ((ValueIdx.contrEquiv1 dot_S512x1024_S1024x512_S512x512_1_0_0_1_n_n 1024 rfl rfl).symm k) = ix2 r k := funext fun a => Fin.ext (by
    match a with
    | ⟨0, _⟩ => exact lhs_tile_0 _ _
    | ⟨1, _⟩ => exact (lhs_tile_1 _ _).trans hk)
  have er : dot_S512x1024_S1024x512_S512x512_1_0_0_1_n_n.rhsIdx (ix2 r q) ((ValueIdx.contrEquiv1 dot_S512x1024_S1024x512_S512x512_1_0_0_1_n_n 1024 rfl rfl).symm k) = ix2 k q := funext fun a => Fin.ext (by
    match a with
    | ⟨0, _⟩ => exact (rhs_tile_0 _ _).trans hk
    | ⟨1, _⟩ => exact rhs_tile_1 _ _)
  rw [el, er]

theorem pay1_apply (w : Vec Ideal S1x1024x512 .f32) (xb : FVec Ideal S512x1024 .bf16) (r q : Fin 512) :
    k0_pay1 (F := Ideal) w xb (ix2 r q) = Ideal.exp (∑ k : Fin 1024, xb (ix2 r k) * w (ix3 (0 : Fin 1) k q)) := by
  unfold k0_pay1
  show Ideal.exp (matmul dot_S512x1024_S1024x512_S512x512_1_0_0_1_n_n none xb
      (truncf .bf16 (shapeCast S1024x512 w shapeCasts_S1x1024x512_S1024x512) bitsLt_bf16_f32)
      (constant (F := Ideal) S512x512 .f32 0x00000000#32) (ix2 r q)) = _
  rw [matmul_tile_apply]
  refine congrArg Ideal.exp (Finset.sum_congr rfl fun k _ => ?_)
  show xb (ix2 r k) * shapeCast S1024x512 w shapeCasts_S1x1024x512_S1024x512 (ix2 k q) = _
  rw [shapeCast_1ab_ab_apply]

theorem pay2_apply (w : Vec Ideal S1x1024x512 .f32) (xb : FVec Ideal S512x1024 .bf16) (u : Fin 1) (r q : Fin 512) :
    k0_pay2 (F := Ideal) w xb (ix3 u r q) = k0_pay1 (F := Ideal) w xb (ix2 r q) := by
  unfold k0_pay2
  show shapeCast S1x512x512 (truncf .bf16 (k0_pay1 (F := Ideal) w xb) bitsLt_bf16_f32) shapeCasts_S512x512_S1x512x512 (ix3 u r q) = _
  rw [shapeCast_ab_1ab_apply]
  rfl

theorem col_lt (d : Dev nD) (j : Fin 8192) : 8192 * (zOf d).val + j.val < 32768 := by
  have := (zOf d).isLt; have := j.isLt; omega

abbrev col (d : Dev nD) (j : Fin 8192) : Fin 32768 := ⟨8192 * (zOf d).val + j.val, col_lt d j⟩

theorem chunk_lt (k : Fin 16) (q : Fin 512) : 512 * k.val + q.val < 8192 := by
  have := k.isLt; have := q.isLt; omega

abbrev chunkCol (k : Fin 16) (q : Fin 512) : Fin 8192 := ⟨512 * k.val + q.val, chunk_lt k q⟩

section Inputs
variable (m : (ℓ : Loc nD τ sig) → Buf (Elt Ideal) ℓ) (x : Fin 512 → Fin 1024 → EReal) (W : Fin 1024 → Fin 32768 → EReal)
variable (hx : ∀ (d : Dev nD) r k, xA m d (ix2 r k) = x r k)
variable (hW : ∀ (d : Dev nD) k j, wA m d (ix2 k j) = W k (col d j))
include hx hW

theorem eTile_apply (d : Dev nD) (k : Fin 16) (r q : Fin 512) :
    eTile (F := Ideal) m d k (ix2 r q) = Ideal.exp (Cert.Softmax.logit x W r (col d (chunkCol k q))) := by
  unfold eTile
  rw [pay1_apply, xB_eq]
  unfold Cert.Softmax.logit
  refine congrArg Ideal.exp (Finset.sum_congr rfl fun kk _ => ?_)
  rw [hx]
  exact congrArg (x r kk * ·) (hW d kk (chunkCol k q))

theorem eChunk_apply (d : Dev nD) (k : Fin 16) (u : Fin 1) (r q : Fin 512) :
    eChunk (F := Ideal) m d k (ix3 u r q) = Ideal.exp (Cert.Softmax.logit x W r (col d (chunkCol k q))) := by
  unfold eChunk
  rw [pay2_apply]
  exact eTile_apply m x W hx hW d k r q

/-- Device d's row at column j of its block: the exponential of the product's entry there. -/
theorem eRow_apply (d : Dev nD) (r : Fin 512) (j : Fin 8192) :
    eRow (F := Ideal) m d r j = Ideal.exp (Cert.Softmax.logit x W r (col d j)) := by
  unfold eRow
  rw [eChunk_apply m x W hx hW]
  refine congrArg (fun c => Ideal.exp (Cert.Softmax.logit x W r c)) (Fin.ext ?_)
  show 8192 * (zOf d).val + (512 * (j.val / 512) + j.val % 512) = 8192 * (zOf d).val + j.val
  omega

end Inputs

end Cert.KernelIdeal.KValue

end
-- ==== Proof.V.KernelValue.lean ====
/- The kernel's result is the specification: the four partial sums are the row's four column blocks' sums, taken around the ring. -/
import proofs.«900748_g7700000000000749_dist_arsfmx_v7x_xyz2x2x4_z_t512_d1024_v8192_bf16_1_alg».proof.Proof.V.KTile
import Mathlib.Algebra.BigOperators.Fin
import Mathlib.Logic.Equiv.Fin.Basic
import Mathlib.Tactic.Abel

noncomputable section

namespace Cert.KernelIdeal.KValue

open Cert.KernelIdeal Cert.KernelIdeal.Gen Cert.KernelIdeal.GenP Cert.KernelIdeal.P
open Idealize.ShloMosaic Idealize.ShloMosaic.TcCoe Idealize.ShloMosaic.ValueIdx
open scoped BigOperators

theorem sum_blocks {M : Type*} [AddCommMonoid M] (a b : ℕ) (f : Fin (a * b) → M) :
    ∑ j, f j = ∑ p : Fin a, ∑ q : Fin b, f (finProdFinEquiv (p, q)) := by
  rw [← Equiv.sum_comp finProdFinEquiv f, Fintype.sum_prod_type]

theorem blk4_lt (b : Fin 4) (j : Fin 8192) : 8192 * b.val + j.val < 32768 := by
  have := b.isLt; have := j.isLt; omega

theorem sum_cols_blocks {M : Type*} [AddCommMonoid M] (f : Fin 32768 → M) :
    ∑ j, f j = ∑ b : Fin 4, ∑ j' : Fin 8192, f ⟨8192 * b.val + j'.val, blk4_lt b j'⟩ :=
  (sum_blocks 4 8192 f).trans (Finset.sum_congr rfl fun b _ => Finset.sum_congr rfl fun j' _ =>
    congrArg f (Fin.ext (by show j'.val + 8192 * b.val = 8192 * b.val + j'.val; omega)))

theorem sum_block_chunks {M : Type*} [AddCommMonoid M] (f : Fin 8192 → M) :
    ∑ j, f j = ∑ k : Fin 16, ∑ q : Fin 512, f (chunkCol k q) :=
  (sum_blocks 16 512 f).trans (Finset.sum_congr rfl fun k _ => Finset.sum_congr rfl fun q _ =>
    congrArg f (Fin.ext (by show q.val + 512 * k.val = 512 * k.val + q.val; omega)))

/-- Four terms taken around a ring of four from any start are the sum over the ring. -/
theorem sum_ring4 (g : Fin 4 → EReal) (z z1 z2 z3 : Fin 4) (h1 : z1.val = (z.val + 3) % 4) (h2 : z2.val = (z.val + 2) % 4)
    (h3 : z3.val = (z.val + 1) % 4) : g z + g z1 + g z2 + g z3 = ∑ b, g b := by
  rw [Fin.sum_univ_four]
  have hz := z.isLt
  rcases (by omega : z.val = 0 ∨ z.val = 1 ∨ z.val = 2 ∨ z.val = 3) with h | h | h | h
  · obtain rfl : z = 0 := Fin.ext h
    obtain rfl : z1 = 3 := Fin.ext (by rw [h1]; rfl)
    obtain rfl : z2 = 2 := Fin.ext (by rw [h2]; rfl)
    obtain rfl : z3 = 1 := Fin.ext (by rw [h3]; rfl)
    abel
  · obtain rfl : z = 1 := Fin.ext h
    obtain rfl : z1 = 0 := Fin.ext (by rw [h1]; rfl)
    obtain rfl : z2 = 3 := Fin.ext (by rw [h2]; rfl)
    obtain rfl : z3 = 2 := Fin.ext (by rw [h3]; rfl)
    abel
  · obtain rfl : z = 2 := Fin.ext h
    obtain rfl : z1 = 1 := Fin.ext (by rw [h1]; rfl)
    obtain rfl : z2 = 0 := Fin.ext (by rw [h2]; rfl)
    obtain rfl : z3 = 3 := Fin.ext (by rw [h3]; rfl)
    abel
  · obtain rfl : z = 3 := Fin.ext h
    obtain rfl : z1 = 2 := Fin.ext (by rw [h1]; rfl)
    obtain rfl : z2 = 1 := Fin.ext (by rw [h2]; rfl)
    obtain rfl : z3 = 0 := Fin.ext (by rw [h3]; rfl)
    abel

/-- A left fold that adds a term per step is the initial value plus the sum of the terms. -/
theorem foldl_add_apply {ι : Type} {S : Shape} (P : (S.Idx → EReal) → ι → (S.Idx → EReal)) (t : ι → EReal) (i : S.Idx)
    (hP : ∀ acc k, P acc k i = acc i + t k) (l : List ι) (init : S.Idx → EReal) :
    l.foldl P init i = init i + (l.map t).sum := by
  induction l generalizing init with
  | nil => simp
  | cons k l ih => rw [List.foldl_cons, ih, hP, List.map_cons, List.sum_cons, add_assoc]

theorem foldl16_add_apply {S : Shape} (P : (S.Idx → EReal) → Fin 16 → (S.Idx → EReal)) (t : Fin 16 → EReal) (i : S.Idx)
    (hP : ∀ acc k, P acc k i = acc i + t k) (init : S.Idx → EReal) :
    (List.finRange 16).foldl P init i = init i + ∑ k : Fin 16, t k := by
  rw [foldl_add_apply P t i hP, Fin.sum_univ_def]

theorem rowsum_apply (src : FVec Ideal S512x512 .f32) (r : Fin 512) (u : Fin 1) :
    shapeCast S512x1 (multiReduction .add [1] S512 src 0x00000000#32 reduces_S512x512_S512 (.inl rfl) rfl) shapeCasts_S512_S512x1
        (ix2 r u) = ∑ q : Fin 512, src (ix2 r q) := by
  rw [shapeCast_apply _ shapeCasts_S512_S512x1 (ix2 r u) (ix1 r) (by
    rw [Shape.rowMajor_val_one, Shape.rowMajor_val_two]
    show r.val = r.val * 1 + u.val
    omega)]
  refine (Ideal.multiReduction_add_single src 0x00000000#32 reduces_S512x512_S512 (.inl rfl) rfl (ix1 r)).trans ?_
  refine Finset.sum_congr rfl fun q _ => congrArg src (funext fun a => Fin.ext ?_)
  match a with
  | ⟨0, _⟩ => rfl
  | ⟨1, _⟩ => rfl

theorem pay26_apply (i : S512x1.Idx) : k0_pay26 (F := Ideal) i = 0 := Ideal.ofBits_zero_f32
theorem pay27_apply (i : S512x1.Idx) : k0_pay27 (F := Ideal) i = 0 := Ideal.ofBits_zero_f32

theorem pay3_apply (acc : FVec Ideal S512x1 .f32) (w : Vec Ideal S1x1024x512 .f32) (xb : FVec Ideal S512x1024 .bf16) (r : Fin 512) (u : Fin 1) :
    k0_pay3 (F := Ideal) acc w xb (ix2 r u) = acc (ix2 r u) + ∑ q : Fin 512, k0_pay1 (F := Ideal) w xb (ix2 r q) := by
  unfold k0_pay3
  exact congrArg (acc (ix2 r u) + ·) (rowsum_apply _ r u)

theorem pay28_apply (acc : FVec Ideal S512x1 .f32) (v : Vec Ideal S1x512x512 .bf16) (r : Fin 512) (u : Fin 1) :
    k0_pay28 (F := Ideal) acc v (ix2 r u) = acc (ix2 r u) + ∑ q : Fin 512, v (ix3 (0 : Fin 1) r q) := by
  unfold k0_pay28
  refine (congrArg (acc (ix2 r u) + ·) (rowsum_apply _ r u)).trans ?_
  refine congrArg (acc (ix2 r u) + ·) (Finset.sum_congr rfl fun q _ => ?_)
  show shapeCast S512x512 v shapeCasts_S1x512x512_S512x512 (ix2 r q) = _
  rw [shapeCast_1ab_ab_apply]

theorem zOf_back (c : Dev nD) (s : Fin 4) : (zOf (back s.val c)).val = ((zOf c).val + 4 - s.val) % 4 := by
  revert c s; decide
theorem zOf_back1 (c : Dev nD) : (zOf (back 1 c)).val = ((zOf c).val + 3) % 4 := by revert c; decide
theorem zOf_back2 (c : Dev nD) : (zOf (back 2 c)).val = ((zOf c).val + 2) % 4 := by revert c; decide
theorem zOf_back3 (c : Dev nD) : (zOf (back 3 c)).val = ((zOf c).val + 1) % 4 := by revert c; decide

theorem ofBits_one_f32 : Ideal.ofBits .f32 0x3F800000#32 = 1 := IdealRules.sign_bit.ideal_onePat .f32

theorem pay34_apply (a b c d : FVec Ideal S512x1 .f32) (v : Vec Ideal S1x512x2048 .bf16) (u : Fin 1) (r : Fin 512) (q : Fin 2048) :
    k0_pay34 (F := Ideal) a b c d v (ix3 u r q)
      = v (ix3 (0 : Fin 1) r q) * Ideal.div 1 (a (ix2 r (0 : Fin 1)) + b (ix2 r (0 : Fin 1)) + c (ix2 r (0 : Fin 1)) + d (ix2 r (0 : Fin 1))) := by
  unfold k0_pay34
  show shapeCast S1x512x2048 (truncf .bf16 (mulf (extf .f32 (shapeCast S512x2048 v shapeCasts_S1x512x2048_S512x2048) bitsLt_bf16_f32)
      (broadcastTo S512x2048 (divf (broadcast S512x1 (Scalar.ofBits (F := Ideal) .f32 0x3F800000#32)) (addf (addf (addf a b) c) d))
        broadcasts_S512x1_S512x2048)) bitsLt_bf16_f32) shapeCasts_S512x2048_S1x512x2048 (ix3 u r q) = _
  rw [shapeCast_ab_1ab_apply]
  show shapeCast S512x2048 v shapeCasts_S1x512x2048_S512x2048 (ix2 r q)
      * broadcastTo S512x2048 (divf (broadcast S512x1 (Scalar.ofBits (F := Ideal) .f32 0x3F800000#32)) (addf (addf (addf a b) c) d))
        broadcasts_S512x1_S512x2048 (ix2 r q) = _
  rw [shapeCast_1ab_ab_apply, broadcastTo_apply _ broadcasts_S512x1_S512x2048 (ix2 r q) (ix2 r (0 : Fin 1)) (fun ax => by
    match ax with
    | ⟨0, _⟩ => rfl
    | ⟨1, _⟩ => rfl)]
  show v (ix3 (0 : Fin 1) r q) * Ideal.div (Ideal.ofBits .f32 0x3F800000#32)
      (a (ix2 r (0 : Fin 1)) + b (ix2 r (0 : Fin 1)) + c (ix2 r (0 : Fin 1)) + d (ix2 r (0 : Fin 1))) = _
  rw [ofBits_one_f32]

def blockSum (x : Fin 512 → Fin 1024 → EReal) (W : Fin 1024 → Fin 32768 → EReal) (r : Fin 512) (b : Fin 4) : EReal :=
  ∑ j' : Fin 8192, Ideal.exp (Cert.Softmax.logit x W r ⟨8192 * b.val + j'.val, blk4_lt b j'⟩)

theorem rowSum_blocks (x : Fin 512 → Fin 1024 → EReal) (W : Fin 1024 → Fin 32768 → EReal) (r : Fin 512) :
    Cert.Softmax.rowSum x W r = ∑ b, blockSum x W r b :=
  sum_cols_blocks fun j => Ideal.exp (Cert.Softmax.logit x W r j)

theorem res_lt (j : Fin 16) (q : Fin 2048) : 2048 * j.val + q.val < 32768 := by
  have := j.isLt; have := q.isLt; omega

section Inputs
variable (m : (ℓ : Loc nD τ sig) → Buf (Elt Ideal) ℓ) (x : Fin 512 → Fin 1024 → EReal) (W : Fin 1024 → Fin 32768 → EReal)
variable (hx : ∀ (d : Dev nD) r k, xA m d (ix2 r k) = x r k)
variable (hW : ∀ (d : Dev nD) k j, wA m d (ix2 k j) = W k (col d j))
include hx hW

theorem sum0_apply (d : Dev nD) (r : Fin 512) (u : Fin 1) :
    sum0 (F := Ideal) m d (ix2 r u) = blockSum x W r (zOf d) := by
  unfold sum0
  rw [foldl16_add_apply (fun acc k => k0_pay3 (F := Ideal) acc (wChunk m d k) (xB m d))
    (fun k => ∑ q : Fin 512, eTile (F := Ideal) m d k (ix2 r q)) (ix2 r u) (fun acc k => pay3_apply acc _ _ r u),
    pay26_apply, zero_add]
  unfold blockSum
  rw [sum_block_chunks]
  exact Finset.sum_congr rfl fun k _ => Finset.sum_congr rfl fun q _ => eTile_apply m x W hx hW d k r q

theorem sumS_apply (c : Dev nD) (s : Fin 4) (r : Fin 512) (u : Fin 1) :
    sumS (F := Ideal) m c s (ix2 r u) = blockSum x W r (zOf (back s.val c)) := by
  unfold sumS
  rw [foldl16_add_apply (fun acc k => k0_pay28 (F := Ideal) acc (commChunk m c s k))
    (fun k => ∑ q : Fin 512, commChunk (F := Ideal) m c s k (ix3 (0 : Fin 1) r q)) (ix2 r u) (fun acc k => pay28_apply acc _ r u),
    pay27_apply, zero_add]
  unfold blockSum
  rw [sum_block_chunks]
  refine Finset.sum_congr rfl fun k _ => Finset.sum_congr rfl fun q _ => ?_
  show eRow (F := Ideal) m (back s.val c) r (chunkCol k q) = _
  exact eRow_apply m x W hx hW _ r _

/-- The four partial sums' total is the row's sum. -/
theorem total_apply (c : Dev nD) (r : Fin 512) (u : Fin 1) :
    sum0 (F := Ideal) m c (ix2 r u) + sumS (F := Ideal) m c 1 (ix2 r u) + sumS (F := Ideal) m c 2 (ix2 r u)
        + sumS (F := Ideal) m c 3 (ix2 r u) = Cert.Softmax.rowSum x W r := by
  rw [sum0_apply m x W hx hW, sumS_apply m x W hx hW, sumS_apply m x W hx hW, sumS_apply m x W hx hW, rowSum_blocks]
  exact sum_ring4 (blockSum x W r) (zOf c) _ _ _ (zOf_back1 c) (zOf_back2 c) (zOf_back3 c)

theorem outSrc_apply (c : Dev nD) (j : Fin 16) (u : Fin 1) (r : Fin 512) (q : Fin 2048) :
    outSrc (F := Ideal) m c j (ix3 u r q) = Ideal.exp (Cert.Softmax.logit x W r ⟨2048 * j.val + q.val, res_lt j q⟩) := by
  unfold outSrc
  show eRow (F := Ideal) m (back (((zOf c).val + 4 - j.val / 4) % 4) c) r ⟨2048 * (j.val % 4) + q.val, _⟩ = _
  rw [eRow_apply m x W hx hW]
  refine congrArg (fun cc => Ideal.exp (Cert.Softmax.logit x W r cc)) (Fin.ext ?_)
  have hz := zOf_back c ⟨((zOf c).val + 4 - j.val / 4) % 4, Nat.mod_lt _ (by decide)⟩
  show 8192 * (zOf (back (((zOf c).val + 4 - j.val / 4) % 4) c)).val + (2048 * (j.val % 4) + q.val) = 2048 * j.val + q.val
  have h1 := (zOf c).isLt
  have h2 := j.isLt
  have hz' : (zOf (back (((zOf c).val + 4 - j.val / 4) % 4) c)).val = ((zOf c).val + 4 - ((zOf c).val + 4 - j.val / 4) % 4) % 4 := hz
  rw [hz']
  omega

end Inputs

section Inputs
variable (m : (ℓ : Loc nD τ sig) → Buf (Elt Ideal) ℓ) (x : Fin 512 → Fin 1024 → EReal) (W : Fin 1024 → Fin 32768 → EReal)
variable (hx : ∀ (d : Dev nD) r k, xA m d (ix2 r k) = x r k)
variable (hW : ∀ (d : Dev nD) k j, wA m d (ix2 k j) = W k (col d j))
include hx hW

theorem outF_apply (c : Dev nD) (r : Fin 512) (j : Fin 32768) :
    outF (F := Ideal) m c (ix2 r j) = Cert.Softmax.spec x W r j := by
  have hj := j.isLt
  show outBlk (F := Ideal) m c ⟨j.val / 2048, by omega⟩ (ix3 (0 : Fin 1) r ⟨j.val % 2048, Nat.mod_lt _ (by decide)⟩) = _
  unfold outBlk
  rw [pay34_apply, total_apply m x W hx hW, outSrc_apply m x W hx hW]
  unfold Cert.Softmax.spec
  refine congrArg (fun cc => Ideal.exp (Cert.Softmax.logit x W r cc) * Ideal.div 1 (Cert.Softmax.rowSum x W r)) (Fin.ext ?_)
  show 2048 * (j.val / 2048) + j.val % 2048 = j.val
  omega

end Inputs

/-- The kernel's result is the specification on every device, index by index. -/
theorem outF_is_spec (m : (ℓ : Loc nD τ sig) → Buf (Elt Ideal) ℓ) (x : Fin 512 → Fin 1024 → EReal) (W : Fin 1024 → Fin 32768 → EReal)
    (hx : ∀ (d : Dev nD) r k, xA m d (ix2 r k) = x r k)
    (hW : ∀ (d : Dev nD) k j, wA m d (ix2 k j) = W k ⟨8192 * (zOf d).val + j.val, col_lt d j⟩)
    (hxr : ∀ r k, ∃ a : ℝ, x r k = a) (hWr : ∀ k j, ∃ a : ℝ, W k j = a)
    (c : Dev nD) (i : S512x32768.Idx) : outF (F := Ideal) m c i = Cert.Softmax.spec x W (i 0) (i 1) :=
  (congrArg (outF (F := Ideal) m c) (eq_ix2 i)).trans (outF_apply m x W hx hW c (i 0) (i 1))

end Cert.KernelIdeal.KValue

end
-- ==== Proof.V.RefValue.lean ====
/- The reference is the specification: its max-shifted softmax equals the unshifted one when every entry is a real. -/
import proofs.«900748_g7700000000000749_dist_arsfmx_v7x_xyz2x2x4_z_t512_d1024_v8192_bf16_1_alg».proof.Proof.Gen.ReferenceIdeal.Read
import proofs.«900748_g7700000000000749_dist_arsfmx_v7x_xyz2x2x4_z_t512_d1024_v8192_bf16_1_alg».proof.Proof.V.Spec

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 : (⟨S512x1024, .f32⟩ : BufTy).Contents (Elt Ideal)) (x1 : (⟨S1024x32768, .f32⟩ : BufTy).Contents (Elt Ideal))

abbrev X : Fin 512 → Fin 1024 → EReal := fun r d => x0 (ix2 r d)
abbrev W : Fin 1024 → Fin 32768 → EReal := fun d j => x1 (ix2 d j)

theorem v0_eq (i : S512x32768.Idx) :
    val_main_v0 (F := Ideal) x0 x1 i = Cert.Softmax.logit (X x0) (W x1) (i 0) (i 1) := by
  rw [val_main_v0_apply]
  unfold Cert.Softmax.logit
  refine Finset.sum_congr rfl fun k _ => ?_
  have el : lidx_main_v0 i k = ix2 (i 0) k := funext fun a => by match a with | ⟨0, _⟩ => rfl | ⟨1, _⟩ => rfl
  have er : ridx_main_v0 i k = ix2 k (i 1) := funext fun a => by match a with | ⟨0, _⟩ => rfl | ⟨1, _⟩ => rfl
  exact congrArg₂ (· * ·) (congrArg x0 el) (congrArg x1 er)

section
variable {x0 x1}
variable (hx : ∀ i, ∃ a : ℝ, x0 i = (a : EReal)) (hW : ∀ i, ∃ a : ℝ, x1 i = (a : EReal))
include hx hW

theorem v0_real (i : S512x32768.Idx) : ∃ a : ℝ, val_main_v0 (F := Ideal) x0 x1 i = (a : EReal) := by
  rw [v0_eq]
  exact Cert.Softmax.logit_real (fun r d => hx _) (fun d j => hW _) _ _

theorem v1_real (j : S512.Idx) : ∃ m : ℝ, val_main_v1 (F := Ideal) x0 x1 j = (m : EReal) := by
  unfold val_main_v1
  rw [Host.reduce_eq_fold_single (FloatOps.maximumf (F := Ideal) (φ := .f32)) (val_main_v0 (F := Ideal) x0 x1)
    (val_main_cst (F := Ideal)) reducesTo_S512x32768_S512_d1
    (by decide : S512x32768.Reduces [1] S512) h_S_ j, val_main_cst_apply, Ideal.ofBits_def,
    Cert.Softmax.ofBits_neg_inf_f32]
  exact Cert.Softmax.fold_max_univ_real (by decide) _ fun k => v0_real hx hW _

variable (x0 x1) in

/-- The reference's result is the specification, index by index: the row maximum is a real, and the shift law removes it. -/
theorem ref_is_spec (i : S512x32768.Idx) :
    val_main_v10 (F := Ideal) x0 x1 i
      = Cert.Softmax.spec (fun r d => x0 (ix2 r d)) (fun d j => x1 (ix2 d j)) (i 0) (i 1) := by

  obtain ⟨m, hm⟩ := v1_real hx hW (idx_main_v2 (idx_main_v3 i))

  have hrow : ∀ k : Fin 32768, idx_main_v2 (idx_main_v3 (idx_main_v6 (idx_main_v7 (idx_main_v8 i)) k)) = idx_main_v2 (idx_main_v3 i) :=
    fun k => funext fun a => by match a with | ⟨0, _⟩ => rfl

  have h5 : ∀ i' : S512x32768.Idx, idx_main_v2 (idx_main_v3 i') = idx_main_v2 (idx_main_v3 i) →
      val_main_v5 (F := Ideal) x0 x1 i'
        = FloatOps.hostUnary (F := Ideal) .exp (φ := .f32)
            (FloatOps.subf (F := Ideal) (φ := .f32) (Cert.Softmax.logit (X x0) (W x1) (i' 0) (i' 1)) (m : EReal)) := by
    intro i' hi'
    rw [val_main_v5_apply, val_main_v4_apply, val_main_v3_apply, val_main_v2_apply, hi', hm, v0_eq]
  rw [val_main_v10_apply, Ideal.truncf_def, val_main_v9_apply, val_main_v8_apply, val_main_v7_apply, val_main_v6_apply,
    val_main_cst_0_apply, Ideal.ofBits_def, Ideal.ofBits_zero_f32, zero_add, h5 i rfl]
  rw [Finset.sum_congr rfl fun k _ => h5 _ (hrow k)]
  exact Cert.Softmax.shift_law (x := X x0) (W := W x1) (fun r d => hx _) (fun d j => hW _) (i 0) m (i 1)

end

end Cert.ReferenceIdeal.RefValue

end
-- ==== Proof.V.Blocks.lean ====
/- A device's block of the second argument inside the whole array: the same row, 8192 z columns further. -/
import proofs.«900748_g7700000000000749_dist_arsfmx_v7x_xyz2x2x4_z_t512_d1024_v8192_bf16_1_alg».proof.Defs
import Idealize.ShloMosaic.Lib.Layout

namespace Cert.Softmax.Blocks

open Idealize.ShloMosaic

def zOf (c : Dev Cert.KernelIdeal.nD) : Fin 4 := ⟨c.val % 4, Nat.mod_lt _ (by decide)⟩

abbrev WholeW : Type :=
  Buf (Elt Ideal) (((0 : Dev Cert.ReferenceIdeal.nD).tc : Thread Cert.ReferenceIdeal.nD Cert.ReferenceIdeal.τ).loc Cert.ReferenceIdeal.main_arg1)

def wIdx (d : Fin 1024) (j : Fin 32768) : (⟨2, ![1024, 32768]⟩ : Shape).Idx := Shape.pair d j

def place (c : Dev Cert.KernelIdeal.nD) (i : (⟨2, ![1024, 8192]⟩ : Shape).Idx) : (⟨2, ![1024, 32768]⟩ : Shape).Idx :=
  wIdx ⟨(i 0).val, (i 0).isLt⟩
    ⟨8192 * (zOf c).val + (i 1).val, by
      have h1 : (i 1).val < 8192 := (i 1).isLt
      have hz : (zOf c).val < 4 := (zOf c).isLt
      omega⟩

theorem meshLin_cols : ∀ c : Dev Cert.KernelIdeal.nD, Layout.meshLin [2, 2, 4] c.val [2] = c.val % 4 := by decide

theorem meshLin_rows (c : Dev Cert.KernelIdeal.nD) : Layout.meshLin [2, 2, 4] c.val [] = 0 := rfl

/-- Entry i of device c's block of the whole array is the whole array at `place c i`. -/
theorem blockN_apply (c : Dev Cert.KernelIdeal.nD) (Wf : WholeW) (i : (⟨2, ![1024, 8192]⟩ : Shape).Idx) :
    (Layout.blockN ⟨2, ![1024, 8192]⟩ ⟨2, ![1024, 32768]⟩ (Layout.meshBlock [2, 2, 4] ![[], [2]] c) Wf) i = Wf (place c i) := by
  rw [Layout.blockN_apply]
  congr 1
  funext b
  apply Fin.ext
  rw [Layout.TilesN.idx_val]
  have hb : b = 0 ∨ b = 1 := by
    rcases b with ⟨_ | _ | n, hn⟩
    · exact Or.inl rfl
    · exact Or.inr rfl
    · exact absurd hn (by show ¬ (n + 2 < 2); omega)
  rcases hb with rfl | rfl
  · show (Layout.meshLin [2, 2, 4] c.val []) * 1024 + (i 0).val = (i 0).val
    rw [meshLin_rows]; omega
  · show (Layout.meshLin [2, 2, 4] c.val [2]) * 8192 + (i 1).val = 8192 * (c.val % 4) + (i 1).val
    rw [meshLin_cols]; omega

/-- The blocks cover the whole array: column j lies in the block of a device with z = j / 8192. -/
theorem covers (d : Fin 1024) (j : Fin 32768) :
    ∃ (c : Dev Cert.KernelIdeal.nD) (i : (⟨2, ![1024, 8192]⟩ : Shape).Idx), wIdx d j = place c i := by
  have hj : j.val < 32768 := j.isLt
  refine ⟨⟨j.val / 8192, by show j.val / 8192 < 16; omega⟩,
    Shape.pair (d := ![1024, 8192]) d ⟨j.val % 8192, Nat.mod_lt _ (by decide)⟩, ?_⟩
  funext b
  apply Fin.ext
  have hb : b = 0 ∨ b = 1 := by
    rcases b with ⟨_ | _ | n, hn⟩
    · exact Or.inl rfl
    · exact Or.inr rfl
    · exact absurd hn (by show ¬ (n + 2 < 2); omega)
  rcases hb with rfl | rfl
  · rfl
  · show j.val = 8192 * ((j.val / 8192) % 4) + j.val % 8192
    omega

end Cert.Softmax.Blocks
-- ==== Proof.V.Finite.lean ====
/- From the precondition, every entry of both arguments is a real. -/
import proofs.«900748_g7700000000000749_dist_arsfmx_v7x_xyz2x2x4_z_t512_d1024_v8192_bf16_1_alg».proof.Proof.V.Blocks
import proofs.«900748_g7700000000000749_dist_arsfmx_v7x_xyz2x2x4_z_t512_d1024_v8192_bf16_1_alg».proof.Proof.Gen.Pre_finite_inputs_Kernel
import Idealize.ShloMosaic.Lib.ReduceAll
import Idealize.ShloMosaic.Lib.ValueIdx
import Idealize.ShloMosaic.PureOps.Ideal
import Idealize.ShloMosaic.PureOps.Ideal.Laws

namespace Cert.Softmax.Finite

open Idealize.ShloMosaic
open Cert.Pre_finite_inputs_Kernel (S512x1024 S1024x8192 S_)

instance : Subsingleton S_.Idx := ⟨fun a b => funext fun d => d.elim0⟩

theorem inf_pattern : Ideal.ofBits .f32 0x7F800000#32 = (⊤ : EReal) := by
  simp [Ideal.ofBits, Ideal.ieee]

/-- An extended real whose absolute value is below +∞ is a real. -/
theorem real_of_abs_lt_top (x : EReal) (h : Ideal.cmp .olt (max x (-x)) (⊤ : EReal) = 1#1) : ∃ a : ℝ, x = (a : EReal) := by
  induction x using EReal.rec with
  | bot => simp [Ideal.cmp] at h
  | coe a => exact ⟨a, rfl⟩
  | top => simp [Ideal.cmp] at h

theorem block_real [Cert.Pre_finite_inputs_Kernel.Facts]
    (xb : FVec Ideal S512x1024 .f32) (Wb : FVec Ideal S1024x8192 .f32)
    (h : Cert.Pre_finite_inputs_Kernel.fn (F := Ideal) xb Wb = (fun _ => 1#1)) :
    (∀ i, ∃ a : ℝ, xb i = (a : EReal)) ∧ (∀ i, ∃ a : ℝ, Wb i = (a : EReal)) := by
  have h0 := congrFun h ValueIdx.ix0
  dsimp only [Cert.Pre_finite_inputs_Kernel.fn] at h0
  obtain ⟨hx, hW⟩ := IntOp.andi_eq_one.1 h0
  refine ⟨fun i => ?_, fun i => ?_⟩
  · have e := Host.reduce_andi_all _ _ _ _ _ hx i
    have e' : Ideal.cmp .olt (max (xb i) (-(xb i))) (Ideal.ofBits .f32 0x7F800000#32) = 1#1 := e
    rw [inf_pattern] at e'
    exact real_of_abs_lt_top _ e'
  · have e := Host.reduce_andi_all _ _ _ _ _ hW i
    have e' : Ideal.cmp .olt (max (Wb i) (-(Wb i))) (Ideal.ofBits .f32 0x7F800000#32) = 1#1 := e
    rw [inf_pattern] at e'
    exact real_of_abs_lt_top _ e'

/-- Every entry of the two whole arrays is a real: each lies in some device's block, and the precondition holds there. -/
theorem whole_real [hPre_finite_inputs_Kernel : Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hag : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 32768]⟩ (Layout.meshBlock [2, 2, 4] ![[], [2]] c) (m' (((0 : Dev Cert.ReferenceIdeal.nD).tc : Thread Cert.ReferenceIdeal.nD Cert.ReferenceIdeal.τ).loc Cert.ReferenceIdeal.main_arg1))) :
    (∀ i, ∃ a : ℝ, m' (((0 : Dev Cert.ReferenceIdeal.nD).tc : Thread Cert.ReferenceIdeal.nD Cert.ReferenceIdeal.τ).loc Cert.ReferenceIdeal.main_arg0) i = (a : EReal))
    ∧ (∀ i, ∃ a : ℝ, m' (((0 : Dev Cert.ReferenceIdeal.nD).tc : Thread Cert.ReferenceIdeal.nD Cert.ReferenceIdeal.τ).loc Cert.ReferenceIdeal.main_arg1) i = (a : EReal)) := by
  refine ⟨fun i => ?_, fun i => ?_⟩
  · have hx := (block_real _ _ (hpre 0)).1 i
    rw [(hag 0).1] at hx
    exact hx
  · obtain ⟨c, ib, hc⟩ := Blocks.covers (i 0) (i 1)
    have hW := (block_real _ _ (hpre c)).2 ib
    rw [(hag c).2, Blocks.blockN_apply, ← hc] at hW
    have hi : Blocks.wIdx (i 0) (i 1) = i := Shape.pair_eta i
    rw [hi] at hW
    exact hW

end Cert.Softmax.Finite
-- ==== Proof.Assembly.lean ====
/- The five conjuncts. The two kernel programs are one definition, so one run of it, proved for any float instance, gives both
   kernel frames; the value claim joins the kernel's result on every device and the reference's to one specification, the softmax
   of the rows of the product. -/
import proofs.«900748_g7700000000000749_dist_arsfmx_v7x_xyz2x2x4_z_t512_d1024_v8192_bf16_1_alg».proof.Defs
import proofs.«900748_g7700000000000749_dist_arsfmx_v7x_xyz2x2x4_z_t512_d1024_v8192_bf16_1_alg».proof.Proof.KI.Launch
import proofs.«900748_g7700000000000749_dist_arsfmx_v7x_xyz2x2x4_z_t512_d1024_v8192_bf16_1_alg».proof.Proof.V.KernelValue
import proofs.«900748_g7700000000000749_dist_arsfmx_v7x_xyz2x2x4_z_t512_d1024_v8192_bf16_1_alg».proof.Proof.V.RefValue
import proofs.«900748_g7700000000000749_dist_arsfmx_v7x_xyz2x2x4_z_t512_d1024_v8192_bf16_1_alg».proof.Proof.V.Finite
import proofs.«900748_g7700000000000749_dist_arsfmx_v7x_xyz2x2x4_z_t512_d1024_v8192_bf16_1_alg».proof.Proof.V.Blocks
import proofs.«900748_g7700000000000749_dist_arsfmx_v7x_xyz2x2x4_z_t512_d1024_v8192_bf16_1_alg».proof.Proof.Gen.Kernel
import proofs.«900748_g7700000000000749_dist_arsfmx_v7x_xyz2x2x4_z_t512_d1024_v8192_bf16_1_alg».proof.Proof.Gen.KernelIdeal
import proofs.«900748_g7700000000000749_dist_arsfmx_v7x_xyz2x2x4_z_t512_d1024_v8192_bf16_1_alg».proof.Proof.Gen.ReferenceIdeal
import proofs.«900748_g7700000000000749_dist_arsfmx_v7x_xyz2x2x4_z_t512_d1024_v8192_bf16_1_alg».proof.Proof.Gen.ReferenceIdeal.Run
import proofs.«900748_g7700000000000749_dist_arsfmx_v7x_xyz2x2x4_z_t512_d1024_v8192_bf16_1_alg».proof.Proof.Gen.ReferenceIdeal.Read
import proofs.«900748_g7700000000000749_dist_arsfmx_v7x_xyz2x2x4_z_t512_d1024_v8192_bf16_1_alg».proof.Proof.Gen.Pre_finite_inputs_Kernel
import proofs.«900748_g7700000000000749_dist_arsfmx_v7x_xyz2x2x4_z_t512_d1024_v8192_bf16_1_alg».proof.Proof.Gen.Pre_finite_inputs_ReferenceIdeal

noncomputable section

namespace Cert.Proof.Assembly

open Idealize.ShloMosaic Idealize.ShloMosaic.TcCoe Idealize.ShloMosaic.ValueIdx Idealize.SL.Sem
open Idealize.ShloMosaic.Pipeline (BodyObligation)
open Cert.KernelIdeal (nD τ sig)

/-- The body's obligation on every device, at a float instance. -/
abbrev Body (F : FTy → Type) [FloatOps F] : Prop :=
  ∀ (m : (ℓ : Loc nD τ sig) → Buf (Elt F) ℓ) (ρ : Dev nD → PrngReg) (c : Dev nD),
    BodyObligation (Cert.KernelIdeal.P.dats (F := F) m ρ 0 c) (Cert.KernelIdeal.defs₀ (F := F)) Cert.KernelIdeal.P.𝒱₀ () Set.univ

variable {F : FTy → Type} [FloatOps F]

/-- The two kernel programs have the same body table: on the one label both run the same body. -/
theorem defs₀_eq : Cert.Kernel.defs₀ (F := F) = Cert.KernelIdeal.defs₀ (F := F) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

theorem defs_eq : Cert.Kernel.defs (F := F) = Cert.KernelIdeal.defs (F := F) :=
  congrArg (Pipeline.defs Cert.KernelIdeal.pcfgs) defs₀_eq

/-- The first program is the second's definition, so its frame is the second's run at the first's float instance. -/
theorem frame_K (hb : Body Bits) : Cert.frame_Kernel :=
  fun m ρ _ => defs_eq (F := Bits) ▸ (θ_run (Cert.KernelIdeal.defs (F := Bits)) _ _).mono (fun _ h c => (h c).2) (Cert.KernelIdeal.P.run_main m ρ (hb m ρ))

theorem frame_KI (hb : Body Ideal) : Cert.frame_KernelIdeal :=
  fun m ρ _ => (θ_run (Cert.KernelIdeal.defs (F := Ideal)) _ _).mono (fun _ h c => (h c).2) (Cert.KernelIdeal.P.run_main m ρ (hb m ρ))

theorem frame_R : Cert.frame_ReferenceIdeal :=
  fun m ρ _ => (θ_run (Cert.ReferenceIdeal.defs (F := Ideal)) _ _).mono (fun _ h c => (h c).2) (Cert.ReferenceIdeal.Value.run (F := Ideal) m ρ)

/-- Entry (k, j) of device `d`'s block of the second argument is entry (k, 8192 z + j) of the whole array, z the device's last mesh coordinate. -/
theorem place_ix2 (d : Dev nD) (k : Fin 1024) (j : Fin 8192) :
    Cert.Softmax.Blocks.place d (ix2 k j) = ix2 k (⟨8192 * (Cert.KernelIdeal.P.zOf d).val + j.val, Cert.KernelIdeal.KValue.col_lt d j⟩ : Fin 32768) := by
  funext b
  match b with
  | ⟨0, _⟩ => rfl
  | ⟨1, _⟩ => rfl

/-- Both results are the specification: every entry of both arguments is a real, the first argument is the same on every device and the second is cut by columns. -/
theorem algebraic (hb : Body Ideal) : Cert.algebraic_KernelIdeal_ReferenceIdeal := by
  intro m ρ m' ρ' hpre hag
  obtain ⟨hx', hW'⟩ := Cert.Softmax.Finite.whole_real m m' hpre hag
  have hx : ∀ (d : Dev nD) (r : Fin 512) (k : Fin 1024),
      Cert.KernelIdeal.P.xA m d (ix2 r k) = m' (((0 : Dev Cert.ReferenceIdeal.nD).tc : Thread Cert.ReferenceIdeal.nD Cert.ReferenceIdeal.τ).loc Cert.ReferenceIdeal.main_arg0) (ix2 r k) :=
    fun d r k => by unfold Cert.KernelIdeal.P.xA; rw [(hag d).1]
  have hW : ∀ (d : Dev nD) (k : Fin 1024) (j : Fin 8192),
      Cert.KernelIdeal.P.wA m d (ix2 k j) = m' (((0 : Dev Cert.ReferenceIdeal.nD).tc : Thread Cert.ReferenceIdeal.nD Cert.ReferenceIdeal.τ).loc Cert.ReferenceIdeal.main_arg1)
        (ix2 k (⟨8192 * (Cert.KernelIdeal.P.zOf d).val + j.val, Cert.KernelIdeal.KValue.col_lt d j⟩ : Fin 32768)) :=
    fun d k j => by unfold Cert.KernelIdeal.P.wA; rw [(hag d).2, Cert.Softmax.Blocks.blockN_apply, place_ix2]
  refine ⟨Cert.ReferenceIdeal.Read.val_main_v10 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run (Cert.KernelIdeal.defs (F := Ideal)) _ _).mono (fun _ h c => ⟨?_, (h c).2.1, (h c).2.2⟩) (Cert.KernelIdeal.P.run_main m ρ (hb m ρ))
    rw [(h c).1]
    funext i
    rw [Cert.KernelIdeal.KValue.outF_is_spec m _ _ hx hW (fun r k => hx' _) (fun k j => hW' _) c i,
      Cert.ReferenceIdeal.RefValue.ref_is_spec _ _ hx' hW' i]
  · refine (θ_run (Cert.ReferenceIdeal.defs (F := Ideal)) _ _).mono (fun _ h => ⟨?_, (h 0).2.1, (h 0).2.2⟩) (Cert.ReferenceIdeal.Value.run (F := Ideal) m' ρ')
    rw [(h 0).1, Cert.ReferenceIdeal.Read.val_main_v10_eq]

theorem claim_of (hb : ∀ (F : FTy → Type) [FloatOps F], Body F) : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_K (hb Bits), frame_KI (hb Ideal), frame_R, trivial, algebraic (hb Ideal)⟩

/-- info: 'Cert.Proof.Assembly.claim_of' depends on axioms: [propext, Classical.choice, Quot.sound] -/
#guard_msgs in #print axioms claim_of

end Cert.Proof.Assembly

end
-- ==== Proof.KI.Landing.lean ====
/- Slot s + 1 of the upper neighbour is slot s of the device, so what a copy lands is the neighbour's final contents there. -/
import proofs.«900748_g7700000000000749_dist_arsfmx_v7x_xyz2x2x4_z_t512_d1024_v8192_bf16_1_alg».proof.Proof.KI.Tables
import Idealize.ShloMosaic.Lib.Pipeline.Value

noncomputable section

namespace Cert.KernelIdeal.P

open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- s + 1 hops down from the upper neighbour is s hops down from the device. -/
theorem back_succ_nxt (s : ℕ) (c : Dev nD) : back (s + 1) (nxt c) = back s c := by
  unfold back
  rw [Function.iterate_succ_apply, prv_nxt]

theorem commF_shift_emb (c : Dev nD) (iS iD : S4x512x8192.Idx) (h0 : (iD 0).val = (iS 0).val + 1) (h1 : (iD 1).val = (iS 1).val)
    (h2 : (iD 2).val = (iS 2).val) : commF m (nxt c) iD = commF m c iS := by
  unfold commF
  rw [h0, back_succ_nxt, Fin.ext h1, Fin.ext h2]

/-- A landing leaves g in the destination when the destination's view of g reads what the source's view of the sent contents reads. -/
theorem landing_of_read {sp sp' : Space} {S : Shape} {e : EltTy} (t t' : Thread nD τ) (src : View sig t.2.kind sp S e) (dst : View sig t'.2.kind sp' S e)
    (q : PosShare TreeShare) (fs : Buf (Elt F) (src.loc t)) (fd g : Buf (Elt F) (dst.loc t'))
    (h : ∀ y, dst.read (Elt F) g y = src.read (Elt F) fs y) :
    (dst.loc t' ↦[dst.set]{q} (dst.write (Elt F) fd (src.read (Elt F) fs) Finset.univ) : sProp 𝕄) ⊢ (dst.loc t' ↦[dst.set]{q} g) := by
  refine Entails.of_eq (pointsTo_congr fun i hi => ?_)
  obtain ⟨y, rfl⟩ := View.exists_emb_of_mem_set _ hi
  rw [View.write_emb_of_mem _ _ (Finset.mem_univ y), ← h y, View.read_apply, cast_cast, cast_eq]

theorem landing_0 (c : Dev nD) (fd : Buf (Elt F) (dstM0.view.loc (nxt c : Thread nD τ))) :
    (dstM0.view.loc (nxt c : Thread nD τ) ↦[dstM0.view.set]{fullShare}
        (dstM0.view.write (Elt F) fd (srcM0.view.read (Elt F) (commF m c)) Finset.univ) : sProp 𝕄)
      ⊢ dstPts (nxt c) (commF m (nxt c)) 0 :=
  landing_of_read (c : Thread nD τ) (nxt c : Thread nD τ) srcM0.view dstM0.view fullShare (commF m c) fd (commF m (nxt c)) fun y =>
    commF_shift_emb m c (srcM0.view.emb y) (dstM0.view.emb y) (by show 1 + 1 * _ = 0 + 1 * _ + 1; omega) rfl rfl

theorem landing_1 (c : Dev nD) (fd : Buf (Elt F) (dstM1.view.loc (nxt c : Thread nD τ))) :
    (dstM1.view.loc (nxt c : Thread nD τ) ↦[dstM1.view.set]{fullShare}
        (dstM1.view.write (Elt F) fd (srcM1.view.read (Elt F) (commF m c)) Finset.univ) : sProp 𝕄)
      ⊢ dstPts (nxt c) (commF m (nxt c)) 1 :=
  landing_of_read (c : Thread nD τ) (nxt c : Thread nD τ) srcM1.view dstM1.view fullShare (commF m c) fd (commF m (nxt c)) fun y =>
    commF_shift_emb m c (srcM1.view.emb y) (dstM1.view.emb y) (by show 1 + 1 * _ = 0 + 1 * _ + 1; omega) rfl rfl

theorem landing_2 (c : Dev nD) (fd : Buf (Elt F) (dstM2.view.loc (nxt c : Thread nD τ))) :
    (dstM2.view.loc (nxt c : Thread nD τ) ↦[dstM2.view.set]{fullShare}
        (dstM2.view.write (Elt F) fd (srcM2.view.read (Elt F) (commF m c)) Finset.univ) : sProp 𝕄)
      ⊢ dstPts (nxt c) (commF m (nxt c)) 2 :=
  landing_of_read (c : Thread nD τ) (nxt c : Thread nD τ) srcM2.view dstM2.view fullShare (commF m c) fd (commF m (nxt c)) fun y =>
    commF_shift_emb m c (srcM2.view.emb y) (dstM2.view.emb y) (by show 1 + 1 * _ = 0 + 1 * _ + 1; omega) rfl rfl

theorem landing_3 (c : Dev nD) (fd : Buf (Elt F) (dstM3.view.loc (nxt c : Thread nD τ))) :
    (dstM3.view.loc (nxt c : Thread nD τ) ↦[dstM3.view.set]{fullShare}
        (dstM3.view.write (Elt F) fd (srcM3.view.read (Elt F) (commF m c)) Finset.univ) : sProp 𝕄)
      ⊢ dstPts (nxt c) (commF m (nxt c)) 3 :=
  landing_of_read (c : Thread nD τ) (nxt c : Thread nD τ) srcM3.view dstM3.view fullShare (commF m c) fd (commF m (nxt c)) fun y =>
    commF_shift_emb m c (srcM3.view.emb y) (dstM3.view.emb y) (by show 1 + 1 * _ = 0 + 1 * _ + 1; omega) rfl rfl

theorem landing_4 (c : Dev nD) (fd : Buf (Elt F) (dstM4.view.loc (nxt c : Thread nD τ))) :
    (dstM4.view.loc (nxt c : Thread nD τ) ↦[dstM4.view.set]{fullShare}
        (dstM4.view.write (Elt F) fd (srcM4.view.read (Elt F) (commF m c)) Finset.univ) : sProp 𝕄)
      ⊢ dstPts (nxt c) (commF m (nxt c)) 4 :=
  landing_of_read (c : Thread nD τ) (nxt c : Thread nD τ) srcM4.view dstM4.view fullShare (commF m c) fd (commF m (nxt c)) fun y =>
    commF_shift_emb m c (srcM4.view.emb y) (dstM4.view.emb y) (by show 1 + 1 * _ = 0 + 1 * _ + 1; omega) rfl rfl

theorem landing_5 (c : Dev nD) (fd : Buf (Elt F) (dstM5.view.loc (nxt c : Thread nD τ))) :
    (dstM5.view.loc (nxt c : Thread nD τ) ↦[dstM5.view.set]{fullShare}
        (dstM5.view.write (Elt F) fd (srcM5.view.read (Elt F) (commF m c)) Finset.univ) : sProp 𝕄)
      ⊢ dstPts (nxt c) (commF m (nxt c)) 5 :=
  landing_of_read (c : Thread nD τ) (nxt c : Thread nD τ) srcM5.view dstM5.view fullShare (commF m c) fd (commF m (nxt c)) fun y =>
    commF_shift_emb m c (srcM5.view.emb y) (dstM5.view.emb y) (by show 1 + 1 * _ = 0 + 1 * _ + 1; omega) rfl rfl

theorem landing_6 (c : Dev nD) (fd : Buf (Elt F) (dstM6.view.loc (nxt c : Thread nD τ))) :
    (dstM6.view.loc (nxt c : Thread nD τ) ↦[dstM6.view.set]{fullShare}
        (dstM6.view.write (Elt F) fd (srcM6.view.read (Elt F) (commF m c)) Finset.univ) : sProp 𝕄)
      ⊢ dstPts (nxt c) (commF m (nxt c)) 6 :=
  landing_of_read (c : Thread nD τ) (nxt c : Thread nD τ) srcM6.view dstM6.view fullShare (commF m c) fd (commF m (nxt c)) fun y =>
    commF_shift_emb m c (srcM6.view.emb y) (dstM6.view.emb y) (by show 1 + 1 * _ = 0 + 1 * _ + 1; omega) rfl rfl

theorem landing_7 (c : Dev nD) (fd : Buf (Elt F) (dstM7.view.loc (nxt c : Thread nD τ))) :
    (dstM7.view.loc (nxt c : Thread nD τ) ↦[dstM7.view.set]{fullShare}
        (dstM7.view.write (Elt F) fd (srcM7.view.read (Elt F) (commF m c)) Finset.univ) : sProp 𝕄)
      ⊢ dstPts (nxt c) (commF m (nxt c)) 7 :=
  landing_of_read (c : Thread nD τ) (nxt c : Thread nD τ) srcM7.view dstM7.view fullShare (commF m c) fd (commF m (nxt c)) fun y =>
    commF_shift_emb m c (srcM7.view.emb y) (dstM7.view.emb y) (by show 1 + 1 * _ = 0 + 1 * _ + 1; omega) rfl rfl

theorem landing_8 (c : Dev nD) (fd : Buf (Elt F) (dstM8.view.loc (nxt c : Thread nD τ))) :
    (dstM8.view.loc (nxt c : Thread nD τ) ↦[dstM8.view.set]{fullShare}
        (dstM8.view.write (Elt F) fd (srcM8.view.read (Elt F) (commF m c)) Finset.univ) : sProp 𝕄)
      ⊢ dstPts (nxt c) (commF m (nxt c)) 8 :=
  landing_of_read (c : Thread nD τ) (nxt c : Thread nD τ) srcM8.view dstM8.view fullShare (commF m c) fd (commF m (nxt c)) fun y =>
    commF_shift_emb m c (srcM8.view.emb y) (dstM8.view.emb y) (by show 2 + 1 * _ = 1 + 1 * _ + 1; omega) rfl rfl

theorem landing_9 (c : Dev nD) (fd : Buf (Elt F) (dstM9.view.loc (nxt c : Thread nD τ))) :
    (dstM9.view.loc (nxt c : Thread nD τ) ↦[dstM9.view.set]{fullShare}
        (dstM9.view.write (Elt F) fd (srcM9.view.read (Elt F) (commF m c)) Finset.univ) : sProp 𝕄)
      ⊢ dstPts (nxt c) (commF m (nxt c)) 9 :=
  landing_of_read (c : Thread nD τ) (nxt c : Thread nD τ) srcM9.view dstM9.view fullShare (commF m c) fd (commF m (nxt c)) fun y =>
    commF_shift_emb m c (srcM9.view.emb y) (dstM9.view.emb y) (by show 3 + 1 * _ = 2 + 1 * _ + 1; omega) rfl rfl

theorem landing_10 (c : Dev nD) (fd : Buf (Elt F) (dstM10.view.loc (nxt c : Thread nD τ))) :
    (dstM10.view.loc (nxt c : Thread nD τ) ↦[dstM10.view.set]{fullShare}
        (dstM10.view.write (Elt F) fd (srcM10.view.read (Elt F) (commF m c)) Finset.univ) : sProp 𝕄)
      ⊢ dstPts (nxt c) (commF m (nxt c)) 10 :=
  landing_of_read (c : Thread nD τ) (nxt c : Thread nD τ) srcM10.view dstM10.view fullShare (commF m c) fd (commF m (nxt c)) fun y =>
    commF_shift_emb m c (srcM10.view.emb y) (dstM10.view.emb y) (by show 3 + 1 * _ = 2 + 1 * _ + 1; omega) rfl rfl

end Cert.KernelIdeal.P

end
-- ==== Proof.KI.Regions.lean ====
/- The exchange buffer is the disjoint union of nineteen regions, and each two-slot buffer of its two slots: held whole is held piece by piece. -/
import proofs.«900748_g7700000000000749_dist_arsfmx_v7x_xyz2x2x4_z_t512_d1024_v8192_bf16_1_alg».proof.Proof.KI.Sched
import Idealize.ShloMosaic.Lib.Ring

noncomputable section

namespace Cert.KernelIdeal.P

open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

theorem mem_unit3 (s lo len : ℕ) (inb : ∀ a, (![s, 0, lo] : Fin 3 → ℕ) a + (![1, 512, len] : Fin 3 → ℕ) a ≤ S4x512x8192.size a) (i : S4x512x8192.Idx) :
    i ∈ (Rect.unit (s := S4x512x8192) ![s, 0, lo] ![1, 512, len] inb).set ↔ (i 0).val = s ∧ lo ≤ (i 2).val ∧ (i 2).val < lo + len := by
  rw [Rect.mem_set_unit]
  constructor
  · intro h
    have h0 := h 0; have h2 := h 2
    simp at h0 h2
    omega
  · rintro ⟨h0, h2, h2'⟩ a
    have hi1 : (i 1).val < 512 := (i 1).isLt
    match a with
    | ⟨0, _⟩ => show s ≤ (i 0).val ∧ (i 0).val < s + 1; omega
    | ⟨1, _⟩ => show 0 ≤ (i 1).val ∧ (i 1).val < 0 + 512; omega
    | ⟨2, _⟩ => show lo ≤ (i 2).val ∧ (i 2).val < lo + len; omega

/-- The nineteen regions: the eight segments of slot 0, the eight of slot 1, slot 2, the two halves of slot 3. -/
def regSet (b : Fin 19) : Finset S4x512x8192.Idx :=
  match b.val with
    | 0 => (srcM0 : Memref sig .tc .vmem S512x1024 .bf16).view.set
    | 1 => (srcM1 : Memref sig .tc .vmem S512x1024 .bf16).view.set
    | 2 => (srcM2 : Memref sig .tc .vmem S512x1024 .bf16).view.set
    | 3 => (srcM3 : Memref sig .tc .vmem S512x1024 .bf16).view.set
    | 4 => (srcM4 : Memref sig .tc .vmem S512x1024 .bf16).view.set
    | 5 => (srcM5 : Memref sig .tc .vmem S512x1024 .bf16).view.set
    | 6 => (srcM6 : Memref sig .tc .vmem S512x1024 .bf16).view.set
    | 7 => (srcM7 : Memref sig .tc .vmem S512x1024 .bf16).view.set
    | 8 => (dstM0 : Memref sig .tc .vmem S512x1024 .bf16).view.set
    | 9 => (dstM1 : Memref sig .tc .vmem S512x1024 .bf16).view.set
    | 10 => (dstM2 : Memref sig .tc .vmem S512x1024 .bf16).view.set
    | 11 => (dstM3 : Memref sig .tc .vmem S512x1024 .bf16).view.set
    | 12 => (dstM4 : Memref sig .tc .vmem S512x1024 .bf16).view.set
    | 13 => (dstM5 : Memref sig .tc .vmem S512x1024 .bf16).view.set
    | 14 => (dstM6 : Memref sig .tc .vmem S512x1024 .bf16).view.set
    | 15 => (dstM7 : Memref sig .tc .vmem S512x1024 .bf16).view.set
    | 16 => (dstM8 : Memref sig .tc .vmem S512x8192 .bf16).view.set
    | 17 => (dstM9 : Memref sig .tc .vmem S512x4096 .bf16).view.set
    | _ => (dstM10 : Memref sig .tc .vmem S512x4096 .bf16).view.set

def regSlot (n : ℕ) : ℕ := if n < 8 then 0 else if n < 16 then 1 else if n = 16 then 2 else 3
def regLo (n : ℕ) : ℕ := if n < 8 then 1024 * n else if n < 16 then 1024 * (n - 8) else if n = 18 then 4096 else 0
def regLen (n : ℕ) : ℕ := if n < 16 then 1024 else if n = 16 then 8192 else 4096

theorem mem_regSet (b : Fin 19) (i : S4x512x8192.Idx) :
    i ∈ regSet b ↔ (i 0).val = regSlot b.val ∧ regLo b.val ≤ (i 2).val ∧ (i 2).val < regLo b.val + regLen b.val := by
  fin_cases b <;>
    exact (Eq.to_iff (congrArg (i ∈ ·) ((View.set_reshape _ _).trans (View.set_slice_whole _ _)))).trans (mem_unit3 _ _ _ _ i)

/-- Two distinct regions lie in different slots or in disjoint column intervals. -/
theorem reg_apart : ∀ b b' : Fin 19, b ≠ b' →
    regSlot b.val ≠ regSlot b'.val ∨ regLo b.val + regLen b.val ≤ regLo b'.val ∨ regLo b'.val + regLen b'.val ≤ regLo b.val := by decide

theorem regSet_disjoint (b b' : Fin 19) (h : b ≠ b') : Disjoint (regSet b) (regSet b') := by
  rw [Finset.disjoint_left]
  intro i hi hi'
  rw [mem_regSet] at hi hi'
  have key := reg_apart b b' h
  omega

theorem regSet_cover : Finset.univ.biUnion regSet = Finset.univ := by
  ext i
  simp only [Finset.mem_biUnion, Finset.mem_univ, true_and, iff_true]
  have h0 : (i 0).val < 4 := (i 0).isLt
  have h2 : (i 2).val < 8192 := (i 2).isLt
  rcases (show (i 0).val = 0 ∨ (i 0).val = 1 ∨ (i 0).val = 2 ∨ (i 0).val = 3 by omega) with h | h | h | h
  · refine ⟨⟨(i 2).val / 1024, by omega⟩, (mem_regSet _ i).mpr ?_⟩
    show _ = regSlot ((i 2).val / 1024) ∧ regLo ((i 2).val / 1024) ≤ _ ∧ _ < regLo ((i 2).val / 1024) + regLen ((i 2).val / 1024)
    have hk : (i 2).val / 1024 < 8 := by omega
    simp only [regSlot, regLo, regLen, if_pos hk, if_pos (show (i 2).val / 1024 < 16 by omega)]
    omega
  · refine ⟨⟨8 + (i 2).val / 1024, by omega⟩, (mem_regSet _ i).mpr ?_⟩
    show _ = regSlot (8 + (i 2).val / 1024) ∧ regLo (8 + (i 2).val / 1024) ≤ _ ∧ _ < regLo (8 + (i 2).val / 1024) + regLen (8 + (i 2).val / 1024)
    simp only [regSlot, regLo, regLen, if_neg (show ¬ 8 + (i 2).val / 1024 < 8 by omega), if_pos (show 8 + (i 2).val / 1024 < 16 by omega)]
    omega
  · refine ⟨⟨16, by decide⟩, (mem_regSet _ i).mpr ?_⟩
    show _ = regSlot 16 ∧ regLo 16 ≤ _ ∧ _ < regLo 16 + regLen 16
    simp only [regSlot, regLo, regLen]
    simp
    omega
  · refine ⟨⟨17 + (i 2).val / 4096, by omega⟩, (mem_regSet _ i).mpr ?_⟩
    show _ = regSlot (17 + (i 2).val / 4096) ∧ regLo (17 + (i 2).val / 4096) ≤ _ ∧ _ < regLo (17 + (i 2).val / 4096) + regLen (17 + (i 2).val / 4096)
    simp only [regSlot, regLo, regLen, if_neg (show ¬ 17 + (i 2).val / 4096 < 8 by omega), if_neg (show ¬ 17 + (i 2).val / 4096 < 16 by omega),
      if_neg (show ¬ 17 + (i 2).val / 4096 = 16 by omega)]
    split_ifs <;> omega

theorem bigSep_fin19 (Φ : Fin 19 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ

/-- The exchange buffer held whole at f is its nineteen regions held at f. -/
theorem scratch0_split (c : Dev nD) (f : Vec F S4x512x8192 .bf16) :
    ((((c : Thread nD τ).loc cc0_scratch0) ↦{fullShare} f) : sProp 𝕄)
      = iprop(((srcM0 : Memref sig .tc .vmem S512x1024 .bf16).view.loc (c : Thread nD τ) ↦[(srcM0 : Memref sig .tc .vmem S512x1024 .bf16).view.set]{fullShare} f)
        ∗ ((srcM1 : Memref sig .tc .vmem S512x1024 .bf16).view.loc (c : Thread nD τ) ↦[(srcM1 : Memref sig .tc .vmem S512x1024 .bf16).view.set]{fullShare} f)
        ∗ ((srcM2 : Memref sig .tc .vmem S512x1024 .bf16).view.loc (c : Thread nD τ) ↦[(srcM2 : Memref sig .tc .vmem S512x1024 .bf16).view.set]{fullShare} f)
        ∗ ((srcM3 : Memref sig .tc .vmem S512x1024 .bf16).view.loc (c : Thread nD τ) ↦[(srcM3 : Memref sig .tc .vmem S512x1024 .bf16).view.set]{fullShare} f)
        ∗ ((srcM4 : Memref sig .tc .vmem S512x1024 .bf16).view.loc (c : Thread nD τ) ↦[(srcM4 : Memref sig .tc .vmem S512x1024 .bf16).view.set]{fullShare} f)
        ∗ ((srcM5 : Memref sig .tc .vmem S512x1024 .bf16).view.loc (c : Thread nD τ) ↦[(srcM5 : Memref sig .tc .vmem S512x1024 .bf16).view.set]{fullShare} f)
        ∗ ((srcM6 : Memref sig .tc .vmem S512x1024 .bf16).view.loc (c : Thread nD τ) ↦[(srcM6 : Memref sig .tc .vmem S512x1024 .bf16).view.set]{fullShare} f)
        ∗ ((srcM7 : Memref sig .tc .vmem S512x1024 .bf16).view.loc (c : Thread nD τ) ↦[(srcM7 : Memref sig .tc .vmem S512x1024 .bf16).view.set]{fullShare} f)
        ∗ ((dstM0 : Memref sig .tc .vmem S512x1024 .bf16).view.loc (c : Thread nD τ) ↦[(dstM0 : Memref sig .tc .vmem S512x1024 .bf16).view.set]{fullShare} f)
        ∗ ((dstM1 : Memref sig .tc .vmem S512x1024 .bf16).view.loc (c : Thread nD τ) ↦[(dstM1 : Memref sig .tc .vmem S512x1024 .bf16).view.set]{fullShare} f)
        ∗ ((dstM2 : Memref sig .tc .vmem S512x1024 .bf16).view.loc (c : Thread nD τ) ↦[(dstM2 : Memref sig .tc .vmem S512x1024 .bf16).view.set]{fullShare} f)
        ∗ ((dstM3 : Memref sig .tc .vmem S512x1024 .bf16).view.loc (c : Thread nD τ) ↦[(dstM3 : Memref sig .tc .vmem S512x1024 .bf16).view.set]{fullShare} f)
        ∗ ((dstM4 : Memref sig .tc .vmem S512x1024 .bf16).view.loc (c : Thread nD τ) ↦[(dstM4 : Memref sig .tc .vmem S512x1024 .bf16).view.set]{fullShare} f)
        ∗ ((dstM5 : Memref sig .tc .vmem S512x1024 .bf16).view.loc (c : Thread nD τ) ↦[(dstM5 : Memref sig .tc .vmem S512x1024 .bf16).view.set]{fullShare} f)
        ∗ ((dstM6 : Memref sig .tc .vmem S512x1024 .bf16).view.loc (c : Thread nD τ) ↦[(dstM6 : Memref sig .tc .vmem S512x1024 .bf16).view.set]{fullShare} f)
        ∗ ((dstM7 : Memref sig .tc .vmem S512x1024 .bf16).view.loc (c : Thread nD τ) ↦[(dstM7 : Memref sig .tc .vmem S512x1024 .bf16).view.set]{fullShare} f)
        ∗ ((dstM8 : Memref sig .tc .vmem S512x8192 .bf16).view.loc (c : Thread nD τ) ↦[(dstM8 : Memref sig .tc .vmem S512x8192 .bf16).view.set]{fullShare} f)
        ∗ ((dstM9 : Memref sig .tc .vmem S512x4096 .bf16).view.loc (c : Thread nD τ) ↦[(dstM9 : Memref sig .tc .vmem S512x4096 .bf16).view.set]{fullShare} f)
        ∗ ((dstM10 : Memref sig .tc .vmem S512x4096 .bf16).view.loc (c : Thread nD τ) ↦[(dstM10 : Memref sig .tc .vmem S512x4096 .bf16).view.set]{fullShare} f)) := by
  rw [Ring.pointsTo_blocks regSet regSet_disjoint regSet_cover, bigSep_fin19]
  rfl

theorem w_mem_unit (k : ℕ) (inb : ∀ a, (![k, 0, 0] : Fin 3 → ℕ) a + (![1, 1024, 512] : Fin 3 → ℕ) a ≤ S2x1024x512.size a) (i : S2x1024x512.Idx) :
    i ∈ (Rect.unit (s := S2x1024x512) ![k, 0, 0] ![1, 1024, 512] inb).set ↔ (i 0).val = k := by
  rw [Rect.mem_set_unit]
  constructor
  · intro h
    have h0 := h 0
    simp at h0
    omega
  · intro h0 a
    have hi1 : (i 1).val < 1024 := (i 1).isLt
    have hi2 : (i 2).val < 512 := (i 2).isLt
    match a with
    | ⟨0, _⟩ => show k ≤ (i 0).val ∧ (i 0).val < k + 1; omega
    | ⟨1, _⟩ => show 0 ≤ (i 1).val ∧ (i 1).val < 0 + 1024; omega
    | ⟨2, _⟩ => show 0 ≤ (i 2).val ∧ (i 2).val < 0 + 512; omega

def wSet (k : Fin 2) : Finset S2x1024x512.Idx := match k with | 0 => wM0.view.set | 1 => wM1.view.set

theorem mem_wSet (k : Fin 2) (i : S2x1024x512.Idx) : i ∈ wSet k ↔ (i 0).val = k.val := by
  fin_cases k <;>
    exact (Eq.to_iff (congrArg (i ∈ ·) ((View.set_reshape _ _).trans (View.set_slice_whole _ _)))).trans (w_mem_unit _ _ i)

theorem wSet_disjoint (k k' : Fin 2) (h : k ≠ k') : Disjoint (wSet k) (wSet k') := by
  rw [Finset.disjoint_left]
  intro i hi hi'
  rw [mem_wSet] at hi hi'
  exact h (Fin.ext (hi.symm.trans hi'))

theorem wSet_cover : Finset.univ.biUnion wSet = Finset.univ := by
  ext i
  simp only [Finset.mem_biUnion, Finset.mem_univ, true_and, iff_true]
  exact ⟨⟨(i 0).val, (i 0).isLt⟩, (mem_wSet _ i).mpr rfl⟩

theorem w_split (c : Dev nD) (f : Vec F S2x1024x512 .f32) :
    ((((c : Thread nD τ).loc cc0_scratch2) ↦{fullShare} f) : sProp 𝕄)
      = iprop((wM0.view.loc (c : Thread nD τ) ↦[wM0.view.set]{fullShare} f)
        ∗ (wM1.view.loc (c : Thread nD τ) ↦[wM1.view.set]{fullShare} f)) := by
  rw [Ring.pointsTo_blocks wSet wSet_disjoint wSet_cover, bigSep_univ_two]
  rfl

theorem w_join (c : Dev nD) :
    iprop((∃ f : Vec F S2x1024x512 .f32, wM0.view.loc (c : Thread nD τ) ↦[wM0.view.set]{fullShare} f)
        ∗ (∃ f : Vec F S2x1024x512 .f32, wM1.view.loc (c : Thread nD τ) ↦[wM1.view.set]{fullShare} f))
      ⊢ (iprop(∃ g : Buf (Elt F) ((c : Thread nD τ).loc cc0_scratch2), ((c : Thread nD τ).loc cc0_scratch2) ↦{fullShare} g) : sProp 𝕄) :=
  Ring.slots2_join (ℓ := (c : Thread nD τ).loc cc0_scratch2) wSet wSet_disjoint wSet_cover
    (fun f => (wM0.view.loc (c : Thread nD τ) ↦[wM0.view.set]{fullShare} f))
    (fun f => (wM1.view.loc (c : Thread nD τ) ↦[wM1.view.set]{fullShare} f))
    (fun _ => rfl) (fun _ => rfl)

theorem o_mem_unit (k : ℕ) (inb : ∀ a, (![k, 0, 0] : Fin 3 → ℕ) a + (![1, 512, 2048] : Fin 3 → ℕ) a ≤ S2x512x2048.size a) (i : S2x512x2048.Idx) :
    i ∈ (Rect.unit (s := S2x512x2048) ![k, 0, 0] ![1, 512, 2048] inb).set ↔ (i 0).val = k := by
  rw [Rect.mem_set_unit]
  constructor
  · intro h
    have h0 := h 0
    simp at h0
    omega
  · intro h0 a
    have hi1 : (i 1).val < 512 := (i 1).isLt
    have hi2 : (i 2).val < 2048 := (i 2).isLt
    match a with
    | ⟨0, _⟩ => show k ≤ (i 0).val ∧ (i 0).val < k + 1; omega
    | ⟨1, _⟩ => show 0 ≤ (i 1).val ∧ (i 1).val < 0 + 512; omega
    | ⟨2, _⟩ => show 0 ≤ (i 2).val ∧ (i 2).val < 0 + 2048; omega

def oSet (k : Fin 2) : Finset S2x512x2048.Idx := match k with | 0 => oM0.view.set | 1 => oM1.view.set

theorem mem_oSet (k : Fin 2) (i : S2x512x2048.Idx) : i ∈ oSet k ↔ (i 0).val = k.val := by
  fin_cases k <;>
    exact (Eq.to_iff (congrArg (i ∈ ·) ((View.set_reshape _ _).trans (View.set_slice_whole _ _)))).trans (o_mem_unit _ _ i)

theorem oSet_disjoint (k k' : Fin 2) (h : k ≠ k') : Disjoint (oSet k) (oSet k') := by
  rw [Finset.disjoint_left]
  intro i hi hi'
  rw [mem_oSet] at hi hi'
  exact h (Fin.ext (hi.symm.trans hi'))

theorem oSet_cover : Finset.univ.biUnion oSet = Finset.univ := by
  ext i
  simp only [Finset.mem_biUnion, Finset.mem_univ, true_and, iff_true]
  exact ⟨⟨(i 0).val, (i 0).isLt⟩, (mem_oSet _ i).mpr rfl⟩

theorem o_split (c : Dev nD) (f : Vec F S2x512x2048 .bf16) :
    ((((c : Thread nD τ).loc cc0_scratch3) ↦{fullShare} f) : sProp 𝕄)
      = iprop((oM0.view.loc (c : Thread nD τ) ↦[oM0.view.set]{fullShare} f)
        ∗ (oM1.view.loc (c : Thread nD τ) ↦[oM1.view.set]{fullShare} f)) := by
  rw [Ring.pointsTo_blocks oSet oSet_disjoint oSet_cover, bigSep_univ_two]
  rfl

theorem o_join (c : Dev nD) :
    iprop((∃ f : Vec F S2x512x2048 .bf16, oM0.view.loc (c : Thread nD τ) ↦[oM0.view.set]{fullShare} f)
        ∗ (∃ f : Vec F S2x512x2048 .bf16, oM1.view.loc (c : Thread nD τ) ↦[oM1.view.set]{fullShare} f))
      ⊢ (iprop(∃ g : Buf (Elt F) ((c : Thread nD τ).loc cc0_scratch3), ((c : Thread nD τ).loc cc0_scratch3) ↦{fullShare} g) : sProp 𝕄) :=
  Ring.slots2_join (ℓ := (c : Thread nD τ).loc cc0_scratch3) oSet oSet_disjoint oSet_cover
    (fun f => (oM0.view.loc (c : Thread nD τ) ↦[oM0.view.set]{fullShare} f))
    (fun f => (oM1.view.loc (c : Thread nD τ) ↦[oM1.view.set]{fullShare} f))
    (fun _ => rfl) (fun _ => rfl)

end Cert.KernelIdeal.P

end
-- ==== Proof.KI.BodyFrame.lean ====
/- The body's pre- and postcondition: the launch state opened into the context the body is stepped from, and the final context folded back. -/
import proofs.«900748_g7700000000000749_dist_arsfmx_v7x_xyz2x2x4_z_t512_d1024_v8192_bf16_1_alg».proof.Proof.KI.Launch
import proofs.«900748_g7700000000000749_dist_arsfmx_v7x_xyz2x2x4_z_t512_d1024_v8192_bf16_1_alg».proof.Proof.KI.Landing
import proofs.«900748_g7700000000000749_dist_arsfmx_v7x_xyz2x2x4_z_t512_d1024_v8192_bf16_1_alg».proof.Proof.KI.SkeletonP
import proofs.«900748_g7700000000000749_dist_arsfmx_v7x_xyz2x2x4_z_t512_d1024_v8192_bf16_1_alg».proof.Proof.Gen.KernelIdeal.Points
import proofs.«900748_g7700000000000749_dist_arsfmx_v7x_xyz2x2x4_z_t512_d1024_v8192_bf16_1_alg».proof.Proof.KI.Regions

noncomputable section

namespace Cert.KernelIdeal.P

open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the body is stepped from: the cells' records and tokens, what is owed, the nineteen regions of the exchange buffer and the other buffers at some contents. -/
def midPre (c : Dev nD) (K : Dev nD × Fin 23 → ℕ) (W : Waits sig Unit) (f0 : Vec F S4x512x8192 .bf16) (f1 : Vec F S512x1024 .bf16)
    (f2 : Vec F S2x1024x512 .f32) (f3 : Vec F S2x512x2048 .bf16) : sProp 𝕄 :=
    iprop(cellInv ER (ringRd m) (K (c, kB)) (barCell c) ∗ cellInv ER (ringRd m) (K (nxt c, kB)) (barCell (nxt c)) ∗ cellInv ER (ringRd m) (K (prv c, kB)) (barCell (prv c))
        ∗ reached ER (barCell (nxt c)) 0 ∗ reached ER (barCell (prv c)) 0
        ∗ dutyTok ER (barCell (nxt c)) 0 false ∗ dutyTok ER (barCell (prv c)) 0 true
        ∗ atPos ER (barCell c) 0 ∅ 0 ∗ cred (tallyAt (barCell c) () 2) ∗ levAts L lv
        ∗ owes (c : Thread nD τ) (tallyAt (recvCell (nxt c) 10) () (amt 10) + tallyAt (recvCell (nxt c) 9) () (amt 9) + tallyAt (recvCell (nxt c) 8) () (amt 8) + tallyAt (recvCell (nxt c) 7) () (amt 7) + tallyAt (recvCell (nxt c) 6) () (amt 6) + tallyAt (recvCell (nxt c) 5) () (amt 5) + tallyAt (recvCell (nxt c) 4) () (amt 4) + tallyAt (recvCell (nxt c) 3) () (amt 3) + tallyAt (recvCell (nxt c) 2) () (amt 2) + tallyAt (recvCell (nxt c) 1) () (amt 1) + tallyAt (recvCell (nxt c) 0) () (amt 0) + tallyAt (barCell (nxt c)) () 1 + tallyAt (barCell (prv c)) () 1) W
        ∗ barPay (F := F) c
        ∗ (((Memref.whole cc0_stg0_0 : Memref sig .tc .vmem S512x1024 .f32)).view.loc (c : Thread nD τ) ↦[((Memref.whole cc0_stg0_0 : Memref sig .tc .vmem S512x1024 .f32)).view.set]{fullShare} xS m c)
        ∗ (((Memref.whole main_arg1 : Memref sig .tc .hbm S1024x8192 .f32)).view.loc (c : Thread nD τ) ↦[((Memref.whole main_arg1 : Memref sig .tc .hbm S1024x8192 .f32)).view.set]{fullShare} wA m c)
        ∗ (((Memref.whole main_v1 : Memref sig .tc .hbm S512x32768 .bf16)).view.loc (c : Thread nD τ) ↦[((Memref.whole main_v1 : Memref sig .tc .hbm S512x32768 .bf16)).view.set]{fullShare} m ((c : Thread nD τ).loc main_v1))
        ∗ ((srcM0 : Memref sig .tc .vmem _ _).view.loc (c : Thread nD τ) ↦[(srcM0 : Memref sig .tc .vmem _ _).view.set]{fullShare} f0)
        ∗ ((srcM1 : Memref sig .tc .vmem _ _).view.loc (c : Thread nD τ) ↦[(srcM1 : Memref sig .tc .vmem _ _).view.set]{fullShare} f0)
        ∗ ((srcM2 : Memref sig .tc .vmem _ _).view.loc (c : Thread nD τ) ↦[(srcM2 : Memref sig .tc .vmem _ _).view.set]{fullShare} f0)
        ∗ ((srcM3 : Memref sig .tc .vmem _ _).view.loc (c : Thread nD τ) ↦[(srcM3 : Memref sig .tc .vmem _ _).view.set]{fullShare} f0)
        ∗ ((srcM4 : Memref sig .tc .vmem _ _).view.loc (c : Thread nD τ) ↦[(srcM4 : Memref sig .tc .vmem _ _).view.set]{fullShare} f0)
        ∗ ((srcM5 : Memref sig .tc .vmem _ _).view.loc (c : Thread nD τ) ↦[(srcM5 : Memref sig .tc .vmem _ _).view.set]{fullShare} f0)
        ∗ ((srcM6 : Memref sig .tc .vmem _ _).view.loc (c : Thread nD τ) ↦[(srcM6 : Memref sig .tc .vmem _ _).view.set]{fullShare} f0)
        ∗ ((srcM7 : Memref sig .tc .vmem _ _).view.loc (c : Thread nD τ) ↦[(srcM7 : Memref sig .tc .vmem _ _).view.set]{fullShare} f0)
        ∗ (((Memref.whole cc0_scratch1 : Memref sig .tc .vmem S512x1024 .bf16)).view.loc (c : Thread nD τ) ↦[((Memref.whole cc0_scratch1 : Memref sig .tc .vmem S512x1024 .bf16)).view.set]{fullShare} f1)
        ∗ ((wM0).view.loc (c : Thread nD τ) ↦[(wM0).view.set]{fullShare} f2)
        ∗ ((wM1).view.loc (c : Thread nD τ) ↦[(wM1).view.set]{fullShare} f2)
        ∗ ((oM0).view.loc (c : Thread nD τ) ↦[(oM0).view.set]{fullShare} f3)
        ∗ ((oM1).view.loc (c : Thread nD τ) ↦[(oM1).view.set]{fullShare} f3)
        ∗ cellInv ER (ringRd m) (K (c, kS 0)) (sendCell c 0) ∗ cellInv ER (ringRd m) (K (c, kR 0)) (recvCell c 0) ∗ cellInv ER (ringRd m) (K (nxt c, kR 0)) (recvCell (nxt c) 0)
        ∗ reached ER (sendCell c 0) 0 ∗ reached ER (recvCell c 0) 0
        ∗ dutyTok ER (sendCell c 0) 0 false ∗ dutyTok ER (recvCell (nxt c) 0) 0 false
        ∗ atPos ER (sendCell c 0) 0 ∅ 0 ∗ atPos ER (recvCell c 0) 0 ∅ 0 ∗ cred (tallyAt (recvCell c 0) () (amt 0))
        ∗ cellInv ER (ringRd m) (K (c, kS 1)) (sendCell c 1) ∗ cellInv ER (ringRd m) (K (c, kR 1)) (recvCell c 1) ∗ cellInv ER (ringRd m) (K (nxt c, kR 1)) (recvCell (nxt c) 1)
        ∗ reached ER (sendCell c 1) 0 ∗ reached ER (recvCell c 1) 0
        ∗ dutyTok ER (sendCell c 1) 0 false ∗ dutyTok ER (recvCell (nxt c) 1) 0 false
        ∗ atPos ER (sendCell c 1) 0 ∅ 0 ∗ atPos ER (recvCell c 1) 0 ∅ 0 ∗ cred (tallyAt (recvCell c 1) () (amt 1))
        ∗ cellInv ER (ringRd m) (K (c, kS 2)) (sendCell c 2) ∗ cellInv ER (ringRd m) (K (c, kR 2)) (recvCell c 2) ∗ cellInv ER (ringRd m) (K (nxt c, kR 2)) (recvCell (nxt c) 2)
        ∗ reached ER (sendCell c 2) 0 ∗ reached ER (recvCell c 2) 0
        ∗ dutyTok ER (sendCell c 2) 0 false ∗ dutyTok ER (recvCell (nxt c) 2) 0 false
        ∗ atPos ER (sendCell c 2) 0 ∅ 0 ∗ atPos ER (recvCell c 2) 0 ∅ 0 ∗ cred (tallyAt (recvCell c 2) () (amt 2))
        ∗ cellInv ER (ringRd m) (K (c, kS 3)) (sendCell c 3) ∗ cellInv ER (ringRd m) (K (c, kR 3)) (recvCell c 3) ∗ cellInv ER (ringRd m) (K (nxt c, kR 3)) (recvCell (nxt c) 3)
        ∗ reached ER (sendCell c 3) 0 ∗ reached ER (recvCell c 3) 0
        ∗ dutyTok ER (sendCell c 3) 0 false ∗ dutyTok ER (recvCell (nxt c) 3) 0 false
        ∗ atPos ER (sendCell c 3) 0 ∅ 0 ∗ atPos ER (recvCell c 3) 0 ∅ 0 ∗ cred (tallyAt (recvCell c 3) () (amt 3))
        ∗ cellInv ER (ringRd m) (K (c, kS 4)) (sendCell c 4) ∗ cellInv ER (ringRd m) (K (c, kR 4)) (recvCell c 4) ∗ cellInv ER (ringRd m) (K (nxt c, kR 4)) (recvCell (nxt c) 4)
        ∗ reached ER (sendCell c 4) 0 ∗ reached ER (recvCell c 4) 0
        ∗ dutyTok ER (sendCell c 4) 0 false ∗ dutyTok ER (recvCell (nxt c) 4) 0 false
        ∗ atPos ER (sendCell c 4) 0 ∅ 0 ∗ atPos ER (recvCell c 4) 0 ∅ 0 ∗ cred (tallyAt (recvCell c 4) () (amt 4))
        ∗ cellInv ER (ringRd m) (K (c, kS 5)) (sendCell c 5) ∗ cellInv ER (ringRd m) (K (c, kR 5)) (recvCell c 5) ∗ cellInv ER (ringRd m) (K (nxt c, kR 5)) (recvCell (nxt c) 5)
        ∗ reached ER (sendCell c 5) 0 ∗ reached ER (recvCell c 5) 0
        ∗ dutyTok ER (sendCell c 5) 0 false ∗ dutyTok ER (recvCell (nxt c) 5) 0 false
        ∗ atPos ER (sendCell c 5) 0 ∅ 0 ∗ atPos ER (recvCell c 5) 0 ∅ 0 ∗ cred (tallyAt (recvCell c 5) () (amt 5))
        ∗ cellInv ER (ringRd m) (K (c, kS 6)) (sendCell c 6) ∗ cellInv ER (ringRd m) (K (c, kR 6)) (recvCell c 6) ∗ cellInv ER (ringRd m) (K (nxt c, kR 6)) (recvCell (nxt c) 6)
        ∗ reached ER (sendCell c 6) 0 ∗ reached ER (recvCell c 6) 0
        ∗ dutyTok ER (sendCell c 6) 0 false ∗ dutyTok ER (recvCell (nxt c) 6) 0 false
        ∗ atPos ER (sendCell c 6) 0 ∅ 0 ∗ atPos ER (recvCell c 6) 0 ∅ 0 ∗ cred (tallyAt (recvCell c 6) () (amt 6))
        ∗ cellInv ER (ringRd m) (K (c, kS 7)) (sendCell c 7) ∗ cellInv ER (ringRd m) (K (c, kR 7)) (recvCell c 7) ∗ cellInv ER (ringRd m) (K (nxt c, kR 7)) (recvCell (nxt c) 7)
        ∗ reached ER (sendCell c 7) 0 ∗ reached ER (recvCell c 7) 0
        ∗ dutyTok ER (sendCell c 7) 0 false ∗ dutyTok ER (recvCell (nxt c) 7) 0 false
        ∗ atPos ER (sendCell c 7) 0 ∅ 0 ∗ atPos ER (recvCell c 7) 0 ∅ 0 ∗ cred (tallyAt (recvCell c 7) () (amt 7))
        ∗ cellInv ER (ringRd m) (K (c, kS 8)) (sendCell c 8) ∗ cellInv ER (ringRd m) (K (c, kR 8)) (recvCell c 8) ∗ cellInv ER (ringRd m) (K (nxt c, kR 8)) (recvCell (nxt c) 8)
        ∗ reached ER (sendCell c 8) 0 ∗ reached ER (recvCell c 8) 0
        ∗ dutyTok ER (sendCell c 8) 0 false ∗ dutyTok ER (recvCell (nxt c) 8) 0 false
        ∗ atPos ER (sendCell c 8) 0 ∅ 0 ∗ atPos ER (recvCell c 8) 0 ∅ 0 ∗ cred (tallyAt (recvCell c 8) () (amt 8))
        ∗ cellInv ER (ringRd m) (K (c, kS 9)) (sendCell c 9) ∗ cellInv ER (ringRd m) (K (c, kR 9)) (recvCell c 9) ∗ cellInv ER (ringRd m) (K (nxt c, kR 9)) (recvCell (nxt c) 9)
        ∗ reached ER (sendCell c 9) 0 ∗ reached ER (recvCell c 9) 0
        ∗ dutyTok ER (sendCell c 9) 0 false ∗ dutyTok ER (recvCell (nxt c) 9) 0 false
        ∗ atPos ER (sendCell c 9) 0 ∅ 0 ∗ atPos ER (recvCell c 9) 0 ∅ 0 ∗ cred (tallyAt (recvCell c 9) () (amt 9))
        ∗ cellInv ER (ringRd m) (K (c, kS 10)) (sendCell c 10) ∗ cellInv ER (ringRd m) (K (c, kR 10)) (recvCell c 10) ∗ cellInv ER (ringRd m) (K (nxt c, kR 10)) (recvCell (nxt c) 10)
        ∗ reached ER (sendCell c 10) 0 ∗ reached ER (recvCell c 10) 0
        ∗ dutyTok ER (sendCell c 10) 0 false ∗ dutyTok ER (recvCell (nxt c) 10) 0 false
        ∗ atPos ER (sendCell c 10) 0 ∅ 0 ∗ atPos ER (recvCell c 10) 0 ∅ 0 ∗ cred (tallyAt (recvCell c 10) () (amt 10))
        ∗ semVal ((c : Thread nD τ), .dma ((cc0_scratch6 : DmaSems sig S2).ix (ix1 0))) 0 ∗ semVal ((c : Thread nD τ), .dma ((cc0_scratch6 : DmaSems sig S2).ix (ix1 1))) 0
        ∗ semVal ((c : Thread nD τ), .dma ((cc0_scratch7 : DmaSems sig S2).ix (ix1 0))) 0 ∗ semVal ((c : Thread nD τ), .dma ((cc0_scratch7 : DmaSems sig S2).ix (ix1 1))) 0)

/-- What the body leaves: every cell one round on, nothing owed, the exchange buffer and the result at their final contents. -/
def midPost (c : Dev nD) (K : Dev nD × Fin 23 → ℕ) (W' : Waits sig Unit) : sProp 𝕄 :=
    iprop(atPos ER (barCell c) 1 ∅ 0
        ∗ cellInv ER (ringRd m) (K (c, kS 0)) (sendCell c 0) ∗ cellInv ER (ringRd m) (K (c, kR 0)) (recvCell c 0) ∗ atPos ER (sendCell c 0) 1 ∅ 0 ∗ atPos ER (recvCell c 0) 1 ∅ 0
        ∗ cellInv ER (ringRd m) (K (c, kS 1)) (sendCell c 1) ∗ cellInv ER (ringRd m) (K (c, kR 1)) (recvCell c 1) ∗ atPos ER (sendCell c 1) 1 ∅ 0 ∗ atPos ER (recvCell c 1) 1 ∅ 0
        ∗ cellInv ER (ringRd m) (K (c, kS 2)) (sendCell c 2) ∗ cellInv ER (ringRd m) (K (c, kR 2)) (recvCell c 2) ∗ atPos ER (sendCell c 2) 1 ∅ 0 ∗ atPos ER (recvCell c 2) 1 ∅ 0
        ∗ cellInv ER (ringRd m) (K (c, kS 3)) (sendCell c 3) ∗ cellInv ER (ringRd m) (K (c, kR 3)) (recvCell c 3) ∗ atPos ER (sendCell c 3) 1 ∅ 0 ∗ atPos ER (recvCell c 3) 1 ∅ 0
        ∗ cellInv ER (ringRd m) (K (c, kS 4)) (sendCell c 4) ∗ cellInv ER (ringRd m) (K (c, kR 4)) (recvCell c 4) ∗ atPos ER (sendCell c 4) 1 ∅ 0 ∗ atPos ER (recvCell c 4) 1 ∅ 0
        ∗ cellInv ER (ringRd m) (K (c, kS 5)) (sendCell c 5) ∗ cellInv ER (ringRd m) (K (c, kR 5)) (recvCell c 5) ∗ atPos ER (sendCell c 5) 1 ∅ 0 ∗ atPos ER (recvCell c 5) 1 ∅ 0
        ∗ cellInv ER (ringRd m) (K (c, kS 6)) (sendCell c 6) ∗ cellInv ER (ringRd m) (K (c, kR 6)) (recvCell c 6) ∗ atPos ER (sendCell c 6) 1 ∅ 0 ∗ atPos ER (recvCell c 6) 1 ∅ 0
        ∗ cellInv ER (ringRd m) (K (c, kS 7)) (sendCell c 7) ∗ cellInv ER (ringRd m) (K (c, kR 7)) (recvCell c 7) ∗ atPos ER (sendCell c 7) 1 ∅ 0 ∗ atPos ER (recvCell c 7) 1 ∅ 0
        ∗ cellInv ER (ringRd m) (K (c, kS 8)) (sendCell c 8) ∗ cellInv ER (ringRd m) (K (c, kR 8)) (recvCell c 8) ∗ atPos ER (sendCell c 8) 1 ∅ 0 ∗ atPos ER (recvCell c 8) 1 ∅ 0
        ∗ cellInv ER (ringRd m) (K (c, kS 9)) (sendCell c 9) ∗ cellInv ER (ringRd m) (K (c, kR 9)) (recvCell c 9) ∗ atPos ER (sendCell c 9) 1 ∅ 0 ∗ atPos ER (recvCell c 9) 1 ∅ 0
        ∗ cellInv ER (ringRd m) (K (c, kS 10)) (sendCell c 10) ∗ cellInv ER (ringRd m) (K (c, kR 10)) (recvCell c 10) ∗ atPos ER (sendCell c 10) 1 ∅ 0 ∗ atPos ER (recvCell c 10) 1 ∅ 0
        ∗ owes (c : Thread nD τ) (0 : CellTallies nD τ sig Unit) W'
        ∗ ((Wc).view.loc (c : Thread nD τ) ↦[(Wc).view.set]{fullShare} commF m c)
        ∗ (((Memref.whole main_v1 : Memref sig .tc .hbm S512x32768 .bf16)).view.loc (c : Thread nD τ) ↦[((Memref.whole main_v1 : Memref sig .tc .hbm S512x32768 .bf16)).view.set]{fullShare} outF m c)
        ∗ (((Memref.whole main_arg1 : Memref sig .tc .hbm S1024x8192 .f32)).view.loc (c : Thread nD τ) ↦[((Memref.whole main_arg1 : Memref sig .tc .hbm S1024x8192 .f32)).view.set]{fullShare} wA m c)
        ∗ (((Memref.whole cc0_stg0_0 : Memref sig .tc .vmem S512x1024 .f32)).view.loc (c : Thread nD τ) ↦[((Memref.whole cc0_stg0_0 : Memref sig .tc .vmem S512x1024 .f32)).view.set]{fullShare} xS m c)
        ∗ (∃ f1 : Vec F S512x1024 .bf16, (((Memref.whole cc0_scratch1 : Memref sig .tc .vmem S512x1024 .bf16)).view.loc (c : Thread nD τ) ↦[((Memref.whole cc0_scratch1 : Memref sig .tc .vmem S512x1024 .bf16)).view.set]{fullShare} f1))
        ∗ (∃ f2 : Vec F S2x1024x512 .f32, ((wM0).view.loc (c : Thread nD τ) ↦[(wM0).view.set]{fullShare} f2))
        ∗ (∃ f2 : Vec F S2x1024x512 .f32, ((wM1).view.loc (c : Thread nD τ) ↦[(wM1).view.set]{fullShare} f2))
        ∗ (∃ f3 : Vec F S2x512x2048 .bf16, ((oM0).view.loc (c : Thread nD τ) ↦[(oM0).view.set]{fullShare} f3))
        ∗ (∃ f3 : Vec F S2x512x2048 .bf16, ((oM1).view.loc (c : Thread nD τ) ↦[(oM1).view.set]{fullShare} f3))
        ∗ semVal ((c : Thread nD τ), .dma ((cc0_scratch6 : DmaSems sig S2).ix (ix1 0))) 0 ∗ semVal ((c : Thread nD τ), .dma ((cc0_scratch6 : DmaSems sig S2).ix (ix1 1))) 0
        ∗ semVal ((c : Thread nD τ), .dma ((cc0_scratch7 : DmaSems sig S2).ix (ix1 0))) 0 ∗ semVal ((c : Thread nD τ), .dma ((cc0_scratch7 : DmaSems sig S2).ix (ix1 1))) 0)

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre' (c : Dev nD) : sProp 𝕄 :=
  iprop(Φ₀ m c ∗ (dats m ρ 0 c).owesAt () t0_0.castSucc ∗ (∃ d, stg c cc0_stg0_0 ((dats m ρ 0 c).before (0 : Fin 1) t0_0 d)))

def bodyPost (c : Dev nD) : sProp 𝕄 :=
  iprop(Φ₁ m c ∗ (dats m ρ 0 c).owesAt () t0_0.succ ∗ stg c cc0_stg0_0 (xS m c))

theorem before_x (c : Dev nD) (d : (cfg0.win (0 : Fin 1)).block.Idx → Elt F (cfg0.win (0 : Fin 1)).elt) :
    (dats m ρ 0 c).before (0 : Fin 1) t0_0 d = xS m c := by
  rw [Dat.before_fetched _ _ _ (fetch0_0 t0_0)]; rfl

theorem dstPts_0 (c : Dev nD) (f : Vec F S4x512x8192 .bf16) : (dstPts (F := F) c f 0 : sProp 𝕄)
    = ((dstM0 : Memref sig .tc .vmem S512x1024 .bf16).view.loc (c : Thread nD τ) ↦[(dstM0 : Memref sig .tc .vmem S512x1024 .bf16).view.set]{fullShare} f) := rfl
theorem dstPts_1 (c : Dev nD) (f : Vec F S4x512x8192 .bf16) : (dstPts (F := F) c f 1 : sProp 𝕄)
    = ((dstM1 : Memref sig .tc .vmem S512x1024 .bf16).view.loc (c : Thread nD τ) ↦[(dstM1 : Memref sig .tc .vmem S512x1024 .bf16).view.set]{fullShare} f) := rfl
theorem dstPts_2 (c : Dev nD) (f : Vec F S4x512x8192 .bf16) : (dstPts (F := F) c f 2 : sProp 𝕄)
    = ((dstM2 : Memref sig .tc .vmem S512x1024 .bf16).view.loc (c : Thread nD τ) ↦[(dstM2 : Memref sig .tc .vmem S512x1024 .bf16).view.set]{fullShare} f) := rfl
theorem dstPts_3 (c : Dev nD) (f : Vec F S4x512x8192 .bf16) : (dstPts (F := F) c f 3 : sProp 𝕄)
    = ((dstM3 : Memref sig .tc .vmem S512x1024 .bf16).view.loc (c : Thread nD τ) ↦[(dstM3 : Memref sig .tc .vmem S512x1024 .bf16).view.set]{fullShare} f) := rfl
theorem dstPts_4 (c : Dev nD) (f : Vec F S4x512x8192 .bf16) : (dstPts (F := F) c f 4 : sProp 𝕄)
    = ((dstM4 : Memref sig .tc .vmem S512x1024 .bf16).view.loc (c : Thread nD τ) ↦[(dstM4 : Memref sig .tc .vmem S512x1024 .bf16).view.set]{fullShare} f) := rfl
theorem dstPts_5 (c : Dev nD) (f : Vec F S4x512x8192 .bf16) : (dstPts (F := F) c f 5 : sProp 𝕄)
    = ((dstM5 : Memref sig .tc .vmem S512x1024 .bf16).view.loc (c : Thread nD τ) ↦[(dstM5 : Memref sig .tc .vmem S512x1024 .bf16).view.set]{fullShare} f) := rfl
theorem dstPts_6 (c : Dev nD) (f : Vec F S4x512x8192 .bf16) : (dstPts (F := F) c f 6 : sProp 𝕄)
    = ((dstM6 : Memref sig .tc .vmem S512x1024 .bf16).view.loc (c : Thread nD τ) ↦[(dstM6 : Memref sig .tc .vmem S512x1024 .bf16).view.set]{fullShare} f) := rfl
theorem dstPts_7 (c : Dev nD) (f : Vec F S4x512x8192 .bf16) : (dstPts (F := F) c f 7 : sProp 𝕄)
    = ((dstM7 : Memref sig .tc .vmem S512x1024 .bf16).view.loc (c : Thread nD τ) ↦[(dstM7 : Memref sig .tc .vmem S512x1024 .bf16).view.set]{fullShare} f) := rfl
theorem dstPts_8 (c : Dev nD) (f : Vec F S4x512x8192 .bf16) : (dstPts (F := F) c f 8 : sProp 𝕄)
    = ((dstM8 : Memref sig .tc .vmem S512x8192 .bf16).view.loc (c : Thread nD τ) ↦[(dstM8 : Memref sig .tc .vmem S512x8192 .bf16).view.set]{fullShare} f) := rfl
theorem dstPts_9 (c : Dev nD) (f : Vec F S4x512x8192 .bf16) : (dstPts (F := F) c f 9 : sProp 𝕄)
    = ((dstM9 : Memref sig .tc .vmem S512x4096 .bf16).view.loc (c : Thread nD τ) ↦[(dstM9 : Memref sig .tc .vmem S512x4096 .bf16).view.set]{fullShare} f) := rfl
theorem dstPts_10 (c : Dev nD) (f : Vec F S4x512x8192 .bf16) : (dstPts (F := F) c f 10 : sProp 𝕄)
    = ((dstM10 : Memref sig .tc .vmem S512x4096 .bf16).view.loc (c : Thread nD τ) ↦[(dstM10 : Memref sig .tc .vmem S512x4096 .bf16).view.set]{fullShare} f) := rfl

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem whole_pts (c : Dev nD) (b : Ref sig .tc) (q : PosShare TreeShare) (f : Buf (Elt F) ((c : Thread nD τ).loc b)) :
    (((Memref.whole b).view.loc (c : Thread nD τ) ↦[(Memref.whole b).view.set]{q} f) : sProp 𝕄) = (((c : Thread nD τ).loc b) ↦{q} f) := by
  show ((((c : Thread nD τ).loc b) ↦[(View.whole b).set]{q} f) : sProp 𝕄) = _
  rw [View.set_whole]

set_option maxRecDepth 8000 in
set_option maxHeartbeats 1600000 in
theorem pre_intro (c : Dev nD) :
    bodyPre' m ρ c ⊢ iprop(∃ (K : Dev nD × Fin 23 → ℕ) (W : Waits sig Unit) (f0 : Vec F S4x512x8192 .bf16) (f1 : Vec F S512x1024 .bf16)
      (f2 : Vec F S2x1024x512 .f32) (f3 : Vec F S2x512x2048 .bf16), midPre m c K W f0 f1 f2 f3) := by
  unfold bodyPre' Φ₀ X start G' linear payToks localSems
  iintro ⟨⟨⟨⟨⟨%K, #HR, Hat, ⟨HtBN, HtBP, HtR, HtS⟩, HL⟩, Hcb, Hcr, #Hlev⟩, HW, HO⟩, ⟨%f0, H0⟩, ⟨%f1, H1⟩, ⟨%f2, H2⟩, ⟨%f3, H3⟩⟩, ⟨%W, %hW, Howes⟩, ⟨%d, %fx, %hfx, Hx⟩⟩
  rw [before_x] at hfx
  subst hfx
  iexists K, W, f0, f1, f2, f3

  ihave Hat := (Entails.of_eq (atPos_eq (F := F) c)) $$ Hat
  icases Hat with ⟨HaB, HaS, HaR⟩
  ihave HaS := (Entails.of_eq (bigSep_fin11 _)) $$ HaS
  icases HaS with ⟨HaS0, HaS1, HaS2, HaS3, HaS4, HaS5, HaS6, HaS7, HaS8, HaS9, HaS10⟩
  ihave HaR := (Entails.of_eq (bigSep_fin11 _)) $$ HaR
  icases HaR with ⟨HaR0, HaR1, HaR2, HaR3, HaR4, HaR5, HaR6, HaR7, HaR8, HaR9, HaR10⟩
  ihave HtR := (Entails.of_eq (bigSep_fin11 _)) $$ HtR
  icases HtR with ⟨HtR0, HtR1, HtR2, HtR3, HtR4, HtR5, HtR6, HtR7, HtR8, HtR9, HtR10⟩
  ihave HtS := (Entails.of_eq (bigSep_fin11 _)) $$ HtS
  icases HtS with ⟨HtS0, HtS1, HtS2, HtS3, HtS4, HtS5, HtS6, HtS7, HtS8, HtS9, HtS10⟩
  ihave Hcr := (Entails.of_eq (bigSep_fin11 _)) $$ Hcr
  icases Hcr with ⟨Hcr0, Hcr1, Hcr2, Hcr3, Hcr4, Hcr5, Hcr6, Hcr7, Hcr8, Hcr9, Hcr10⟩
  ihave HL := (Entails.of_eq (bigSep_fin4 _)) $$ HL
  icases HL with ⟨HL0, HL1, HL2, HL3⟩

  ihave H0 := (Entails.of_eq (scratch0_split (F := F) c f0)) $$ H0
  icases H0 with ⟨Hs0, Hs1, Hs2, Hs3, Hs4, Hs5, Hs6, Hs7, Hd0, Hd1, Hd2, Hd3, Hd4, Hd5, Hd6, Hd7, Hd8, Hd9, Hd10⟩
  ihave H2 := (Entails.of_eq (w_split (F := F) c f2)) $$ H2
  icases H2 with ⟨Hw0, Hw1⟩
  ihave H3 := (Entails.of_eq (o_split (F := F) c f3)) $$ H3
  icases H3 with ⟨Ho0, Ho1⟩
  ihave H1 := (Entails.of_eq (whole_pts (F := F) c cc0_scratch1 fullShare f1).symm) $$ H1
  ihave HW := (Entails.of_eq (whole_pts (F := F) c main_arg1 fullShare (wA m c)).symm) $$ HW
  ihave HO := (Entails.of_eq (whole_pts (F := F) c main_v1 fullShare (m ((c : Thread nD τ).loc main_v1))).symm) $$ HO
  ihave Hx := (Entails.of_eq (whole_pts (F := F) c cc0_stg0_0 fullShare (xS m c)).symm) $$ Hx
  unfold midPre
  isplitr; · iapply (inv_bar m K c); iexact HR
  isplitr; · iapply (inv_bar m K (nxt c)); iexact HR
  isplitr; · iapply (inv_bar m K (prv c)); iexact HR
  isplitr; · iapply (reached_bar m K (nxt c)); iexact HR
  isplitr; · iapply (reached_bar m K (prv c)); iexact HR
  isplitl [HtBN]; · iexact HtBN
  isplitl [HtBP]; · iexact HtBP
  isplitl [HaB]; · iexact HaB
  isplitl [Hcb]; · iexact Hcb
  isplitr; · iexact Hlev
  isplitl [Howes]; · iexact Howes
  isplitl [Hd0 Hd1 Hd2 Hd3 Hd4 Hd5 Hd6 Hd7 Hd8 Hd9 Hd10]
  · unfold barPay
    rw [bigSep_fin11, bigSep_fin11]
    isplitl
    · isplitl [Hd0]; · iexists f0; rw [dstPts_0]; iexact Hd0
      isplitl [Hd1]; · iexists f0; rw [dstPts_1]; iexact Hd1
      isplitl [Hd2]; · iexists f0; rw [dstPts_2]; iexact Hd2
      isplitl [Hd3]; · iexists f0; rw [dstPts_3]; iexact Hd3
      isplitl [Hd4]; · iexists f0; rw [dstPts_4]; iexact Hd4
      isplitl [Hd5]; · iexists f0; rw [dstPts_5]; iexact Hd5
      isplitl [Hd6]; · iexists f0; rw [dstPts_6]; iexact Hd6
      isplitl [Hd7]; · iexists f0; rw [dstPts_7]; iexact Hd7
      isplitl [Hd8]; · iexists f0; rw [dstPts_8]; iexact Hd8
      isplitl [Hd9]; · iexists f0; rw [dstPts_9]; iexact Hd9
      iexists f0; rw [dstPts_10]; iexact Hd10
    · isplitr; · iapply (reached_recv m K c 0); iexact HR
      isplitr; · iapply (reached_recv m K c 1); iexact HR
      isplitr; · iapply (reached_recv m K c 2); iexact HR
      isplitr; · iapply (reached_recv m K c 3); iexact HR
      isplitr; · iapply (reached_recv m K c 4); iexact HR
      isplitr; · iapply (reached_recv m K c 5); iexact HR
      isplitr; · iapply (reached_recv m K c 6); iexact HR
      isplitr; · iapply (reached_recv m K c 7); iexact HR
      isplitr; · iapply (reached_recv m K c 8); iexact HR
      isplitr; · iapply (reached_recv m K c 9); iexact HR
      iapply (reached_recv m K c 10); iexact HR
  isplitl [Hx]; · iexact Hx
  isplitl [HW]; · iexact HW
  isplitl [HO]; · iexact HO
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [H1]; · iexact H1
  isplitl [Hw0]; · iexact Hw0
  isplitl [Hw1]; · iexact Hw1
  isplitl [Ho0]; · iexact Ho0
  isplitl [Ho1]; · iexact Ho1
  isplitr; · iapply (inv_send m K c 0); iexact HR
  isplitr; · iapply (inv_recv m K c 0); iexact HR
  isplitr; · iapply (inv_recv m K (nxt c) 0); iexact HR
  isplitr; · iapply (reached_send m K c 0); iexact HR
  isplitr; · iapply (reached_recv m K c 0); iexact HR
  isplitl [HtS0]; · iexact HtS0
  isplitl [HtR0]; · iexact HtR0
  isplitl [HaS0]; · iexact HaS0
  isplitl [HaR0]; · iexact HaR0
  isplitl [Hcr0]; · iexact Hcr0
  isplitr; · iapply (inv_send m K c 1); iexact HR
  isplitr; · iapply (inv_recv m K c 1); iexact HR
  isplitr; · iapply (inv_recv m K (nxt c) 1); iexact HR
  isplitr; · iapply (reached_send m K c 1); iexact HR
  isplitr; · iapply (reached_recv m K c 1); iexact HR
  isplitl [HtS1]; · iexact HtS1
  isplitl [HtR1]; · iexact HtR1
  isplitl [HaS1]; · iexact HaS1
  isplitl [HaR1]; · iexact HaR1
  isplitl [Hcr1]; · iexact Hcr1
  isplitr; · iapply (inv_send m K c 2); iexact HR
  isplitr; · iapply (inv_recv m K c 2); iexact HR
  isplitr; · iapply (inv_recv m K (nxt c) 2); iexact HR
  isplitr; · iapply (reached_send m K c 2); iexact HR
  isplitr; · iapply (reached_recv m K c 2); iexact HR
  isplitl [HtS2]; · iexact HtS2
  isplitl [HtR2]; · iexact HtR2
  isplitl [HaS2]; · iexact HaS2
  isplitl [HaR2]; · iexact HaR2
  isplitl [Hcr2]; · iexact Hcr2
  isplitr; · iapply (inv_send m K c 3); iexact HR
  isplitr; · iapply (inv_recv m K c 3); iexact HR
  isplitr; · iapply (inv_recv m K (nxt c) 3); iexact HR
  isplitr; · iapply (reached_send m K c 3); iexact HR
  isplitr; · iapply (reached_recv m K c 3); iexact HR
  isplitl [HtS3]; · iexact HtS3
  isplitl [HtR3]; · iexact HtR3
  isplitl [HaS3]; · iexact HaS3
  isplitl [HaR3]; · iexact HaR3
  isplitl [Hcr3]; · iexact Hcr3
  isplitr; · iapply (inv_send m K c 4); iexact HR
  isplitr; · iapply (inv_recv m K c 4); iexact HR
  isplitr; · iapply (inv_recv m K (nxt c) 4); iexact HR
  isplitr; · iapply (reached_send m K c 4); iexact HR
  isplitr; · iapply (reached_recv m K c 4); iexact HR
  isplitl [HtS4]; · iexact HtS4
  isplitl [HtR4]; · iexact HtR4
  isplitl [HaS4]; · iexact HaS4
  isplitl [HaR4]; · iexact HaR4
  isplitl [Hcr4]; · iexact Hcr4
  isplitr; · iapply (inv_send m K c 5); iexact HR
  isplitr; · iapply (inv_recv m K c 5); iexact HR
  isplitr; · iapply (inv_recv m K (nxt c) 5); iexact HR
  isplitr; · iapply (reached_send m K c 5); iexact HR
  isplitr; · iapply (reached_recv m K c 5); iexact HR
  isplitl [HtS5]; · iexact HtS5
  isplitl [HtR5]; · iexact HtR5
  isplitl [HaS5]; · iexact HaS5
  isplitl [HaR5]; · iexact HaR5
  isplitl [Hcr5]; · iexact Hcr5
  isplitr; · iapply (inv_send m K c 6); iexact HR
  isplitr; · iapply (inv_recv m K c 6); iexact HR
  isplitr; · iapply (inv_recv m K (nxt c) 6); iexact HR
  isplitr; · iapply (reached_send m K c 6); iexact HR
  isplitr; · iapply (reached_recv m K c 6); iexact HR
  isplitl [HtS6]; · iexact HtS6
  isplitl [HtR6]; · iexact HtR6
  isplitl [HaS6]; · iexact HaS6
  isplitl [HaR6]; · iexact HaR6
  isplitl [Hcr6]; · iexact Hcr6
  isplitr; · iapply (inv_send m K c 7); iexact HR
  isplitr; · iapply (inv_recv m K c 7); iexact HR
  isplitr; · iapply (inv_recv m K (nxt c) 7); iexact HR
  isplitr; · iapply (reached_send m K c 7); iexact HR
  isplitr; · iapply (reached_recv m K c 7); iexact HR
  isplitl [HtS7]; · iexact HtS7
  isplitl [HtR7]; · iexact HtR7
  isplitl [HaS7]; · iexact HaS7
  isplitl [HaR7]; · iexact HaR7
  isplitl [Hcr7]; · iexact Hcr7
  isplitr; · iapply (inv_send m K c 8); iexact HR
  isplitr; · iapply (inv_recv m K c 8); iexact HR
  isplitr; · iapply (inv_recv m K (nxt c) 8); iexact HR
  isplitr; · iapply (reached_send m K c 8); iexact HR
  isplitr; · iapply (reached_recv m K c 8); iexact HR
  isplitl [HtS8]; · iexact HtS8
  isplitl [HtR8]; · iexact HtR8
  isplitl [HaS8]; · iexact HaS8
  isplitl [HaR8]; · iexact HaR8
  isplitl [Hcr8]; · iexact Hcr8
  isplitr; · iapply (inv_send m K c 9); iexact HR
  isplitr; · iapply (inv_recv m K c 9); iexact HR
  isplitr; · iapply (inv_recv m K (nxt c) 9); iexact HR
  isplitr; · iapply (reached_send m K c 9); iexact HR
  isplitr; · iapply (reached_recv m K c 9); iexact HR
  isplitl [HtS9]; · iexact HtS9
  isplitl [HtR9]; · iexact HtR9
  isplitl [HaS9]; · iexact HaS9
  isplitl [HaR9]; · iexact HaR9
  isplitl [Hcr9]; · iexact Hcr9
  isplitr; · iapply (inv_send m K c 10); iexact HR
  isplitr; · iapply (inv_recv m K c 10); iexact HR
  isplitr; · iapply (inv_recv m K (nxt c) 10); iexact HR
  isplitr; · iapply (reached_send m K c 10); iexact HR
  isplitr; · iapply (reached_recv m K c 10); iexact HR
  isplitl [HtS10]; · iexact HtS10
  isplitl [HtR10]; · iexact HtR10
  isplitl [HaS10]; · iexact HaS10
  isplitl [HaR10]; · iexact HaR10
  isplitl [Hcr10]; · iexact Hcr10
  isplitl [HL0]; · iexact HL0
  isplitl [HL1]; · iexact HL1
  isplitl [HL2]; · iexact HL2
  iexact HL3

set_option maxRecDepth 8000 in
set_option maxHeartbeats 1600000 in
theorem post_elim (c : Dev nD) (K : Dev nD × Fin 23 → ℕ) (W' : Waits sig Unit) :
    midPost m c K W' ⊢ iprop(|={Set.univ}=> bodyPost m ρ c) := by
  unfold midPost
  iintro ⟨HaB, #HIs0, #HIr0, HaS0, HaR0, #HIs1, #HIr1, HaS1, HaR1, #HIs2, #HIr2, HaS2, HaR2, #HIs3, #HIr3, HaS3, HaR3, #HIs4, #HIr4, HaS4, HaR4, #HIs5, #HIr5, HaS5, HaR5, #HIs6, #HIr6, HaS6, HaR6, #HIs7, #HIr7, HaS7, HaR7, #HIs8, #HIr8, HaS8, HaR8, #HIs9, #HIr9, HaS9, HaR9, #HIs10, #HIr10, HaS10, HaR10, Howes, H0, HO, HW, Hx, ⟨%f1, H1⟩, ⟨%f2a, Hw0⟩, ⟨%f2b, Hw1⟩, ⟨%f3a, Ho0⟩, ⟨%f3b, Ho1⟩, HL0, HL1, HL2, HL3⟩

  imod (Rounds.cell_close ER (ringRd m) (Set.mem_univ (K (c, kS 0))) id (duties_later m (sendCell c 0))) $$ [HaS0] with HzS0
  · isplitr; · iexact HIs0
    iexact HaS0
  imod (Rounds.cell_close ER (ringRd m) (Set.mem_univ (K (c, kR 0))) id (duties_later m (recvCell c 0))) $$ [HaR0] with HzR0
  · isplitr; · iexact HIr0
    iexact HaR0
  imod (Rounds.cell_close ER (ringRd m) (Set.mem_univ (K (c, kS 1))) id (duties_later m (sendCell c 1))) $$ [HaS1] with HzS1
  · isplitr; · iexact HIs1
    iexact HaS1
  imod (Rounds.cell_close ER (ringRd m) (Set.mem_univ (K (c, kR 1))) id (duties_later m (recvCell c 1))) $$ [HaR1] with HzR1
  · isplitr; · iexact HIr1
    iexact HaR1
  imod (Rounds.cell_close ER (ringRd m) (Set.mem_univ (K (c, kS 2))) id (duties_later m (sendCell c 2))) $$ [HaS2] with HzS2
  · isplitr; · iexact HIs2
    iexact HaS2
  imod (Rounds.cell_close ER (ringRd m) (Set.mem_univ (K (c, kR 2))) id (duties_later m (recvCell c 2))) $$ [HaR2] with HzR2
  · isplitr; · iexact HIr2
    iexact HaR2
  imod (Rounds.cell_close ER (ringRd m) (Set.mem_univ (K (c, kS 3))) id (duties_later m (sendCell c 3))) $$ [HaS3] with HzS3
  · isplitr; · iexact HIs3
    iexact HaS3
  imod (Rounds.cell_close ER (ringRd m) (Set.mem_univ (K (c, kR 3))) id (duties_later m (recvCell c 3))) $$ [HaR3] with HzR3
  · isplitr; · iexact HIr3
    iexact HaR3
  imod (Rounds.cell_close ER (ringRd m) (Set.mem_univ (K (c, kS 4))) id (duties_later m (sendCell c 4))) $$ [HaS4] with HzS4
  · isplitr; · iexact HIs4
    iexact HaS4
  imod (Rounds.cell_close ER (ringRd m) (Set.mem_univ (K (c, kR 4))) id (duties_later m (recvCell c 4))) $$ [HaR4] with HzR4
  · isplitr; · iexact HIr4
    iexact HaR4
  imod (Rounds.cell_close ER (ringRd m) (Set.mem_univ (K (c, kS 5))) id (duties_later m (sendCell c 5))) $$ [HaS5] with HzS5
  · isplitr; · iexact HIs5
    iexact HaS5
  imod (Rounds.cell_close ER (ringRd m) (Set.mem_univ (K (c, kR 5))) id (duties_later m (recvCell c 5))) $$ [HaR5] with HzR5
  · isplitr; · iexact HIr5
    iexact HaR5
  imod (Rounds.cell_close ER (ringRd m) (Set.mem_univ (K (c, kS 6))) id (duties_later m (sendCell c 6))) $$ [HaS6] with HzS6
  · isplitr; · iexact HIs6
    iexact HaS6
  imod (Rounds.cell_close ER (ringRd m) (Set.mem_univ (K (c, kR 6))) id (duties_later m (recvCell c 6))) $$ [HaR6] with HzR6
  · isplitr; · iexact HIr6
    iexact HaR6
  imod (Rounds.cell_close ER (ringRd m) (Set.mem_univ (K (c, kS 7))) id (duties_later m (sendCell c 7))) $$ [HaS7] with HzS7
  · isplitr; · iexact HIs7
    iexact HaS7
  imod (Rounds.cell_close ER (ringRd m) (Set.mem_univ (K (c, kR 7))) id (duties_later m (recvCell c 7))) $$ [HaR7] with HzR7
  · isplitr; · iexact HIr7
    iexact HaR7
  imod (Rounds.cell_close ER (ringRd m) (Set.mem_univ (K (c, kS 8))) id (duties_later m (sendCell c 8))) $$ [HaS8] with HzS8
  · isplitr; · iexact HIs8
    iexact HaS8
  imod (Rounds.cell_close ER (ringRd m) (Set.mem_univ (K (c, kR 8))) id (duties_later m (recvCell c 8))) $$ [HaR8] with HzR8
  · isplitr; · iexact HIr8
    iexact HaR8
  imod (Rounds.cell_close ER (ringRd m) (Set.mem_univ (K (c, kS 9))) id (duties_later m (sendCell c 9))) $$ [HaS9] with HzS9
  · isplitr; · iexact HIs9
    iexact HaS9
  imod (Rounds.cell_close ER (ringRd m) (Set.mem_univ (K (c, kR 9))) id (duties_later m (recvCell c 9))) $$ [HaR9] with HzR9
  · isplitr; · iexact HIr9
    iexact HaR9
  imod (Rounds.cell_close ER (ringRd m) (Set.mem_univ (K (c, kS 10))) id (duties_later m (sendCell c 10))) $$ [HaS10] with HzS10
  · isplitr; · iexact HIs10
    iexact HaS10
  imod (Rounds.cell_close ER (ringRd m) (Set.mem_univ (K (c, kR 10))) id (duties_later m (recvCell c 10))) $$ [HaR10] with HzR10
  · isplitr; · iexact HIr10
    iexact HaR10
  imodintro
  ihave H0 := (Entails.of_eq (whole_pts (F := F) c cc0_scratch0 fullShare (commF m c))) $$ H0
  ihave H1 := (Entails.of_eq (whole_pts (F := F) c cc0_scratch1 fullShare f1)) $$ H1
  ihave HW := (Entails.of_eq (whole_pts (F := F) c main_arg1 fullShare (wA m c))) $$ HW
  ihave HO := (Entails.of_eq (whole_pts (F := F) c main_v1 fullShare (outF m c))) $$ HO
  ihave Hx := (Entails.of_eq (whole_pts (F := F) c cc0_stg0_0 fullShare (xS m c))) $$ Hx
  ihave H2 := (w_join (F := F) c) $$ [Hw0 Hw1]
  · isplitl [Hw0]
    · iexists f2a; iexact Hw0
    · iexists f2b; iexact Hw1
  ihave H3 := (o_join (F := F) c) $$ [Ho0 Ho1]
  · isplitl [Ho0]
    · iexists f3a; iexact Ho0
    · iexists f3b; iexact Ho1
  unfold bodyPost Φ₁
  isplitr [Howes Hx]
  · isplitl [HW]; · iexact HW
    isplitl [HO]; · iexact HO
    isplitr [H0 H1 H2 H3]
    · rw [ownSems_eq, bigSep_fin11, bigSep_fin11]
      unfold localSems
      rw [bigSep_fin4]
      isplitr [HL0 HL1 HL2 HL3]
      · isplitr [HzR0 HzR1 HzR2 HzR3 HzR4 HzR5 HzR6 HzR7 HzR8 HzR9 HzR10]
        · isplitl [HzS0]; · iexact HzS0
          isplitl [HzS1]; · iexact HzS1
          isplitl [HzS2]; · iexact HzS2
          isplitl [HzS3]; · iexact HzS3
          isplitl [HzS4]; · iexact HzS4
          isplitl [HzS5]; · iexact HzS5
          isplitl [HzS6]; · iexact HzS6
          isplitl [HzS7]; · iexact HzS7
          isplitl [HzS8]; · iexact HzS8
          isplitl [HzS9]; · iexact HzS9
          iexact HzS10
        · isplitl [HzR0]; · iexact HzR0
          isplitl [HzR1]; · iexact HzR1
          isplitl [HzR2]; · iexact HzR2
          isplitl [HzR3]; · iexact HzR3
          isplitl [HzR4]; · iexact HzR4
          isplitl [HzR5]; · iexact HzR5
          isplitl [HzR6]; · iexact HzR6
          isplitl [HzR7]; · iexact HzR7
          isplitl [HzR8]; · iexact HzR8
          isplitl [HzR9]; · iexact HzR9
          iexact HzR10
      · isplitl [HL0]; · iexact HL0
        isplitl [HL1]; · iexact HL1
        isplitl [HL2]; · iexact HL2
        iexact HL3
    isplitl [H0]; · iexists (commF m c); iexact H0
    isplitl [H1]; · iexists f1; iexact H1
    isplitl [H2]; · iexact H2
    iexact H3
  isplitl [Howes]
  · iexists W'
    isplitr; · ipureintro; exact fun _ _ => Or.inl trivial
    iexact Howes
  · iexists (xS m c)
    isplitr; · ipureintro; rfl
    iexact Hx

/-- The body's obligation from the body stepped between the two. -/
theorem body_obligation_of (c : Dev nD)
    (hmid : ∀ (K : Dev nD × Fin 23 → ℕ) (W : Waits sig Unit) (f0 : Vec F S4x512x8192 .bf16) (f1 : Vec F S512x1024 .bf16)
      (f2 : Vec F S2x1024x512 .f32) (f3 : Vec F S2x512x2048 .bf16) (Kt : PUnit → sProp 𝕄),
      iprop(midPre m c K W f0 f1 f2 f3 ∗ (∀ W', midPost m c K W' -∗ Kt ⟨⟩))
        ⊢ wp frame (wpE (defs₀ (F := F)) 𝒱₀ c none) Set.univ (bodyAt0 (F := F) t0_0) Kt) :
    BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ (bodyAt0 (F := F) t0_0) (fun _ => bodyPost m ρ c)
  refine (pre_intro m ρ c).trans ?_
  iintro ⟨%K, %W, %f0, %f1, %f2, %f3, H⟩
  iapply (wp_fupd _ _ _ _ _)
  iapply (hmid K W f0 f1 f2 f3 (fun _ => iprop(|={Set.univ}=> bodyPost m ρ c)))
  isplitl [H]; · iexact H
  iintro %W' HP
  iapply (post_elim m ρ c K W'); iexact HP

end Cert.KernelIdeal.P

end
-- ==== Proof.KI.Sends.lean ====
/- A copy up the ring as a step of the body: the send cell returns the source region, and the neighbour's landing region, at what the copy leaves there, becomes the receive cell's payload. -/
import proofs.«900748_g7700000000000749_dist_arsfmx_v7x_xyz2x2x4_z_t512_d1024_v8192_bf16_1_alg».proof.Proof.KI.Landing

noncomputable section

namespace Cert.KernelIdeal.P

open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Copy `q` from `src` to the upper neighbour's `dst`: the rounds rule at the copy's two cells, its payloads the schedule's. -/
theorem wp_send {S : Shape} (q : Fin 11) (src dst : Memref sig .tc .vmem S .bf16) (sh : PosShare TreeShare) (κs κr : ℕ) (c : Dev nD)
    {hsc : (dst : Memref sig (Dev.tc (nxt c) : Thread nD τ).2.kind .vmem S .bf16).view.ref.isScScratch = false}
    {hsrc : src.view.WordExact} {hdst : dst.view.WordExact}
    {hsem : DmaTarget.Typed .vmem (.dma (rS q)) (.remote (Dev.tc (nxt c) : Thread nD τ) dst (.dma (sS q)) hsc)}
    {α : Type} {Q : α → sProp 𝕄} {k : PUnit → Prog (TpuEff nD τ sig (Elt F) Λ₀ .tc) α}
    (fs : Buf (Elt F) (src.view.loc (c : Thread nD τ))) (fd : Buf (Elt F) (dst.view.loc (nxt c : Thread nD τ)))
    (D : sProp 𝕄) (hD : D ⊢ (dst.view.loc (nxt c : Thread nD τ) ↦[dst.view.set]{fullShare} fd))
    (hN : dst.view.amount (.dma (rS q)) = amt q)
    (hp₁ : (src.view.loc (c : Thread nD τ) ↦[src.view.set]{sh} fs : sProp 𝕄) ⊢ srcPts c (commF m c) q)
    (hp₂ : (dst.view.loc (nxt c : Thread nD τ) ↦[dst.view.set]{fullShare} (dst.view.write (Elt F) fd (src.view.read (Elt F) fs) Finset.univ) : sProp 𝕄)
      ⊢ dstPts (nxt c) (commF m (nxt c)) q)
    (O : CellTallies nD τ sig Unit) (W : Waits sig Unit) :
    iprop(cellInv ER (ringRd m) κs (sendCell c q) ∗ cellInv ER (ringRd m) κr (recvCell (nxt c) q)
        ∗ (src.view.loc (c : Thread nD τ) ↦[src.view.set]{sh} fs) ∗ D
        ∗ owes (c : Thread nD τ) (O + tallyAt (recvCell (nxt c) q) () (amt q)) W
        ∗ dutyTok ER (sendCell c q) 0 false ∗ reached ER (sendCell c q) 0
        ∗ dutyTok ER (recvCell (nxt c) q) 0 false ∗ reached ER (recvCell (nxt c) q) 0)
      ⊢ iprop(((cred (tallyAt (sendCell c q) () (amt q)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc (nxt c) : Thread nD τ) dst (.dma (sS q)) hsc) (.dma (rS q)) hsrc hdst hsem) k) Q) :=
  (sep_mono_right (sep_mono_right (sep_mono_right (sep_mono_left hD)))).trans <| Rounds.wp_send_pointsTo 𝒱₀ ER (ringRd m) (c : Thread nD τ) none (c' := (nxt c : Thread nD τ))
    (src := src) (dst := dst) (sS := .dma (sS q)) (sem := .dma (rS q)) (q := sh) (fs := fs) (fd := fd) (κ₁ := κs) (κ₂ := κr)
    (r₁ := 0) (r₂ := 0) (d₁ := false) (d₂ := false)
    (by rw [duties_send]; exact Finset.mem_singleton_self _) (by rw [duties_recv]; exact Finset.mem_singleton_self _)
    () () (amt q) hN (amount_send m c q false) (amount_recv m (nxt c) q false) O rfl (W := W)
    (by rw [payload_send]; exact hp₁) (by rw [payload_recv]; exact hp₂)

end Cert.KernelIdeal.P

end
-- ==== Proof.KI.Arms.lean ====
/- The schedule's payloads arm by arm, as points-to assertions on the program's own views of the exchange buffer. -/
import proofs.«900748_g7700000000000749_dist_arsfmx_v7x_xyz2x2x4_z_t512_d1024_v8192_bf16_1_alg».proof.Proof.KI.Tables

noncomputable section

namespace Cert.KernelIdeal.P

open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (m : (ℓ : Loc nD τ sig) → Buf (Elt F) ℓ)

theorem srcPts_0 (c : Dev nD) (f : Vec F S4x512x8192 .bf16) : srcPts (F := F) c f 0 = ((srcM0 : Memref sig .tc .vmem S512x1024 .bf16).view.loc (c : Thread nD τ) ↦[(srcM0 : Memref sig .tc .vmem S512x1024 .bf16).view.set]{fullShare} f) := rfl
theorem dstPts_0 (c : Dev nD) (f : Vec F S4x512x8192 .bf16) : dstPts (F := F) c f 0 = ((dstM0 : Memref sig .tc .vmem S512x1024 .bf16).view.loc (c : Thread nD τ) ↦[(dstM0 : Memref sig .tc .vmem S512x1024 .bf16).view.set]{fullShare} f) := rfl
theorem srcPts_1 (c : Dev nD) (f : Vec F S4x512x8192 .bf16) : srcPts (F := F) c f 1 = ((srcM1 : Memref sig .tc .vmem S512x1024 .bf16).view.loc (c : Thread nD τ) ↦[(srcM1 : Memref sig .tc .vmem S512x1024 .bf16).view.set]{fullShare} f) := rfl
theorem dstPts_1 (c : Dev nD) (f : Vec F S4x512x8192 .bf16) : dstPts (F := F) c f 1 = ((dstM1 : Memref sig .tc .vmem S512x1024 .bf16).view.loc (c : Thread nD τ) ↦[(dstM1 : Memref sig .tc .vmem S512x1024 .bf16).view.set]{fullShare} f) := rfl
theorem srcPts_2 (c : Dev nD) (f : Vec F S4x512x8192 .bf16) : srcPts (F := F) c f 2 = ((srcM2 : Memref sig .tc .vmem S512x1024 .bf16).view.loc (c : Thread nD τ) ↦[(srcM2 : Memref sig .tc .vmem S512x1024 .bf16).view.set]{fullShare} f) := rfl
theorem dstPts_2 (c : Dev nD) (f : Vec F S4x512x8192 .bf16) : dstPts (F := F) c f 2 = ((dstM2 : Memref sig .tc .vmem S512x1024 .bf16).view.loc (c : Thread nD τ) ↦[(dstM2 : Memref sig .tc .vmem S512x1024 .bf16).view.set]{fullShare} f) := rfl
theorem srcPts_3 (c : Dev nD) (f : Vec F S4x512x8192 .bf16) : srcPts (F := F) c f 3 = ((srcM3 : Memref sig .tc .vmem S512x1024 .bf16).view.loc (c : Thread nD τ) ↦[(srcM3 : Memref sig .tc .vmem S512x1024 .bf16).view.set]{fullShare} f) := rfl
theorem dstPts_3 (c : Dev nD) (f : Vec F S4x512x8192 .bf16) : dstPts (F := F) c f 3 = ((dstM3 : Memref sig .tc .vmem S512x1024 .bf16).view.loc (c : Thread nD τ) ↦[(dstM3 : Memref sig .tc .vmem S512x1024 .bf16).view.set]{fullShare} f) := rfl
theorem srcPts_4 (c : Dev nD) (f : Vec F S4x512x8192 .bf16) : srcPts (F := F) c f 4 = ((srcM4 : Memref sig .tc .vmem S512x1024 .bf16).view.loc (c : Thread nD τ) ↦[(srcM4 : Memref sig .tc .vmem S512x1024 .bf16).view.set]{fullShare} f) := rfl
theorem dstPts_4 (c : Dev nD) (f : Vec F S4x512x8192 .bf16) : dstPts (F := F) c f 4 = ((dstM4 : Memref sig .tc .vmem S512x1024 .bf16).view.loc (c : Thread nD τ) ↦[(dstM4 : Memref sig .tc .vmem S512x1024 .bf16).view.set]{fullShare} f) := rfl
theorem srcPts_5 (c : Dev nD) (f : Vec F S4x512x8192 .bf16) : srcPts (F := F) c f 5 = ((srcM5 : Memref sig .tc .vmem S512x1024 .bf16).view.loc (c : Thread nD τ) ↦[(srcM5 : Memref sig .tc .vmem S512x1024 .bf16).view.set]{fullShare} f) := rfl
theorem dstPts_5 (c : Dev nD) (f : Vec F S4x512x8192 .bf16) : dstPts (F := F) c f 5 = ((dstM5 : Memref sig .tc .vmem S512x1024 .bf16).view.loc (c : Thread nD τ) ↦[(dstM5 : Memref sig .tc .vmem S512x1024 .bf16).view.set]{fullShare} f) := rfl
theorem srcPts_6 (c : Dev nD) (f : Vec F S4x512x8192 .bf16) : srcPts (F := F) c f 6 = ((srcM6 : Memref sig .tc .vmem S512x1024 .bf16).view.loc (c : Thread nD τ) ↦[(srcM6 : Memref sig .tc .vmem S512x1024 .bf16).view.set]{fullShare} f) := rfl
theorem dstPts_6 (c : Dev nD) (f : Vec F S4x512x8192 .bf16) : dstPts (F := F) c f 6 = ((dstM6 : Memref sig .tc .vmem S512x1024 .bf16).view.loc (c : Thread nD τ) ↦[(dstM6 : Memref sig .tc .vmem S512x1024 .bf16).view.set]{fullShare} f) := rfl
theorem srcPts_7 (c : Dev nD) (f : Vec F S4x512x8192 .bf16) : srcPts (F := F) c f 7 = ((srcM7 : Memref sig .tc .vmem S512x1024 .bf16).view.loc (c : Thread nD τ) ↦[(srcM7 : Memref sig .tc .vmem S512x1024 .bf16).view.set]{fullShare} f) := rfl
theorem dstPts_7 (c : Dev nD) (f : Vec F S4x512x8192 .bf16) : dstPts (F := F) c f 7 = ((dstM7 : Memref sig .tc .vmem S512x1024 .bf16).view.loc (c : Thread nD τ) ↦[(dstM7 : Memref sig .tc .vmem S512x1024 .bf16).view.set]{fullShare} f) := rfl
theorem srcPts_8 (c : Dev nD) (f : Vec F S4x512x8192 .bf16) : srcPts (F := F) c f 8 = ((srcM8 : Memref sig .tc .vmem S512x8192 .bf16).view.loc (c : Thread nD τ) ↦[(srcM8 : Memref sig .tc .vmem S512x8192 .bf16).view.set]{fullShare.left} f) := rfl
theorem dstPts_8 (c : Dev nD) (f : Vec F S4x512x8192 .bf16) : dstPts (F := F) c f 8 = ((dstM8 : Memref sig .tc .vmem S512x8192 .bf16).view.loc (c : Thread nD τ) ↦[(dstM8 : Memref sig .tc .vmem S512x8192 .bf16).view.set]{fullShare} f) := rfl
theorem srcPts_9 (c : Dev nD) (f : Vec F S4x512x8192 .bf16) : srcPts (F := F) c f 9 = ((srcM9 : Memref sig .tc .vmem S512x4096 .bf16).view.loc (c : Thread nD τ) ↦[(srcM9 : Memref sig .tc .vmem S512x4096 .bf16).view.set]{fullShare.left} f) := rfl
theorem dstPts_9 (c : Dev nD) (f : Vec F S4x512x8192 .bf16) : dstPts (F := F) c f 9 = ((dstM9 : Memref sig .tc .vmem S512x4096 .bf16).view.loc (c : Thread nD τ) ↦[(dstM9 : Memref sig .tc .vmem S512x4096 .bf16).view.set]{fullShare} f) := rfl
theorem dstPts_10 (c : Dev nD) (f : Vec F S4x512x8192 .bf16) : dstPts (F := F) c f 10 = ((dstM10 : Memref sig .tc .vmem S512x4096 .bf16).view.loc (c : Thread nD τ) ↦[(dstM10 : Memref sig .tc .vmem S512x4096 .bf16).view.set]{fullShare} f) := rfl

theorem bigSep_q11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem pay_bar (c : Dev nD) : bigSep Finset.univ (fun d : Bool => (ringRd (F := F) m).payload (barCell c) 0 d) = iprop(emp ∗ barPay (nxt c)) := by
  rw [bigSep_univ_eq_bigSepL [false, true] (by decide) (by decide), bigSepL_cons_cons, bigSepL_singleton, payload_bar_false, payload_bar_true]
  rfl

/-- A hand-over opened: eleven regions at some contents and eleven receive cells at round 0. -/
theorem barPay_open (p : Dev nD) : barPay (F := F) p = iprop(
    ((∃ f, dstPts (F := F) p f 0) ∗ (∃ f, dstPts (F := F) p f 1) ∗ (∃ f, dstPts (F := F) p f 2) ∗ (∃ f, dstPts (F := F) p f 3) ∗ (∃ f, dstPts (F := F) p f 4) ∗ (∃ f, dstPts (F := F) p f 5)
      ∗ (∃ f, dstPts (F := F) p f 6) ∗ (∃ f, dstPts (F := F) p f 7) ∗ (∃ f, dstPts (F := F) p f 8) ∗ (∃ f, dstPts (F := F) p f 9) ∗ (∃ f, dstPts (F := F) p f 10))
    ∗ (reached ER (recvCell p 0) 0 ∗ reached ER (recvCell p 1) 0 ∗ reached ER (recvCell p 2) 0 ∗ reached ER (recvCell p 3) 0 ∗ reached ER (recvCell p 4) 0 ∗ reached ER (recvCell p 5) 0
      ∗ reached ER (recvCell p 6) 0 ∗ reached ER (recvCell p 7) 0 ∗ reached ER (recvCell p 8) 0 ∗ reached ER (recvCell p 9) 0 ∗ reached ER (recvCell p 10) 0)) := by
  unfold barPay; rw [bigSep_q11, bigSep_q11]

theorem owes_zero_add (c : Dev nD) (O : CellTallies nD τ sig Unit) (W : Waits sig Unit) :
    (owes (c : Thread nD τ) O W : sProp 𝕄) ⊢ owes (c : Thread nD τ) (0 + O) W := Entails.of_eq (by rw [zero_add])

end Cert.KernelIdeal.P

end
-- ==== Proof.KI.Supp.lean ====
/- Where a sum of tallies is positive, leaf by leaf. -/
import proofs.«900748_g7700000000000749_dist_arsfmx_v7x_xyz2x2x4_z_t512_d1024_v8192_bf16_1_alg».proof.Proof.KI.Levels

namespace Cert.KernelIdeal.P

open Cert.KernelIdeal Cert.KernelIdeal.Gen Cert.KernelIdeal.GenP
open Idealize.ShloMosaic Idealize.ShloMosaic.TcCoe Idealize.ShloMosaic.Rounds

theorem supp_recv (c : Dev nD) (q : Fin 11) (k : ℕ) : Supp (PaidRecv c) (tallyAt (recvCell (nxt c) q) () k) := Supp.tallyAt ⟨q, rfl⟩ k
theorem supp_recvAbove (c : Dev nD) (n : ℕ) (q : Fin 11) (k : ℕ) (h : n < lvq q) : Supp (PaidRecvAbove c n) (tallyAt (recvCell (nxt c) q) () k) :=
  Supp.tallyAt ⟨q, rfl, h⟩ k
theorem supp_paid_recv (c : Dev nD) (q : Fin 11) (k : ℕ) : Supp (Paid c) (tallyAt (recvCell (nxt c) q) () k) := Supp.tallyAt (Or.inl ⟨q, rfl⟩) k
theorem supp_paid_barn (c : Dev nD) (k : ℕ) : Supp (Paid c) (tallyAt (barCell (nxt c)) () k) := Supp.tallyAt (Or.inr (Or.inl rfl)) k
theorem supp_paid_barp (c : Dev nD) (k : ℕ) : Supp (Paid c) (tallyAt (barCell (prv c)) () k) := Supp.tallyAt (Or.inr (Or.inr rfl)) k

macro "supp_close" : tactic => `(tactic| (repeat' first
  | apply Supp.add | exact Supp.zero _
  | exact supp_recv _ _ _ | exact supp_recvAbove _ _ _ _ (by decide)
  | exact supp_paid_recv _ _ _ | exact supp_paid_barn _ _ | exact supp_paid_barp _ _))

end Cert.KernelIdeal.P
-- ==== Proof.KI.Slot1.lean ====
/- A slot of the exchange buffer is the disjoint union of its eight segments of 1024 columns. -/
import proofs.«900748_g7700000000000749_dist_arsfmx_v7x_xyz2x2x4_z_t512_d1024_v8192_bf16_1_alg».proof.Proof.KI.Sched
import Idealize.ShloMosaic.Rules.PointsTo

noncomputable section
namespace Cert.KernelIdeal.P
open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

def segOff (s : Fin 4) (k : Fin 8) : Fin 3 → ℕ := ![s.val, 0, 1024 * k.val]
theorem segInb : ∀ (s : Fin 4) (k : Fin 8) (a : Fin 3), segOff s k a + S1x512x1024.size a ≤ S4x512x8192.size a := by decide
abbrev seg (s : Fin 4) (k : Fin 8) : Rect S4x512x8192 := Rect.unit (s := S4x512x8192) (segOff s k) S1x512x1024.size (segInb s k)

def slotOff (s : Fin 4) : Fin 3 → ℕ := ![s.val, 0, 0]
theorem slotInb : ∀ (s : Fin 4) (a : Fin 3), slotOff s a + S1x512x8192.size a ≤ S4x512x8192.size a := by decide
abbrev slot (s : Fin 4) : Rect S4x512x8192 := Rect.unit (s := S4x512x8192) (slotOff s) S1x512x8192.size (slotInb s)

theorem seg_disjoint (s : Fin 4) (k k' : Fin 8) (h : k ≠ k') : Disjoint (seg s k).set (seg s k').set :=
  Rect.unit_disjoint (2 : Fin 3) (by
    have hne : k.val ≠ k'.val := fun e => h (Fin.ext e)
    show 1024 * k.val + 1024 ≤ 1024 * k'.val ∨ 1024 * k'.val + 1024 ≤ 1024 * k.val
    omega)

theorem seg_cover (s : Fin 4) : Finset.univ.biUnion (fun k : Fin 8 => (seg s k).set) = (slot s).set := by
  have e1 : ∀ (k : Fin 8) (a : Fin 3), slotOff s a ≤ segOff s k a ∧ segOff s k a + S1x512x1024.size a ≤ slotOff s a + S1x512x8192.size a := by
    revert s; decide
  have e2 : ∀ (k : Fin 8) (a : Fin 3), a ≠ 2 → segOff s k a = slotOff s a ∧ segOff s k a + S1x512x1024.size a = slotOff s a + S1x512x8192.size a := by
    revert s; decide
  have t2 : slotOff s (2 : Fin 3) = 0 ∧ S1x512x8192.size (2 : Fin 3) = 8192 ∧ S1x512x1024.size (2 : Fin 3) = 1024 := ⟨rfl, rfl, rfl⟩
  have t3 : ∀ k : Fin 8, segOff s k (2 : Fin 3) = 1024 * k.val := fun _ => rfl
  ext i
  rw [Finset.mem_biUnion, Rect.mem_set_unit]
  constructor
  · rintro ⟨k, -, hk⟩ a
    have := (Rect.mem_set_unit.mp hk) a; have := e1 k a; omega
  · intro h
    have h2 := h 2
    have hlt : ((i (2 : Fin 3) : Fin _) : ℕ) / 1024 < 8 := by omega
    refine ⟨⟨((i (2 : Fin 3) : Fin _) : ℕ) / 1024, hlt⟩, Finset.mem_univ _, Rect.mem_set_unit.mpr fun a => ?_⟩
    by_cases ha : a = 2
    · subst ha
      have := t3 ⟨((i (2 : Fin 3) : Fin _) : ℕ) / 1024, hlt⟩
      simp only at this
      omega
    · have := h a; have := e2 ⟨((i (2 : Fin 3) : Fin _) : ℕ) / 1024, hlt⟩ a ha; omega

theorem srcM0_set : (srcM0 : Memref sig .tc .vmem _ .bf16).view.set = (seg 0 0).set :=
  (View.set_reshape _ _).trans (View.set_slice_whole _ _)
theorem srcM1_set : (srcM1 : Memref sig .tc .vmem _ .bf16).view.set = (seg 0 1).set :=
  (View.set_reshape _ _).trans (View.set_slice_whole _ _)
theorem srcM2_set : (srcM2 : Memref sig .tc .vmem _ .bf16).view.set = (seg 0 2).set :=
  (View.set_reshape _ _).trans (View.set_slice_whole _ _)
theorem srcM3_set : (srcM3 : Memref sig .tc .vmem _ .bf16).view.set = (seg 0 3).set :=
  (View.set_reshape _ _).trans (View.set_slice_whole _ _)
theorem srcM4_set : (srcM4 : Memref sig .tc .vmem _ .bf16).view.set = (seg 0 4).set :=
  (View.set_reshape _ _).trans (View.set_slice_whole _ _)
theorem srcM5_set : (srcM5 : Memref sig .tc .vmem _ .bf16).view.set = (seg 0 5).set :=
  (View.set_reshape _ _).trans (View.set_slice_whole _ _)
theorem srcM6_set : (srcM6 : Memref sig .tc .vmem _ .bf16).view.set = (seg 0 6).set :=
  (View.set_reshape _ _).trans (View.set_slice_whole _ _)
theorem srcM7_set : (srcM7 : Memref sig .tc .vmem _ .bf16).view.set = (seg 0 7).set :=
  (View.set_reshape _ _).trans (View.set_slice_whole _ _)
theorem dstM0_set : (dstM0 : Memref sig .tc .vmem _ .bf16).view.set = (seg 1 0).set :=
  (View.set_reshape _ _).trans (View.set_slice_whole _ _)
theorem dstM1_set : (dstM1 : Memref sig .tc .vmem _ .bf16).view.set = (seg 1 1).set :=
  (View.set_reshape _ _).trans (View.set_slice_whole _ _)
theorem dstM2_set : (dstM2 : Memref sig .tc .vmem _ .bf16).view.set = (seg 1 2).set :=
  (View.set_reshape _ _).trans (View.set_slice_whole _ _)
theorem dstM3_set : (dstM3 : Memref sig .tc .vmem _ .bf16).view.set = (seg 1 3).set :=
  (View.set_reshape _ _).trans (View.set_slice_whole _ _)
theorem dstM4_set : (dstM4 : Memref sig .tc .vmem _ .bf16).view.set = (seg 1 4).set :=
  (View.set_reshape _ _).trans (View.set_slice_whole _ _)
theorem dstM5_set : (dstM5 : Memref sig .tc .vmem _ .bf16).view.set = (seg 1 5).set :=
  (View.set_reshape _ _).trans (View.set_slice_whole _ _)
theorem dstM6_set : (dstM6 : Memref sig .tc .vmem _ .bf16).view.set = (seg 1 6).set :=
  (View.set_reshape _ _).trans (View.set_slice_whole _ _)
theorem dstM7_set : (dstM7 : Memref sig .tc .vmem _ .bf16).view.set = (seg 1 7).set :=
  (View.set_reshape _ _).trans (View.set_slice_whole _ _)
theorem srcM8_set : (srcM8 : Memref sig .tc .vmem _ .bf16).view.set = (slot 1).set :=
  (View.set_reshape _ _).trans (View.set_slice_whole _ _)

abbrev slot0M : Memref sig .tc .vmem S512x8192 .bf16 := ((Wc.slice (slot 0) (fun _ => rfl)).squeeze S512x8192 squeezes_S1x512x8192_S512x8192)
theorem slot0M_set : (slot0M : Memref sig .tc .vmem _ .bf16).view.set = (slot 0).set :=
  (View.set_reshape _ _).trans (View.set_slice_whole _ _)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What is held on a slot is held on its eight segments, at any share and contents. -/
theorem slot_segs (s : Fin 4) (c : Dev nD) (q : PosShare TreeShare) (f : Vec F S4x512x8192 .bf16) :
    (((srcM8 : Memref sig .tc .vmem _ .bf16).view.loc (c : Thread nD τ) ↦[(slot s).set]{q} f) : sProp 𝕄)
      = iprop(((srcM8 : Memref sig .tc .vmem _ .bf16).view.loc (c : Thread nD τ) ↦[(seg s 0).set]{q} f) ∗ ((srcM8 : Memref sig .tc .vmem _ .bf16).view.loc (c : Thread nD τ) ↦[(seg s 1).set]{q} f)
          ∗ ((srcM8 : Memref sig .tc .vmem _ .bf16).view.loc (c : Thread nD τ) ↦[(seg s 2).set]{q} f) ∗ ((srcM8 : Memref sig .tc .vmem _ .bf16).view.loc (c : Thread nD τ) ↦[(seg s 3).set]{q} f)
          ∗ ((srcM8 : Memref sig .tc .vmem _ .bf16).view.loc (c : Thread nD τ) ↦[(seg s 4).set]{q} f) ∗ ((srcM8 : Memref sig .tc .vmem _ .bf16).view.loc (c : Thread nD τ) ↦[(seg s 5).set]{q} f)
          ∗ ((srcM8 : Memref sig .tc .vmem _ .bf16).view.loc (c : Thread nD τ) ↦[(seg s 6).set]{q} f) ∗ ((srcM8 : Memref sig .tc .vmem _ .bf16).view.loc (c : Thread nD τ) ↦[(seg s 7).set]{q} f)) := by
  have h := pointsTo_biUnion (Val := Elt F) (Ix := Unit) (Name := ℕ) (U := UU) (Lvl := ℕ)
    (ℓ := (srcM8 : Memref sig .tc .vmem _ .bf16).view.loc (c : Thread nD τ)) (q := q) (f := f) Finset.univ (fun k : Fin 8 => (seg s k).set)
    (fun t _ t' _ hne => seg_disjoint s t t' hne)
  rw [seg_cover, bigSep_fin8] at h
  exact h

theorem slot1_join (c : Dev nD) (q : PosShare TreeShare) (f : Vec F S4x512x8192 .bf16) :
    (iprop(((dstM0 : Memref sig .tc .vmem _ .bf16).view.loc (c : Thread nD τ) ↦[(dstM0 : Memref sig .tc .vmem _ .bf16).view.set]{q} f)
        ∗ ((dstM1 : Memref sig .tc .vmem _ .bf16).view.loc (c : Thread nD τ) ↦[(dstM1 : Memref sig .tc .vmem _ .bf16).view.set]{q} f)
        ∗ ((dstM2 : Memref sig .tc .vmem _ .bf16).view.loc (c : Thread nD τ) ↦[(dstM2 : Memref sig .tc .vmem _ .bf16).view.set]{q} f)
        ∗ ((dstM3 : Memref sig .tc .vmem _ .bf16).view.loc (c : Thread nD τ) ↦[(dstM3 : Memref sig .tc .vmem _ .bf16).view.set]{q} f)
        ∗ ((dstM4 : Memref sig .tc .vmem _ .bf16).view.loc (c : Thread nD τ) ↦[(dstM4 : Memref sig .tc .vmem _ .bf16).view.set]{q} f)
        ∗ ((dstM5 : Memref sig .tc .vmem _ .bf16).view.loc (c : Thread nD τ) ↦[(dstM5 : Memref sig .tc .vmem _ .bf16).view.set]{q} f)
        ∗ ((dstM6 : Memref sig .tc .vmem _ .bf16).view.loc (c : Thread nD τ) ↦[(dstM6 : Memref sig .tc .vmem _ .bf16).view.set]{q} f)
        ∗ ((dstM7 : Memref sig .tc .vmem _ .bf16).view.loc (c : Thread nD τ) ↦[(dstM7 : Memref sig .tc .vmem _ .bf16).view.set]{q} f)) : sProp 𝕄)
      ⊣⊢ ((srcM8 : Memref sig .tc .vmem _ .bf16).view.loc (c : Thread nD τ) ↦[(srcM8 : Memref sig .tc .vmem _ .bf16).view.set]{q} f) := by
  rw [dstM0_set, dstM1_set, dstM2_set, dstM3_set, dstM4_set, dstM5_set, dstM6_set, dstM7_set, srcM8_set]
  have h := slot_segs (F := F) 1 c q f
  exact ⟨Entails.of_eq h.symm, Entails.of_eq h⟩

theorem slot0_join (c : Dev nD) (q : PosShare TreeShare) (f : Vec F S4x512x8192 .bf16) :
    (iprop(((srcM0 : Memref sig .tc .vmem _ .bf16).view.loc (c : Thread nD τ) ↦[(srcM0 : Memref sig .tc .vmem _ .bf16).view.set]{q} f)
        ∗ ((srcM1 : Memref sig .tc .vmem _ .bf16).view.loc (c : Thread nD τ) ↦[(srcM1 : Memref sig .tc .vmem _ .bf16).view.set]{q} f)
        ∗ ((srcM2 : Memref sig .tc .vmem _ .bf16).view.loc (c : Thread nD τ) ↦[(srcM2 : Memref sig .tc .vmem _ .bf16).view.set]{q} f)
        ∗ ((srcM3 : Memref sig .tc .vmem _ .bf16).view.loc (c : Thread nD τ) ↦[(srcM3 : Memref sig .tc .vmem _ .bf16).view.set]{q} f)
        ∗ ((srcM4 : Memref sig .tc .vmem _ .bf16).view.loc (c : Thread nD τ) ↦[(srcM4 : Memref sig .tc .vmem _ .bf16).view.set]{q} f)
        ∗ ((srcM5 : Memref sig .tc .vmem _ .bf16).view.loc (c : Thread nD τ) ↦[(srcM5 : Memref sig .tc .vmem _ .bf16).view.set]{q} f)
        ∗ ((srcM6 : Memref sig .tc .vmem _ .bf16).view.loc (c : Thread nD τ) ↦[(srcM6 : Memref sig .tc .vmem _ .bf16).view.set]{q} f)
        ∗ ((srcM7 : Memref sig .tc .vmem _ .bf16).view.loc (c : Thread nD τ) ↦[(srcM7 : Memref sig .tc .vmem _ .bf16).view.set]{q} f)) : sProp 𝕄)
      ⊣⊢ ((slot0M : Memref sig .tc .vmem _ .bf16).view.loc (c : Thread nD τ) ↦[(slot0M : Memref sig .tc .vmem _ .bf16).view.set]{q} f) := by
  rw [srcM0_set, srcM1_set, srcM2_set, srcM3_set, srcM4_set, srcM5_set, srcM6_set, srcM7_set, slot0M_set]
  have h := slot_segs (F := F) 0 c q f
  exact ⟨Entails.of_eq h.symm, Entails.of_eq h⟩

end Cert.KernelIdeal.P
end
-- ==== Proof.KI.Slot2.lean ====
/- Slot 2 is the disjoint union of its two halves. -/
import proofs.«900748_g7700000000000749_dist_arsfmx_v7x_xyz2x2x4_z_t512_d1024_v8192_bf16_1_alg».proof.Proof.KI.Sched
import Idealize.ShloMosaic.Rules.PointsTo

noncomputable section
namespace Cert.KernelIdeal.P
open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

theorem dstM8_set : (dstM8 : Memref sig .tc .vmem _ .bf16).view.set = (Rect.unit (s := S4x512x8192) ![2, 0, 0] S1x512x8192.size inb_S4x512x8192_S1x512x8192_2_0_0).set :=
  (View.set_reshape _ _).trans (View.set_slice_whole _ _)
theorem srcM9_set : (srcM9 : Memref sig .tc .vmem _ .bf16).view.set = (Rect.unit (s := S4x512x8192) ![2, 0, 0] S1x512x4096.size inb_S4x512x8192_S1x512x4096_2_0_0).set :=
  (View.set_reshape _ _).trans (View.set_slice_whole _ _)
theorem srcM10_set : (srcM10 : Memref sig .tc .vmem _ .bf16).view.set = (Rect.unit (s := S4x512x8192) ![2, 0, 4096] S1x512x4096.size inb_S4x512x8192_S1x512x4096_2_0_4096).set :=
  (View.set_reshape _ _).trans (View.set_slice_whole _ _)

theorem halves_disjoint : Disjoint (Rect.unit (s := S4x512x8192) ![2, 0, 0] S1x512x4096.size inb_S4x512x8192_S1x512x4096_2_0_0).set (Rect.unit (s := S4x512x8192) ![2, 0, 4096] S1x512x4096.size inb_S4x512x8192_S1x512x4096_2_0_4096).set :=
  Rect.unit_disjoint (2 : Fin 3) (Or.inl (by decide))

theorem halves_union : (Rect.unit (s := S4x512x8192) ![2, 0, 0] S1x512x4096.size inb_S4x512x8192_S1x512x4096_2_0_0).set ∪ (Rect.unit (s := S4x512x8192) ![2, 0, 4096] S1x512x4096.size inb_S4x512x8192_S1x512x4096_2_0_4096).set = (Rect.unit (s := S4x512x8192) ![2, 0, 0] S1x512x8192.size inb_S4x512x8192_S1x512x8192_2_0_0).set := by
  have e9 : ∀ a : Fin 3, (![2, 0, 0] : Fin 3 → ℕ) a ≤ (![2, 0, 0] : Fin 3 → ℕ) a ∧ (![2, 0, 0] : Fin 3 → ℕ) a + S1x512x4096.size a ≤ (![2, 0, 0] : Fin 3 → ℕ) a + S1x512x8192.size a := by decide
  have e10 : ∀ a : Fin 3, (![2, 0, 0] : Fin 3 → ℕ) a ≤ (![2, 0, 4096] : Fin 3 → ℕ) a ∧ (![2, 0, 4096] : Fin 3 → ℕ) a + S1x512x4096.size a ≤ (![2, 0, 0] : Fin 3 → ℕ) a + S1x512x8192.size a := by decide
  have r9 : ∀ a : Fin 3, a ≠ 2 → (![2, 0, 0] : Fin 3 → ℕ) a + S1x512x4096.size a = (![2, 0, 0] : Fin 3 → ℕ) a + S1x512x8192.size a := by decide
  have r10 : ∀ a : Fin 3, a ≠ 2 → (![2, 0, 4096] : Fin 3 → ℕ) a = (![2, 0, 0] : Fin 3 → ℕ) a ∧ (![2, 0, 4096] : Fin 3 → ℕ) a + S1x512x4096.size a = (![2, 0, 0] : Fin 3 → ℕ) a + S1x512x8192.size a := by decide
  have t9 : (![2, 0, 0] : Fin 3 → ℕ) 2 = 0 ∧ S1x512x4096.size (2 : Fin 3) = 4096 ∧ S1x512x8192.size (2 : Fin 3) = 8192 ∧ (![2, 0, 4096] : Fin 3 → ℕ) 2 = 4096 := by decide
  ext i
  rw [Finset.mem_union, Rect.mem_set_unit, Rect.mem_set_unit, Rect.mem_set_unit]
  constructor
  · rintro (h | h) a
    · have := h a; have := e9 a; omega
    · have := h a; have := e10 a; omega
  · intro h
    by_cases hlt : ((i (2 : Fin 3) : Fin _) : ℕ) < 4096
    · refine Or.inl fun a => ?_
      by_cases ha : a = 2
      · subst ha; have := h 2; omega
      · have := h a; have := r9 a ha; omega
    · refine Or.inr fun a => ?_
      by_cases ha : a = 2
      · subst ha; have := h 2; omega
      · have := h a; have := r10 a ha; omega

theorem slot2_split (c : Dev nD) (q : PosShare TreeShare) (f : Vec F S4x512x8192 .bf16) :
    (((dstM8 : Memref sig .tc .vmem _ .bf16).view.loc (c : Thread nD τ) ↦[(dstM8 : Memref sig .tc .vmem _ .bf16).view.set]{q} f) : sProp 𝕄)
      ⊣⊢ iprop(((srcM9 : Memref sig .tc .vmem _ .bf16).view.loc (c : Thread nD τ) ↦[(srcM9 : Memref sig .tc .vmem _ .bf16).view.set]{q} f) ∗ ((srcM10 : Memref sig .tc .vmem _ .bf16).view.loc (c : Thread nD τ) ↦[(srcM10 : Memref sig .tc .vmem _ .bf16).view.set]{q} f)) := by
  have hd : Disjoint (srcM9 : Memref sig .tc .vmem _ .bf16).view.set (srcM10 : Memref sig .tc .vmem _ .bf16).view.set := by
    rw [srcM9_set, srcM10_set]; exact halves_disjoint
  have hu : (srcM9 : Memref sig .tc .vmem _ .bf16).view.set ∪ (srcM10 : Memref sig .tc .vmem _ .bf16).view.set = (dstM8 : Memref sig .tc .vmem _ .bf16).view.set := by
    rw [srcM9_set, srcM10_set, dstM8_set]; exact halves_union
  have h := pointsTo_union (Val := Elt F) (Ix := Unit) (Name := ℕ) (U := UU) (Lvl := ℕ) (ℓ := (dstM8 : Memref sig .tc .vmem _ .bf16).view.loc (c : Thread nD τ)) (q := q) (f := f) hd
  rw [hu] at h
  exact h

end Cert.KernelIdeal.P
end
-- ==== Proof.KI.Chunks.lean ====
/- The partial row sums of the received slots: each load of 512 columns of a slot reads one chunk of the final contents, so the unrolled chains are the sums by definition. -/
import proofs.«900748_g7700000000000749_dist_arsfmx_v7x_xyz2x2x4_z_t512_d1024_v8192_bf16_1_alg».proof.Proof.KI.Vals
import Idealize.ShloMosaic.Lib.ValueIdx

noncomputable section
namespace Cert.KernelIdeal.P
open Cert.KernelIdeal Cert.KernelIdeal.Gen Cert.KernelIdeal.GenP
open Idealize.ShloMosaic Idealize.ShloMosaic.TcCoe Idealize.ShloMosaic.ValueIdx

variable {F : FTy → Type} [FloatOps F]
variable (m : (ℓ : Loc nD τ sig) → Buf (Elt F) ℓ)

abbrev Inb (off : Fin 3 → ℕ) : Prop := ∀ a, off a + S1x512x512.size a ≤ S4x512x8192.size a

/-- What a load of 1 × 512 × 512 at `off` reads of the exchange buffer at its final contents. -/
abbrev rd (c : Dev nD) (off : Fin 3 → ℕ) (inb : Inb off) :=
  @View.readAt sig (Elt F) .tc .vmem S4x512x8192 .bf16 (@Memref.view sig .tc .vmem S4x512x8192 .bf16 (Memref.whole cc0_scratch0))
    (Rect.unit (s := S4x512x8192) off S1x512x512.size inb).toLoadRect (commF m c)

/-- At offsets (s, 0, 512 k) that is chunk k of slot s: the load's index map adds the offsets. -/
theorem readAt_commChunk (c : Dev nD) (s : Fin 4) (k : Fin 16) (off : Fin 3 → ℕ) (inb : Inb off)
    (h0 : off 0 = s.val) (h1 : off 1 = 0) (h2 : off 2 = 512 * k.val) : rd m c off inb = commChunk m c s k := by
  funext x
  show commF m c ((Rect.unit (s := S4x512x8192) off S1x512x512.size inb).toLoadRect.idx x) = commF m c _
  congr 1
  funext a
  apply Fin.ext
  have hx0 : ((x 0 : Fin _) : ℕ) = 0 := by have := (x 0).isLt; change _ < 1 at this; omega
  match a with
  | ⟨0, _⟩ => show off 0 + 1 * ((x 0 : Fin _) : ℕ) = s.val; omega
  | ⟨1, _⟩ => show off 1 + 1 * ((x 1 : Fin _) : ℕ) = ((x 1 : Fin _) : ℕ); omega
  | ⟨2, _⟩ => show off 2 + 1 * ((x 2 : Fin _) : ℕ) = 512 * k.val + ((x 2 : Fin _) : ℕ); omega

theorem sum_slot1 (c : Dev nD) {i0 : Inb ![1, 0, 0]} {i1 : Inb ![1, 0, 512]} {i2 : Inb ![1, 0, 1024]} {i3 : Inb ![1, 0, 1536]} {i4 : Inb ![1, 0, 2048]} {i5 : Inb ![1, 0, 2560]} {i6 : Inb ![1, 0, 3072]} {i7 : Inb ![1, 0, 3584]} {i8 : Inb ![1, 0, 4096]} {i9 : Inb ![1, 0, 4608]} {i10 : Inb ![1, 0, 5120]} {i11 : Inb ![1, 0, 5632]} {i12 : Inb ![1, 0, 6144]} {i13 : Inb ![1, 0, 6656]} {i14 : Inb ![1, 0, 7168]} {i15 : Inb ![1, 0, 7680]} :
    (k0_pay28 (k0_pay28 (k0_pay28 (k0_pay28 (k0_pay28 (k0_pay28 (k0_pay28 (k0_pay28 (k0_pay28 (k0_pay28 (k0_pay28 (k0_pay28 (k0_pay28 (k0_pay28 (k0_pay28 (k0_pay28 (k0_pay27 (F := F)) (rd m c ![1, 0, 0] i0)) (rd m c ![1, 0, 512] i1)) (rd m c ![1, 0, 1024] i2)) (rd m c ![1, 0, 1536] i3)) (rd m c ![1, 0, 2048] i4)) (rd m c ![1, 0, 2560] i5)) (rd m c ![1, 0, 3072] i6)) (rd m c ![1, 0, 3584] i7)) (rd m c ![1, 0, 4096] i8)) (rd m c ![1, 0, 4608] i9)) (rd m c ![1, 0, 5120] i10)) (rd m c ![1, 0, 5632] i11)) (rd m c ![1, 0, 6144] i12)) (rd m c ![1, 0, 6656] i13)) (rd m c ![1, 0, 7168] i14)) (rd m c ![1, 0, 7680] i15)) = sumS m c 1 := by
  rw [readAt_commChunk m c 1 0 _ i0 rfl rfl rfl, readAt_commChunk m c 1 1 _ i1 rfl rfl rfl, readAt_commChunk m c 1 2 _ i2 rfl rfl rfl, readAt_commChunk m c 1 3 _ i3 rfl rfl rfl, readAt_commChunk m c 1 4 _ i4 rfl rfl rfl, readAt_commChunk m c 1 5 _ i5 rfl rfl rfl, readAt_commChunk m c 1 6 _ i6 rfl rfl rfl, readAt_commChunk m c 1 7 _ i7 rfl rfl rfl, readAt_commChunk m c 1 8 _ i8 rfl rfl rfl, readAt_commChunk m c 1 9 _ i9 rfl rfl rfl, readAt_commChunk m c 1 10 _ i10 rfl rfl rfl, readAt_commChunk m c 1 11 _ i11 rfl rfl rfl, readAt_commChunk m c 1 12 _ i12 rfl rfl rfl, readAt_commChunk m c 1 13 _ i13 rfl rfl rfl, readAt_commChunk m c 1 14 _ i14 rfl rfl rfl, readAt_commChunk m c 1 15 _ i15 rfl rfl rfl]
  rfl

theorem sum_slot2 (c : Dev nD) {i0 : Inb ![2, 0, 0]} {i1 : Inb ![2, 0, 512]} {i2 : Inb ![2, 0, 1024]} {i3 : Inb ![2, 0, 1536]} {i4 : Inb ![2, 0, 2048]} {i5 : Inb ![2, 0, 2560]} {i6 : Inb ![2, 0, 3072]} {i7 : Inb ![2, 0, 3584]} {i8 : Inb ![2, 0, 4096]} {i9 : Inb ![2, 0, 4608]} {i10 : Inb ![2, 0, 5120]} {i11 : Inb ![2, 0, 5632]} {i12 : Inb ![2, 0, 6144]} {i13 : Inb ![2, 0, 6656]} {i14 : Inb ![2, 0, 7168]} {i15 : Inb ![2, 0, 7680]} :
    (k0_pay30 (k0_pay30 (k0_pay30 (k0_pay30 (k0_pay30 (k0_pay30 (k0_pay30 (k0_pay30 (k0_pay30 (k0_pay30 (k0_pay30 (k0_pay30 (k0_pay30 (k0_pay30 (k0_pay30 (k0_pay30 (k0_pay29 (F := F) (FloatOps.ofBits FTy.f32 0#32)) (rd m c ![2, 0, 0] i0)) (rd m c ![2, 0, 512] i1)) (rd m c ![2, 0, 1024] i2)) (rd m c ![2, 0, 1536] i3)) (rd m c ![2, 0, 2048] i4)) (rd m c ![2, 0, 2560] i5)) (rd m c ![2, 0, 3072] i6)) (rd m c ![2, 0, 3584] i7)) (rd m c ![2, 0, 4096] i8)) (rd m c ![2, 0, 4608] i9)) (rd m c ![2, 0, 5120] i10)) (rd m c ![2, 0, 5632] i11)) (rd m c ![2, 0, 6144] i12)) (rd m c ![2, 0, 6656] i13)) (rd m c ![2, 0, 7168] i14)) (rd m c ![2, 0, 7680] i15)) = sumS m c 2 := by
  rw [readAt_commChunk m c 2 0 _ i0 rfl rfl rfl, readAt_commChunk m c 2 1 _ i1 rfl rfl rfl, readAt_commChunk m c 2 2 _ i2 rfl rfl rfl, readAt_commChunk m c 2 3 _ i3 rfl rfl rfl, readAt_commChunk m c 2 4 _ i4 rfl rfl rfl, readAt_commChunk m c 2 5 _ i5 rfl rfl rfl, readAt_commChunk m c 2 6 _ i6 rfl rfl rfl, readAt_commChunk m c 2 7 _ i7 rfl rfl rfl, readAt_commChunk m c 2 8 _ i8 rfl rfl rfl, readAt_commChunk m c 2 9 _ i9 rfl rfl rfl, readAt_commChunk m c 2 10 _ i10 rfl rfl rfl, readAt_commChunk m c 2 11 _ i11 rfl rfl rfl, readAt_commChunk m c 2 12 _ i12 rfl rfl rfl, readAt_commChunk m c 2 13 _ i13 rfl rfl rfl, readAt_commChunk m c 2 14 _ i14 rfl rfl rfl, readAt_commChunk m c 2 15 _ i15 rfl rfl rfl]
  rfl

theorem sum_slot3 (c : Dev nD) {i0 : Inb ![3, 0, 0]} {i1 : Inb ![3, 0, 512]} {i2 : Inb ![3, 0, 1024]} {i3 : Inb ![3, 0, 1536]} {i4 : Inb ![3, 0, 2048]} {i5 : Inb ![3, 0, 2560]} {i6 : Inb ![3, 0, 3072]} {i7 : Inb ![3, 0, 3584]} {i8 : Inb ![3, 0, 4096]} {i9 : Inb ![3, 0, 4608]} {i10 : Inb ![3, 0, 5120]} {i11 : Inb ![3, 0, 5632]} {i12 : Inb ![3, 0, 6144]} {i13 : Inb ![3, 0, 6656]} {i14 : Inb ![3, 0, 7168]} {i15 : Inb ![3, 0, 7680]} :
    (k0_pay33 (k0_pay33 (k0_pay33 (k0_pay33 (k0_pay33 (k0_pay33 (k0_pay33 (k0_pay33 (k0_pay32 (k0_pay32 (k0_pay32 (k0_pay32 (k0_pay32 (k0_pay32 (k0_pay32 (k0_pay32 (k0_pay31 (F := F)) (rd m c ![3, 0, 0] i0)) (rd m c ![3, 0, 512] i1)) (rd m c ![3, 0, 1024] i2)) (rd m c ![3, 0, 1536] i3)) (rd m c ![3, 0, 2048] i4)) (rd m c ![3, 0, 2560] i5)) (rd m c ![3, 0, 3072] i6)) (rd m c ![3, 0, 3584] i7)) (rd m c ![3, 0, 4096] i8)) (rd m c ![3, 0, 4608] i9)) (rd m c ![3, 0, 5120] i10)) (rd m c ![3, 0, 5632] i11)) (rd m c ![3, 0, 6144] i12)) (rd m c ![3, 0, 6656] i13)) (rd m c ![3, 0, 7168] i14)) (rd m c ![3, 0, 7680] i15)) = sumS m c 3 := by
  rw [readAt_commChunk m c 3 0 _ i0 rfl rfl rfl, readAt_commChunk m c 3 1 _ i1 rfl rfl rfl, readAt_commChunk m c 3 2 _ i2 rfl rfl rfl, readAt_commChunk m c 3 3 _ i3 rfl rfl rfl, readAt_commChunk m c 3 4 _ i4 rfl rfl rfl, readAt_commChunk m c 3 5 _ i5 rfl rfl rfl, readAt_commChunk m c 3 6 _ i6 rfl rfl rfl, readAt_commChunk m c 3 7 _ i7 rfl rfl rfl, readAt_commChunk m c 3 8 _ i8 rfl rfl rfl, readAt_commChunk m c 3 9 _ i9 rfl rfl rfl, readAt_commChunk m c 3 10 _ i10 rfl rfl rfl, readAt_commChunk m c 3 11 _ i11 rfl rfl rfl, readAt_commChunk m c 3 12 _ i12 rfl rfl rfl, readAt_commChunk m c 3 13 _ i13 rfl rfl rfl, readAt_commChunk m c 3 14 _ i14 rfl rfl rfl, readAt_commChunk m c 3 15 _ i15 rfl rfl rfl]
  rfl

def sumS3a (c : Dev nD) : FVec F S512x1 .f32 :=
  (List.finRange 8).foldl (fun acc k => k0_pay32 acc (commChunk m c 3 ⟨k.val, by have := k.isLt; omega⟩)) (k0_pay31 (F := F))

theorem sum_slot3a (c : Dev nD) {i0 : Inb ![3, 0, 0]} {i1 : Inb ![3, 0, 512]} {i2 : Inb ![3, 0, 1024]} {i3 : Inb ![3, 0, 1536]} {i4 : Inb ![3, 0, 2048]} {i5 : Inb ![3, 0, 2560]} {i6 : Inb ![3, 0, 3072]} {i7 : Inb ![3, 0, 3584]} :
    (k0_pay32 (k0_pay32 (k0_pay32 (k0_pay32 (k0_pay32 (k0_pay32 (k0_pay32 (k0_pay32 (k0_pay31 (F := F)) (rd m c ![3, 0, 0] i0)) (rd m c ![3, 0, 512] i1)) (rd m c ![3, 0, 1024] i2)) (rd m c ![3, 0, 1536] i3)) (rd m c ![3, 0, 2048] i4)) (rd m c ![3, 0, 2560] i5)) (rd m c ![3, 0, 3072] i6)) (rd m c ![3, 0, 3584] i7)) = sumS3a m c := by
  rw [readAt_commChunk m c 3 0 _ i0 rfl rfl rfl, readAt_commChunk m c 3 1 _ i1 rfl rfl rfl, readAt_commChunk m c 3 2 _ i2 rfl rfl rfl, readAt_commChunk m c 3 3 _ i3 rfl rfl rfl, readAt_commChunk m c 3 4 _ i4 rfl rfl rfl, readAt_commChunk m c 3 5 _ i5 rfl rfl rfl, readAt_commChunk m c 3 6 _ i6 rfl rfl rfl, readAt_commChunk m c 3 7 _ i7 rfl rfl rfl]
  rfl

theorem sum_slot3b (c : Dev nD) {i8 : Inb ![3, 0, 4096]} {i9 : Inb ![3, 0, 4608]} {i10 : Inb ![3, 0, 5120]} {i11 : Inb ![3, 0, 5632]} {i12 : Inb ![3, 0, 6144]} {i13 : Inb ![3, 0, 6656]} {i14 : Inb ![3, 0, 7168]} {i15 : Inb ![3, 0, 7680]} :
    (k0_pay33 (k0_pay33 (k0_pay33 (k0_pay33 (k0_pay33 (k0_pay33 (k0_pay33 (k0_pay33 (sumS3a m c) (rd m c ![3, 0, 4096] i8)) (rd m c ![3, 0, 4608] i9)) (rd m c ![3, 0, 5120] i10)) (rd m c ![3, 0, 5632] i11)) (rd m c ![3, 0, 6144] i12)) (rd m c ![3, 0, 6656] i13)) (rd m c ![3, 0, 7168] i14)) (rd m c ![3, 0, 7680] i15)) = sumS m c 3 := by
  rw [readAt_commChunk m c 3 8 _ i8 rfl rfl rfl, readAt_commChunk m c 3 9 _ i9 rfl rfl rfl, readAt_commChunk m c 3 10 _ i10 rfl rfl rfl, readAt_commChunk m c 3 11 _ i11 rfl rfl rfl, readAt_commChunk m c 3 12 _ i12 rfl rfl rfl, readAt_commChunk m c 3 13 _ i13 rfl rfl rfl, readAt_commChunk m c 3 14 _ i14 rfl rfl rfl, readAt_commChunk m c 3 15 _ i15 rfl rfl rfl]
  rfl

end Cert.KernelIdeal.P
end
-- ==== Proof.KI.CommJoin.lean ====
/- Thirteen rectangles tile the exchange buffer, so the thirteen pieces at one function rejoin to the whole buffer at that function. -/
import proofs.«900748_g7700000000000749_dist_arsfmx_v7x_xyz2x2x4_z_t512_d1024_v8192_bf16_1_alg».proof.Proof.KI.Sched

set_option maxRecDepth 16384

noncomputable section
namespace Cert.KernelIdeal.P
open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

def offK : Fin 13 → Fin 3 → ℕ
  | 0 => ![0, 0, 0] | 1 => ![0, 0, 1024] | 2 => ![0, 0, 2048] | 3 => ![0, 0, 3072]
  | 4 => ![0, 0, 4096] | 5 => ![0, 0, 5120] | 6 => ![0, 0, 6144] | 7 => ![0, 0, 7168]
  | 8 => ![1, 0, 0] | 9 => ![2, 0, 0] | 10 => ![2, 0, 4096] | 11 => ![3, 0, 0] | 12 => ![3, 0, 4096]
def sizeK : Fin 13 → Fin 3 → ℕ
  | 0 => ![1, 512, 1024] | 1 => ![1, 512, 1024] | 2 => ![1, 512, 1024] | 3 => ![1, 512, 1024]
  | 4 => ![1, 512, 1024] | 5 => ![1, 512, 1024] | 6 => ![1, 512, 1024] | 7 => ![1, 512, 1024]
  | 8 => ![1, 512, 8192] | 9 => ![1, 512, 4096] | 10 => ![1, 512, 4096] | 11 => ![1, 512, 4096] | 12 => ![1, 512, 4096]

theorem inbK : ∀ (b : Fin 13) (a : Fin 3), offK b a + sizeK b a ≤ S4x512x8192.size a := by decide

def rK (b : Fin 13) : Rect S4x512x8192 := Rect.unit (s := S4x512x8192) (offK b) (sizeK b) (inbK b)

theorem rK_disj : ∀ b b' : Fin 13, b ≠ b' → Disjoint (rK b).set (rK b').set := by
  have key : ∀ b b' : Fin 13, b ≠ b' → ∃ a : Fin 3, offK b a + sizeK b a ≤ offK b' a ∨ offK b' a + sizeK b' a ≤ offK b a := by decide
  intro b b' h
  obtain ⟨a, ha⟩ := key b b' h
  exact Rect.unit_disjoint a ha

theorem mem_rK (b : Fin 13) (i : S4x512x8192.Idx) : i ∈ (rK b).set ↔ ∀ a : Fin 3, offK b a ≤ i a ∧ ((i a : ℕ)) < offK b a + sizeK b a :=
  Rect.mem_set_unit

theorem rK_cover : (Finset.univ : Finset (Fin 13)).biUnion (fun b => (rK b).set) = Finset.univ := by
  rw [Finset.eq_univ_iff_forall]
  intro i
  rw [Finset.mem_biUnion]
  have h0 : (i 0).val < 4 := (i 0).isLt
  have h1 : (i 1).val < 512 := (i 1).isLt
  have h2 : (i 2).val < 8192 := (i 2).isLt
  have pick : ∀ b : Fin 13, (∀ a : Fin 3, offK b a ≤ i a ∧ ((i a : ℕ)) < offK b a + sizeK b a) → ∃ b ∈ (Finset.univ : Finset (Fin 13)), i ∈ (rK b).set :=
    fun b hb => ⟨b, Finset.mem_univ _, (mem_rK b i).2 hb⟩
  rcases (by omega : (i 0).val = 0 ∨ (i 0).val = 1 ∨ (i 0).val = 2 ∨ (i 0).val = 3) with h | h | h | h
  · rcases (by omega : (i 2).val < 1024 ∨ (1024 ≤ (i 2).val ∧ (i 2).val < 2048) ∨ (2048 ≤ (i 2).val ∧ (i 2).val < 3072) ∨ (3072 ≤ (i 2).val ∧ (i 2).val < 4096)
        ∨ (4096 ≤ (i 2).val ∧ (i 2).val < 5120) ∨ (5120 ≤ (i 2).val ∧ (i 2).val < 6144) ∨ (6144 ≤ (i 2).val ∧ (i 2).val < 7168) ∨ 7168 ≤ (i 2).val) with g | g | g | g | g | g | g | g
    · exact pick 0 (by intro a; fin_cases a <;> simp [offK, sizeK] <;> omega)
    · exact pick 1 (by intro a; fin_cases a <;> simp [offK, sizeK] <;> omega)
    · exact pick 2 (by intro a; fin_cases a <;> simp [offK, sizeK] <;> omega)
    · exact pick 3 (by intro a; fin_cases a <;> simp [offK, sizeK] <;> omega)
    · exact pick 4 (by intro a; fin_cases a <;> simp [offK, sizeK] <;> omega)
    · exact pick 5 (by intro a; fin_cases a <;> simp [offK, sizeK] <;> omega)
    · exact pick 6 (by intro a; fin_cases a <;> simp [offK, sizeK] <;> omega)
    · exact pick 7 (by intro a; fin_cases a <;> simp [offK, sizeK] <;> omega)
  · exact pick 8 (by intro a; fin_cases a <;> simp [offK, sizeK] <;> omega)
  · rcases (by omega : (i 2).val < 4096 ∨ 4096 ≤ (i 2).val) with g | g
    · exact pick 9 (by intro a; fin_cases a <;> simp [offK, sizeK] <;> omega)
    · exact pick 10 (by intro a; fin_cases a <;> simp [offK, sizeK] <;> omega)
  · rcases (by omega : (i 2).val < 4096 ∨ 4096 ≤ (i 2).val) with g | g
    · exact pick 11 (by intro a; fin_cases a <;> simp [offK, sizeK] <;> omega)
    · exact pick 12 (by intro a; fin_cases a <;> simp [offK, sizeK] <;> omega)

theorem set_piece :
    (srcM0 : Memref sig .tc .vmem _ .bf16).view.set = (rK 0).set ∧ (srcM1 : Memref sig .tc .vmem _ .bf16).view.set = (rK 1).set
    ∧ (srcM2 : Memref sig .tc .vmem _ .bf16).view.set = (rK 2).set ∧ (srcM3 : Memref sig .tc .vmem _ .bf16).view.set = (rK 3).set
    ∧ (srcM4 : Memref sig .tc .vmem _ .bf16).view.set = (rK 4).set ∧ (srcM5 : Memref sig .tc .vmem _ .bf16).view.set = (rK 5).set
    ∧ (srcM6 : Memref sig .tc .vmem _ .bf16).view.set = (rK 6).set ∧ (srcM7 : Memref sig .tc .vmem _ .bf16).view.set = (rK 7).set
    ∧ (srcM8 : Memref sig .tc .vmem _ .bf16).view.set = (rK 8).set ∧ (srcM9 : Memref sig .tc .vmem _ .bf16).view.set = (rK 9).set
    ∧ (srcM10 : Memref sig .tc .vmem _ .bf16).view.set = (rK 10).set ∧ (dstM9 : Memref sig .tc .vmem _ .bf16).view.set = (rK 11).set
    ∧ (dstM10 : Memref sig .tc .vmem _ .bf16).view.set = (rK 12).set := by
  simp only [Memref.view_squeeze, Memref.view_slice, Memref.view_whole, View.set_reshape, View.set_slice_whole]
  refine ⟨rfl, rfl, rfl, rfl, rfl, rfl, rfl, rfl, rfl, rfl, rfl, rfl, rfl⟩

theorem comm_blocks (c : Dev nD) (f : Vec F S4x512x8192 .bf16) :
    (((Wc : Memref sig .tc .vmem _ _).view.loc (c : Thread nD τ)) ↦[Finset.univ]{fullShare} f : sProp 𝕄)
      = bigSep Finset.univ fun b : Fin 13 => ((Wc : Memref sig .tc .vmem _ _).view.loc (c : Thread nD τ)) ↦[(rK b).set]{fullShare} f := by
  have h := pointsTo_biUnion (ℓ := (Wc : Memref sig .tc .vmem _ _).view.loc (c : Thread nD τ)) (q := fullShare) (f := f) (U := UU) (Name := ℕ) (Lvl := ℕ) (Ix := Unit) Finset.univ (fun b : Fin 13 => (rK b).set) (fun b _ b' _ h => rK_disj b b' h)
  rw [rK_cover] at h
  exact h

/-- The thirteen pieces at one function, one of them in two half shares, are the whole buffer at that function. -/
theorem comm_rejoin (c : Dev nD) (f : Vec F S4x512x8192 .bf16) :
    (iprop(((srcM0 : Memref sig .tc .vmem _ _).view.loc (c : Thread nD τ) ↦[(srcM0 : Memref sig .tc .vmem _ _).view.set]{fullShare} f)
      ∗ ((srcM1 : Memref sig .tc .vmem _ _).view.loc (c : Thread nD τ) ↦[(srcM1 : Memref sig .tc .vmem _ _).view.set]{fullShare} f)
      ∗ ((srcM2 : Memref sig .tc .vmem _ _).view.loc (c : Thread nD τ) ↦[(srcM2 : Memref sig .tc .vmem _ _).view.set]{fullShare} f)
      ∗ ((srcM3 : Memref sig .tc .vmem _ _).view.loc (c : Thread nD τ) ↦[(srcM3 : Memref sig .tc .vmem _ _).view.set]{fullShare} f)
      ∗ ((srcM4 : Memref sig .tc .vmem _ _).view.loc (c : Thread nD τ) ↦[(srcM4 : Memref sig .tc .vmem _ _).view.set]{fullShare} f)
      ∗ ((srcM5 : Memref sig .tc .vmem _ _).view.loc (c : Thread nD τ) ↦[(srcM5 : Memref sig .tc .vmem _ _).view.set]{fullShare} f)
      ∗ ((srcM6 : Memref sig .tc .vmem _ _).view.loc (c : Thread nD τ) ↦[(srcM6 : Memref sig .tc .vmem _ _).view.set]{fullShare} f)
      ∗ ((srcM7 : Memref sig .tc .vmem _ _).view.loc (c : Thread nD τ) ↦[(srcM7 : Memref sig .tc .vmem _ _).view.set]{fullShare} f)
      ∗ ((srcM8 : Memref sig .tc .vmem _ _).view.loc (c : Thread nD τ) ↦[(srcM8 : Memref sig .tc .vmem _ _).view.set]{fullShare} f)
      ∗ ((srcM9 : Memref sig .tc .vmem _ _).view.loc (c : Thread nD τ) ↦[(srcM9 : Memref sig .tc .vmem _ _).view.set]{fullShare} f)
      ∗ ((srcM10 : Memref sig .tc .vmem _ _).view.loc (c : Thread nD τ) ↦[(srcM10 : Memref sig .tc .vmem _ _).view.set]{fullShare.right} f)
      ∗ ((dstM9 : Memref sig .tc .vmem _ _).view.loc (c : Thread nD τ) ↦[(dstM9 : Memref sig .tc .vmem _ _).view.set]{fullShare} f)
      ∗ srcPts c f 10 ∗ dstPts c f 10) : sProp 𝕄)
      ⊢ ((Wc : Memref sig .tc .vmem _ _).view.loc (c : Thread nD τ) ↦[(Wc : Memref sig .tc .vmem _ _).view.set]{fullShare} f) := by
  obtain ⟨e0, e1, e2, e3, e4, e5, e6, e7, e8, e9, e10, e11, e12⟩ := set_piece
  show (iprop(((Wc : Memref sig .tc .vmem _ _).view.loc (c : Thread nD τ) ↦[(srcM0 : Memref sig .tc .vmem _ .bf16).view.set]{fullShare} f)
      ∗ ((Wc : Memref sig .tc .vmem _ _).view.loc (c : Thread nD τ) ↦[(srcM1 : Memref sig .tc .vmem _ .bf16).view.set]{fullShare} f)
      ∗ ((Wc : Memref sig .tc .vmem _ _).view.loc (c : Thread nD τ) ↦[(srcM2 : Memref sig .tc .vmem _ .bf16).view.set]{fullShare} f)
      ∗ ((Wc : Memref sig .tc .vmem _ _).view.loc (c : Thread nD τ) ↦[(srcM3 : Memref sig .tc .vmem _ .bf16).view.set]{fullShare} f)
      ∗ ((Wc : Memref sig .tc .vmem _ _).view.loc (c : Thread nD τ) ↦[(srcM4 : Memref sig .tc .vmem _ .bf16).view.set]{fullShare} f)
      ∗ ((Wc : Memref sig .tc .vmem _ _).view.loc (c : Thread nD τ) ↦[(srcM5 : Memref sig .tc .vmem _ .bf16).view.set]{fullShare} f)
      ∗ ((Wc : Memref sig .tc .vmem _ _).view.loc (c : Thread nD τ) ↦[(srcM6 : Memref sig .tc .vmem _ .bf16).view.set]{fullShare} f)
      ∗ ((Wc : Memref sig .tc .vmem _ _).view.loc (c : Thread nD τ) ↦[(srcM7 : Memref sig .tc .vmem _ .bf16).view.set]{fullShare} f)
      ∗ ((Wc : Memref sig .tc .vmem _ _).view.loc (c : Thread nD τ) ↦[(srcM8 : Memref sig .tc .vmem _ .bf16).view.set]{fullShare} f)
      ∗ ((Wc : Memref sig .tc .vmem _ _).view.loc (c : Thread nD τ) ↦[(srcM9 : Memref sig .tc .vmem _ .bf16).view.set]{fullShare} f)
      ∗ ((Wc : Memref sig .tc .vmem _ _).view.loc (c : Thread nD τ) ↦[(srcM10 : Memref sig .tc .vmem _ .bf16).view.set]{fullShare.right} f)
      ∗ ((Wc : Memref sig .tc .vmem _ _).view.loc (c : Thread nD τ) ↦[(dstM9 : Memref sig .tc .vmem _ .bf16).view.set]{fullShare} f)
      ∗ ((Wc : Memref sig .tc .vmem _ _).view.loc (c : Thread nD τ) ↦[(srcM10 : Memref sig .tc .vmem _ .bf16).view.set]{fullShare.left} f)
      ∗ ((Wc : Memref sig .tc .vmem _ _).view.loc (c : Thread nD τ) ↦[(dstM10 : Memref sig .tc .vmem _ .bf16).view.set]{fullShare} f)) : sProp 𝕄) ⊢ ((Wc : Memref sig .tc .vmem _ _).view.loc (c : Thread nD τ) ↦[(View.whole cc0_scratch0 : View sig .tc .vmem _ _).set]{fullShare} f)
  rw [e0, e1, e2, e3, e4, e5, e6, e7, e8, e9, e10, e11, e12, View.set_whole, comm_blocks c f,
    bigSep_univ_eq_bigSepL [0, 1, 2, 3, 4, 5, 6, 7, 8, 9, 10, 11, 12] (by decide) (by decide)]
  simp only [bigSepL_cons_cons, bigSepL_singleton]
  show (iprop(((Wc : Memref sig .tc .vmem _ _).view.loc (c : Thread nD τ) ↦[(rK 0).set]{fullShare} f)
      ∗ ((Wc : Memref sig .tc .vmem _ _).view.loc (c : Thread nD τ) ↦[(rK 1).set]{fullShare} f)
      ∗ ((Wc : Memref sig .tc .vmem _ _).view.loc (c : Thread nD τ) ↦[(rK 2).set]{fullShare} f)
      ∗ ((Wc : Memref sig .tc .vmem _ _).view.loc (c : Thread nD τ) ↦[(rK 3).set]{fullShare} f)
      ∗ ((Wc : Memref sig .tc .vmem _ _).view.loc (c : Thread nD τ) ↦[(rK 4).set]{fullShare} f)
      ∗ ((Wc : Memref sig .tc .vmem _ _).view.loc (c : Thread nD τ) ↦[(rK 5).set]{fullShare} f)
      ∗ ((Wc : Memref sig .tc .vmem _ _).view.loc (c : Thread nD τ) ↦[(rK 6).set]{fullShare} f)
      ∗ ((Wc : Memref sig .tc .vmem _ _).view.loc (c : Thread nD τ) ↦[(rK 7).set]{fullShare} f)
      ∗ ((Wc : Memref sig .tc .vmem _ _).view.loc (c : Thread nD τ) ↦[(rK 8).set]{fullShare} f)
      ∗ ((Wc : Memref sig .tc .vmem _ _).view.loc (c : Thread nD τ) ↦[(rK 9).set]{fullShare} f)
      ∗ ((Wc : Memref sig .tc .vmem _ _).view.loc (c : Thread nD τ) ↦[(rK 10).set]{fullShare.right} f)
      ∗ ((Wc : Memref sig .tc .vmem _ _).view.loc (c : Thread nD τ) ↦[(rK 11).set]{fullShare} f)
      ∗ ((Wc : Memref sig .tc .vmem _ _).view.loc (c : Thread nD τ) ↦[(rK 10).set]{fullShare.left} f)
      ∗ ((Wc : Memref sig .tc .vmem _ _).view.loc (c : Thread nD τ) ↦[(rK 12).set]{fullShare} f)) : sProp 𝕄)
    ⊢ iprop(((Wc : Memref sig .tc .vmem _ _).view.loc (c : Thread nD τ) ↦[(rK 0).set]{fullShare} f)
      ∗ ((Wc : Memref sig .tc .vmem _ _).view.loc (c : Thread nD τ) ↦[(rK 1).set]{fullShare} f)
      ∗ ((Wc : Memref sig .tc .vmem _ _).view.loc (c : Thread nD τ) ↦[(rK 2).set]{fullShare} f)
      ∗ ((Wc : Memref sig .tc .vmem _ _).view.loc (c : Thread nD τ) ↦[(rK 3).set]{fullShare} f)
      ∗ ((Wc : Memref sig .tc .vmem _ _).view.loc (c : Thread nD τ) ↦[(rK 4).set]{fullShare} f)
      ∗ ((Wc : Memref sig .tc .vmem _ _).view.loc (c : Thread nD τ) ↦[(rK 5).set]{fullShare} f)
      ∗ ((Wc : Memref sig .tc .vmem _ _).view.loc (c : Thread nD τ) ↦[(rK 6).set]{fullShare} f)
      ∗ ((Wc : Memref sig .tc .vmem _ _).view.loc (c : Thread nD τ) ↦[(rK 7).set]{fullShare} f)
      ∗ ((Wc : Memref sig .tc .vmem _ _).view.loc (c : Thread nD τ) ↦[(rK 8).set]{fullShare} f)
      ∗ ((Wc : Memref sig .tc .vmem _ _).view.loc (c : Thread nD τ) ↦[(rK 9).set]{fullShare} f)
      ∗ ((Wc : Memref sig .tc .vmem _ _).view.loc (c : Thread nD τ) ↦[(rK 10).set]{fullShare} f)
      ∗ ((Wc : Memref sig .tc .vmem _ _).view.loc (c : Thread nD τ) ↦[(rK 11).set]{fullShare} f)
      ∗ ((Wc : Memref sig .tc .vmem _ _).view.loc (c : Thread nD τ) ↦[(rK 12).set]{fullShare} f))
  iintro ⟨H0, H1, H2, H3, H4, H5, H6, H7, H8, H9, H10r, H11, H10l, H12⟩
  have hsh : (iprop(((Wc : Memref sig .tc .vmem _ _).view.loc (c : Thread nD τ) ↦[(rK 10).set]{fullShare.left} f) ∗ ((Wc : Memref sig .tc .vmem _ _).view.loc (c : Thread nD τ) ↦[(rK 10).set]{fullShare.right} f)) : sProp 𝕄)
      ⊢ ((Wc : Memref sig .tc .vmem _ _).view.loc (c : Thread nD τ) ↦[(rK 10).set]{fullShare} f) := (pointsTo_share (PosShare.mem_left_op_right fullShare)).2
  ihave H10 := hsh $$ [H10l H10r]
  · isplitl [H10l] <;> iassumption
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.P
end
-- ==== Proof.KI.SegVals.lean ====
/- What the matmul loops store and load: a segment of slot 0 after its two chunk stores holds the device's own row there, and the loads read the chunk of W and the copy of x. -/
import proofs.«900748_g7700000000000749_dist_arsfmx_v7x_xyz2x2x4_z_t512_d1024_v8192_bf16_1_alg».proof.Proof.KI.Sends
import Idealize.ShloMosaic.Lib.Pipeline.Value
import Idealize.ShloMosaic.Lib.ValueLayout
import Idealize.ShloMosaic.Lib.Writes

noncomputable section

namespace Cert.KernelIdeal.P

open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem mem_seg (o : ℕ) (inb : ∀ a, (![0, 0, o] : Fin 3 → ℕ) a + S1x512x1024.size a ≤ S4x512x8192.size a) (i : S4x512x8192.Idx)
    (hi : i ∈ ((Wc.slice (Rect.unit (s := S4x512x8192) ![0, 0, o] S1x512x1024.size inb) (fun _ => rfl)).squeeze S512x1024 squeezes_S1x512x1024_S512x1024).view.set) :
    (i 0).val = 0 ∧ o ≤ (i 2).val ∧ (i 2).val < o + 1024 := by
  have e : ((Wc.slice (Rect.unit (s := S4x512x8192) ![0, 0, o] S1x512x1024.size inb) (fun _ => rfl)).squeeze S512x1024 squeezes_S1x512x1024_S512x1024).view.set
      = (Rect.unit (s := S4x512x8192) ![0, 0, o] S1x512x1024.size inb).set :=
    (View.set_reshape _ _).trans (View.set_slice_whole _ _)
  have hi' : i ∈ (Rect.unit (s := S4x512x8192) ![0, 0, o] S1x512x1024.size inb).set :=
    (congrArg (fun s : Finset S4x512x8192.Idx => i ∈ s) e).mp hi
  rw [Rect.mem_set_unit] at hi'
  have h0 := hi' 0
  have h2 := hi' 2
  have e0 : (![0, 0, o] : Fin 3 → ℕ) 0 = 0 := rfl
  have e2 : (![0, 0, o] : Fin 3 → ℕ) 2 = o := rfl
  have s0 : S1x512x1024.size 0 = 1 := rfl
  have s2 : S1x512x1024.size 2 = 1024 := rfl
  rw [e0, s0] at h0
  rw [e2, s2] at h2
  omega

theorem commF_slot0 (c : Dev nD) (i : S4x512x8192.Idx) (h0 : (i 0).val = 0) (k : Fin 16) (x : S1x512x512.Idx)
    (h1 : (x 1).val = (i 1).val) (h2 : 512 * k.val + (x 2).val = (i 2).val) : commF m c i = eChunk m c k x := by
  have hx2 : (x 2).val < 512 := (x 2).isLt
  have hx0 : (x 0).val < 1 := (x 0).isLt
  have hk : (⟨(i 2).val / 512, by have := (i 2).isLt; have : (i 2).val < 8192 := (i 2).isLt; omega⟩ : Fin 16) = k := Fin.ext (by show (i 2).val / 512 = k.val; omega)
  have hx : ix3 (0 : Fin 1) (i 1) (⟨(i 2).val % 512, Nat.mod_lt _ (by decide)⟩ : Fin 512) = x := funext fun a => Fin.ext (by
    match a with
    | ⟨0, _⟩ => show 0 = (x 0).val; omega
    | ⟨1, _⟩ => exact h1.symm
    | ⟨2, _⟩ => show (i 2).val % 512 = (x 2).val; omega)
  unfold commF eRow
  rw [h0]
  exact congrArg₂ (fun (k' : Fin 16) (x' : S1x512x512.Idx) => eChunk m c k' x') hk hx

section Chunk
variable (o : ℕ) (inb : ∀ a, (![0, 0, o] : Fin 3 → ℕ) a + S1x512x512.size a ≤ S4x512x8192.size a)

theorem chunk_emb_val (x : S1x512x512.Idx) :
    (((Wc.access (Rect.unit (s := S4x512x8192) ![0, 0, o] S1x512x512.size inb)).emb x) 0).val = (x 0).val
    ∧ (((Wc.access (Rect.unit (s := S4x512x8192) ![0, 0, o] S1x512x512.size inb)).emb x) 1).val = (x 1).val
    ∧ (((Wc.access (Rect.unit (s := S4x512x8192) ![0, 0, o] S1x512x512.size inb)).emb x) 2).val = o + (x 2).val := by
  refine ⟨?_, ?_, ?_⟩
  · show 0 + 1 * (x 0).val = _; omega
  · show 0 + 1 * (x 1).val = _; omega
  · show o + 1 * (x 2).val = _; omega

theorem chunk_exists (i : S4x512x8192.Idx) (h0 : (i 0).val = 0) (hlo : o ≤ (i 2).val) (hhi : (i 2).val < o + 512) :
    ∃ x : S1x512x512.Idx, (Wc.access (Rect.unit (s := S4x512x8192) ![0, 0, o] S1x512x512.size inb)).emb x = i
      ∧ (x 1).val = (i 1).val ∧ o + (x 2).val = (i 2).val := by
  have h1 : (i 1).val < 512 := (i 1).isLt
  refine ⟨ix3 (0 : Fin 1) (⟨(i 1).val, h1⟩ : Fin 512) (⟨(i 2).val - o, by omega⟩ : Fin 512), ?_, rfl, ?_⟩
  · refine funext fun a => Fin.ext ?_
    obtain ⟨e0, e1, e2⟩ := chunk_emb_val o inb (ix3 (0 : Fin 1) (⟨(i 1).val, h1⟩ : Fin 512) (⟨(i 2).val - o, by omega⟩ : Fin 512))
    match a with
    | ⟨0, _⟩ => exact e0.trans h0.symm
    | ⟨1, _⟩ => exact e1
    | ⟨2, _⟩ => exact e2.trans (by show o + ((i 2).val - o) = (i 2).val; omega)
  · show o + ((i 2).val - o) = (i 2).val; omega

theorem write_chunk_of_not_mem (f : Vec F S4x512x8192 .bf16) (w : Vec F S1x512x512 .bf16) (i : S4x512x8192.Idx)
    (h : (i 2).val < o ∨ o + 512 ≤ (i 2).val) :
    View.write (Elt F) (Wc.access (Rect.unit (s := S4x512x8192) ![0, 0, o] S1x512x512.size inb)) f w Finset.univ i = f i := by
  refine View.write_of_not_mem _ _ _ fun hm => ?_
  have e : (Wc.access (Rect.unit (s := S4x512x8192) ![0, 0, o] S1x512x512.size inb)).setOn Finset.univ
      = (Rect.unit (s := S4x512x8192) ![0, 0, o] S1x512x512.size inb).set := View.set_slice_whole _ _
  have hm' : i ∈ (Rect.unit (s := S4x512x8192) ![0, 0, o] S1x512x512.size inb).set :=
    (congrArg (fun s : Finset S4x512x8192.Idx => i ∈ s) e).mp hm
  rw [Rect.mem_set_unit] at hm'
  have h2 := hm' 2
  have e2 : (![0, 0, o] : Fin 3 → ℕ) 2 = o := rfl
  have s2 : S1x512x512.size 2 = 512 := rfl
  rw [e2, s2] at h2
  omega

theorem write_chunk_emb (f : Vec F S4x512x8192 .bf16) (w : Vec F S1x512x512 .bf16) (x : S1x512x512.Idx) :
    View.write (Elt F) (Wc.access (Rect.unit (s := S4x512x8192) ![0, 0, o] S1x512x512.size inb)) f w Finset.univ
      ((Wc.access (Rect.unit (s := S4x512x8192) ![0, 0, o] S1x512x512.size inb)).emb x) = w x :=
  (View.write_emb_of_mem _ _ (Finset.mem_univ x)).trans (cast_eq _ _)

end Chunk

/-- A segment of slot 0 after its two chunk stores agrees with the final contents: inside a chunk the stored tile, elsewhere untouched. -/
theorem seg_two_chunks (c : Dev nD) (o0 o1 : ℕ) (k0 k1 : Fin 16) (ho0 : o0 = 512 * k0.val) (ho1 : o1 = 512 * k1.val) (h01 : o1 = o0 + 512)
    (inb0 : ∀ a, (![0, 0, o0] : Fin 3 → ℕ) a + S1x512x512.size a ≤ S4x512x8192.size a)
    (inb1 : ∀ a, (![0, 0, o1] : Fin 3 → ℕ) a + S1x512x512.size a ≤ S4x512x8192.size a)
    (f0 : Vec F S4x512x8192 .bf16) (w0 w1 : Vec F S1x512x512 .bf16) (hw0 : w0 = eChunk m c k0) (hw1 : w1 = eChunk m c k1)
    (i : S4x512x8192.Idx) (hi0 : (i 0).val = 0) (hlo : o0 ≤ (i 2).val) (hhi : (i 2).val < o0 + 1024) :
    View.write (Elt F) (Wc.access (Rect.unit (s := S4x512x8192) ![0, 0, o1] S1x512x512.size inb1))
      (View.write (Elt F) (Wc.access (Rect.unit (s := S4x512x8192) ![0, 0, o0] S1x512x512.size inb0)) f0 w0 Finset.univ)
      w1 Finset.univ i = commF m c i := by
  subst hw0 hw1
  by_cases h : (i 2).val < o1
  · rw [write_chunk_of_not_mem o1 inb1 _ _ i (Or.inl h)]
    obtain ⟨x, hx, hx1, hx2⟩ := chunk_exists o0 inb0 i hi0 hlo (by omega)
    rw [← hx, write_chunk_emb, hx]
    exact (commF_slot0 m c i hi0 k0 x hx1 (by omega)).symm
  · obtain ⟨x, hx, hx1, hx2⟩ := chunk_exists o1 inb1 i hi0 (by omega) (by omega)
    rw [← hx, write_chunk_emb, hx]
    exact (commF_slot0 m c i hi0 k1 x hx1 (by omega)).symm

/-- A load of a slot that a chunk of W was copied into reads that chunk. -/
theorem wload (c : Dev nD) (s o : ℕ) (k : Fin 16) (ho : o = 512 * k.val)
    (inbL inbS : ∀ a, (![s, 0, 0] : Fin 3 → ℕ) a + S1x1024x512.size a ≤ S2x1024x512.size a)
    (pfS : ∀ a, (Rect.unit (s := S2x1024x512) ![s, 0, 0] S1x1024x512.size inbS).stride a = 1)
    (inbW : ∀ a, (![0, o] : Fin 2 → ℕ) a + S1024x512.size a ≤ S1024x8192.size a)
    (pfW : ∀ a, (Rect.unit (s := S1024x8192) ![0, o] S1024x512.size inbW).stride a = 1)
    (L : List (View.Piece (Elt F) S1024x512 .f32)) :
    View.readAt (Elt F) (Memref.whole cc0_scratch2 : Memref sig .tc .vmem S2x1024x512 .f32).view
        (Rect.unit (s := S2x1024x512) ![s, 0, 0] S1x1024x512.size inbL).toLoadRect
        ((((Memref.whole cc0_scratch2 : Memref sig .tc .vmem S2x1024x512 .f32).slice (Rect.unit (s := S2x1024x512) ![s, 0, 0] S1x1024x512.size inbS) pfS).squeeze
              S1024x512 squeezes_S1x1024x512_S1024x512).view.writes (Elt F)
          (((Memref.whole cc0_scratch2 : Memref sig .tc .vmem S2x1024x512 .f32).slice (Rect.unit (s := S2x1024x512) ![s, 0, 0] S1x1024x512.size inbS) pfS).squeeze
              S1024x512 squeezes_S1x1024x512_S1024x512).view.junk
          (⟨Rect.whole S1024x512, ReadAs.same.apply (View.read (Elt F)
              ((Memref.whole main_arg1 : Memref sig .tc .hbm S1024x8192 .f32).slice (Rect.unit (s := S1024x8192) ![0, o] S1024x512.size inbW) pfW).view (wA m c))⟩ :: L))
      = wChunk m c k := by
  funext i
  obtain ⟨u, a, b, rfl⟩ : ∃ (u : Fin 1) (a : Fin 1024) (b : Fin 512), i = ix3 u a b := ⟨i 0, i 1, i 2, eq_ix3 i⟩
  obtain rfl : u = 0 := Subsingleton.elim _ _

  have e1 := congrFun (Memref.read_squeeze_slice (Val := Elt F) (Memref.whole cc0_scratch2 : Memref sig .tc .vmem S2x1024x512 .f32)
      (Rect.unit (s := S2x1024x512) ![s, 0, 0] S1x1024x512.size inbS) pfS squeezes_S1x1024x512_S1024x512 shapeCasts_S1x1024x512_S1024x512
      ((((Memref.whole cc0_scratch2 : Memref sig .tc .vmem S2x1024x512 .f32).slice (Rect.unit (s := S2x1024x512) ![s, 0, 0] S1x1024x512.size inbS) pfS).squeeze
              S1024x512 squeezes_S1x1024x512_S1024x512).view.writes (Elt F)
          (((Memref.whole cc0_scratch2 : Memref sig .tc .vmem S2x1024x512 .f32).slice (Rect.unit (s := S2x1024x512) ![s, 0, 0] S1x1024x512.size inbS) pfS).squeeze
              S1024x512 squeezes_S1x1024x512_S1024x512).view.junk
          (⟨Rect.whole S1024x512, ReadAs.same.apply (View.read (Elt F)
              ((Memref.whole main_arg1 : Memref sig .tc .hbm S1024x8192 .f32).slice (Rect.unit (s := S1024x8192) ![0, o] S1024x512.size inbW) pfW).view (wA m c))⟩ :: L)))
    (ix2 a b)
  rw [shapeCast_1ab_ab_apply] at e1
  refine e1.symm.trans ?_

  have e2 := View.read_writes_cons_emb
    (((Memref.whole cc0_scratch2 : Memref sig .tc .vmem S2x1024x512 .f32).slice (Rect.unit (s := S2x1024x512) ![s, 0, 0] S1x1024x512.size inbS) pfS).squeeze
              S1024x512 squeezes_S1x1024x512_S1024x512).view
    (((Memref.whole cc0_scratch2 : Memref sig .tc .vmem S2x1024x512 .f32).slice (Rect.unit (s := S2x1024x512) ![s, 0, 0] S1x1024x512.size inbS) pfS).squeeze
              S1024x512 squeezes_S1x1024x512_S1024x512).view.junk
    (Rect.whole S1024x512) (ReadAs.same.apply (View.read (Elt F)
              ((Memref.whole main_arg1 : Memref sig .tc .hbm S1024x8192 .f32).slice (Rect.unit (s := S1024x8192) ![0, o] S1024x512.size inbW) pfW).view (wA m c))) L (ix2 a b)
  rw [Rect.emb_whole_apply] at e2
  refine e2.trans ?_

  show wA m c (((Memref.whole main_arg1 : Memref sig .tc .hbm S1024x8192 .f32).slice (Rect.unit (s := S1024x8192) ![0, o] S1024x512.size inbW) pfW).view.emb (ix2 a b)) = _
  unfold wChunk
  refine congrArg (wA m c) (funext fun ax => Fin.ext ?_)
  match ax with
  | ⟨0, _⟩ => show 0 + 1 * a.val = a.val; omega
  | ⟨1, _⟩ => show o + 1 * b.val = 512 * k.val + b.val; omega

/-- The narrowed copy of x, loaded after the one store that filled it. -/
theorem xload (c : Dev nD) (inb : ∀ a, (![0, 0] : Fin 2 → ℕ) a + S512x1024.size a ≤ S512x1024.size a) :
    (Memref.whole cc0_scratch1 : Memref sig .tc .vmem S512x1024 .bf16).view.readCov
        [(⟨Rect.unit (s := S512x1024) ![0, 0] S512x1024.size inb,
            k0_pay25 (View.readAt (Elt F) (Memref.whole cc0_stg0_0 : Memref sig .tc .vmem S512x1024 .f32).view
              (Rect.unit (s := S512x1024) ![0, 0] S512x1024.size inb).toLoadRect (xS m c))⟩ : View.Piece (Elt F) S512x1024 .bf16)]
        (Rect.unit (s := S512x1024) ![0, 0] S512x1024.size inb).toLoadRect
      = xB m c := by
  have hz : (![0, 0] : Fin 2 → ℕ) = fun _ => 0 := by funext a; match a with | ⟨0, _⟩ => rfl | ⟨1, _⟩ => rfl
  refine (View.readCov_unit_zero (S := S512x1024) (Memref.whole cc0_scratch1 : Memref sig .tc .vmem S512x1024 .bf16).view hz inb _).trans ?_
  unfold xB
  refine congrArg k0_pay25 ?_
  rw [View.readAt_eq_ld, View.ld_unit_zero (S := S512x1024) hz]
  rfl

theorem chunk_of_loads (c : Dev nD) (k : Fin 16) (V : Vec F S1x1024x512 .f32) (X : Vec F S512x1024 .bf16)
    (hV : V = wChunk m c k) (hX : X = xB m c) : k0_pay2 V X = eChunk m c k := by
  subst hV hX; rfl

theorem seg_contents (c : Dev nD) (o0 o1 : ℕ) (k0 k1 : Fin 16) (ho0 : o0 = 512 * k0.val) (ho1 : o1 = 512 * k1.val) (h01 : o1 = o0 + 512)
    (inbS : ∀ a, (![0, 0, o0] : Fin 3 → ℕ) a + S1x512x1024.size a ≤ S4x512x8192.size a)
    (inb0 : ∀ a, (![0, 0, o0] : Fin 3 → ℕ) a + S1x512x512.size a ≤ S4x512x8192.size a)
    (inb1 : ∀ a, (![0, 0, o1] : Fin 3 → ℕ) a + S1x512x512.size a ≤ S4x512x8192.size a)
    (f0 : Vec F S4x512x8192 .bf16) (w0 w1 : Vec F S1x512x512 .bf16) (hw0 : w0 = eChunk m c k0) (hw1 : w1 = eChunk m c k1) :
    ∀ i ∈ ((Wc.slice (Rect.unit (s := S4x512x8192) ![0, 0, o0] S1x512x1024.size inbS) (fun _ => rfl)).squeeze
        S512x1024 squeezes_S1x512x1024_S512x1024).view.set,
      View.write (Elt F) (Wc.access (Rect.unit (s := S4x512x8192) ![0, 0, o1] S1x512x512.size inb1))
        (View.write (Elt F) (Wc.access (Rect.unit (s := S4x512x8192) ![0, 0, o0] S1x512x512.size inb0)) f0 w0 Finset.univ)
        w1 Finset.univ i = commF m c i := fun i hi => by
  obtain ⟨h0, hlo, hhi⟩ := mem_seg o0 inbS i hi
  exact seg_two_chunks m c o0 o1 k0 k1 ho0 ho1 h01 inb0 inb1 f0 w0 w1 hw0 hw1 i h0 hlo hhi

theorem sum0_steps (c : Dev nD) :
    sum0 m c = k0_pay3 (k0_pay3 (k0_pay3 (k0_pay3 (k0_pay3 (k0_pay3 (k0_pay3 (k0_pay3 (k0_pay3 (k0_pay3 (k0_pay3 (k0_pay3 (k0_pay3 (k0_pay3 (k0_pay3 (k0_pay3
      (k0_pay26 (F := F)) (wChunk m c 0) (xB m c)) (wChunk m c 1) (xB m c)) (wChunk m c 2) (xB m c)) (wChunk m c 3) (xB m c))
      (wChunk m c 4) (xB m c)) (wChunk m c 5) (xB m c)) (wChunk m c 6) (xB m c)) (wChunk m c 7) (xB m c))
      (wChunk m c 8) (xB m c)) (wChunk m c 9) (xB m c)) (wChunk m c 10) (xB m c)) (wChunk m c 11) (xB m c))
      (wChunk m c 12) (xB m c)) (wChunk m c 13) (xB m c)) (wChunk m c 14) (xB m c)) (wChunk m c 15) (xB m c) := rfl

/-- The carried sum the eight loops leave, each step from what its loads read, is the device's own partial sum. -/
theorem sum0_of_run (c : Dev nD)
    (V0 V1 V2 V3 V4 V5 V6 V7 V8 V9 V10 V11 V12 V13 V14 V15 : Vec F S1x1024x512 .f32) (X0 X1 X2 X3 X4 X5 X6 X7 : Vec F S512x1024 .bf16)
    (hV0 : V0 = wChunk m c 0) (hV1 : V1 = wChunk m c 1) (hV2 : V2 = wChunk m c 2) (hV3 : V3 = wChunk m c 3)
    (hV4 : V4 = wChunk m c 4) (hV5 : V5 = wChunk m c 5) (hV6 : V6 = wChunk m c 6) (hV7 : V7 = wChunk m c 7)
    (hV8 : V8 = wChunk m c 8) (hV9 : V9 = wChunk m c 9) (hV10 : V10 = wChunk m c 10) (hV11 : V11 = wChunk m c 11)
    (hV12 : V12 = wChunk m c 12) (hV13 : V13 = wChunk m c 13) (hV14 : V14 = wChunk m c 14) (hV15 : V15 = wChunk m c 15)
    (hX0 : X0 = xB m c) (hX1 : X1 = xB m c) (hX2 : X2 = xB m c) (hX3 : X3 = xB m c)
    (hX4 : X4 = xB m c) (hX5 : X5 = xB m c) (hX6 : X6 = xB m c) (hX7 : X7 = xB m c) :
    k0_pay24 (k0_pay24 (k0_pay21 (k0_pay21 (k0_pay18 (k0_pay18 (k0_pay15 (k0_pay15 (k0_pay12 (k0_pay12 (k0_pay9 (k0_pay9 (k0_pay6 (k0_pay6 (k0_pay3 (k0_pay3
      (k0_pay26 (F := F)) V0 X0) V1 X0) V2 X1) V3 X1) V4 X2) V5 X2) V6 X3) V7 X3) V8 X4) V9 X4) V10 X5) V11 X5) V12 X6) V13 X6) V14 X7) V15 X7
      = sum0 m c := by
  subst hV0 hV1 hV2 hV3 hV4 hV5 hV6 hV7 hV8 hV9 hV10 hV11 hV12 hV13 hV14 hV15 hX0 hX1 hX2 hX3 hX4 hX5 hX6 hX7
  rw [sum0_steps]
  rfl

end Cert.KernelIdeal.P

end
-- ==== Proof.KI.Sum0.lean ====
/- The eight matmul loops compute the same three functions under different names, so their chain of row sums is the sixteen-fold sum of the device's own tiles. -/
import proofs.«900748_g7700000000000749_dist_arsfmx_v7x_xyz2x2x4_z_t512_d1024_v8192_bf16_1_alg».proof.Proof.KI.Vals

noncomputable section
namespace Cert.KernelIdeal.P
open Cert.KernelIdeal Cert.KernelIdeal.Gen Cert.KernelIdeal.GenP
open Idealize.ShloMosaic Idealize.ShloMosaic.TcCoe Idealize.ShloMosaic.ValueIdx

variable {F : FTy → Type} [FloatOps F]
variable (m : (ℓ : Loc nD τ sig) → Buf (Elt F) ℓ)

theorem sum0_chain (c : Dev nD) :
    (k0_pay24 (k0_pay24 (k0_pay21 (k0_pay21 (k0_pay18 (k0_pay18 (k0_pay15 (k0_pay15 (k0_pay12 (k0_pay12 (k0_pay9 (k0_pay9 (k0_pay6 (k0_pay6 (k0_pay3 (k0_pay3 (k0_pay26 (F := F)) (wChunk m c 0) (xB m c)) (wChunk m c 1) (xB m c)) (wChunk m c 2) (xB m c)) (wChunk m c 3) (xB m c)) (wChunk m c 4) (xB m c)) (wChunk m c 5) (xB m c)) (wChunk m c 6) (xB m c)) (wChunk m c 7) (xB m c)) (wChunk m c 8) (xB m c)) (wChunk m c 9) (xB m c)) (wChunk m c 10) (xB m c)) (wChunk m c 11) (xB m c)) (wChunk m c 12) (xB m c)) (wChunk m c 13) (xB m c)) (wChunk m c 14) (xB m c)) (wChunk m c 15) (xB m c)) = sum0 m c := rfl

end Cert.KernelIdeal.P
end
-- ==== Proof.KI.OutVals.lean ====
/- The output loop: trip j multiplies a quarter slot by the reciprocal of the four partial sums' total and writes block j; sixteen blocks cover the result. -/
import proofs.«900748_g7700000000000749_dist_arsfmx_v7x_xyz2x2x4_z_t512_d1024_v8192_bf16_1_alg».proof.Proof.KI.Sched
import Idealize.ShloMosaic.Lib.Pipeline.FrameBody
import Idealize.ShloMosaic.Lib.Pipeline.Value

set_option maxRecDepth 16384

noncomputable section
namespace Cert.KernelIdeal.P
open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-- A slot read back after a store over the whole slot is the stored payload: both views reach the same elements. -/
theorem stage_rb (off : Fin 3 → ℕ) (inb : ∀ a, off a + S1x512x2048.size a ≤ S2x512x2048.size a) (g : Vec F S2x512x2048 .bf16) (w : Vec F S1x512x2048 .bf16) :
    (ReadAs.same : ReadAs (Elt F) S512x2048 .bf16 S512x2048 .bf16).apply (View.read (Elt F) (((Memref.whole cc0_scratch3 : Memref sig .tc .vmem S2x512x2048 .bf16).slice (Rect.unit (s := S2x512x2048) off S1x512x2048.size inb) (fun _ => rfl)).squeeze S512x2048 squeezes_S1x512x2048_S512x2048).view (View.write (Elt F) ((Memref.whole cc0_scratch3 : Memref sig .tc .vmem S2x512x2048 .bf16).access (Rect.unit (s := S2x512x2048) off S1x512x2048.size inb)) g w Finset.univ))
      = fun x => w (Fin.cons (⟨0, Nat.one_pos⟩ : Fin 1) x) := by
  funext x
  show View.read (Elt F) (((Memref.whole cc0_scratch3 : Memref sig .tc .vmem S2x512x2048 .bf16).slice (Rect.unit (s := S2x512x2048) off S1x512x2048.size inb) (fun _ => rfl)).squeeze S512x2048 squeezes_S1x512x2048_S512x2048).view (View.write (Elt F) ((Memref.whole cc0_scratch3 : Memref sig .tc .vmem S2x512x2048 .bf16).access (Rect.unit (s := S2x512x2048) off S1x512x2048.size inb)) g w Finset.univ) x = _
  rw [View.read_apply]
  have he : ((((Memref.whole cc0_scratch3 : Memref sig .tc .vmem S2x512x2048 .bf16).slice (Rect.unit (s := S2x512x2048) off S1x512x2048.size inb) (fun _ => rfl)).squeeze S512x2048 squeezes_S1x512x2048_S512x2048).view).emb x = (((Memref.whole cc0_scratch3 : Memref sig .tc .vmem S2x512x2048 .bf16).access (Rect.unit (s := S2x512x2048) off S1x512x2048.size inb))).emb (Fin.cons (⟨0, Nat.one_pos⟩ : Fin 1) x) := by
    simp only [Memref.view_squeeze, Memref.view_slice, Memref.view_whole, View.emb_reshape, View.emb_slice, View.emb_whole, Function.Embedding.trans_apply, Equiv.coe_toEmbedding]
    rw [Shape.reshapeEquiv_cons_one]
    rfl
  rw [he, View.write_emb_of_mem _ _ (Finset.mem_univ _)]
  rfl

theorem k0_off71_eq : ∀ (c : Dev nD) (t : Fin k0_t13_loop.trips), k0_off71 c t = ![((zOf c).val + 4 - t.val / 4) % 4, 0, 2048 * (t.val % 4)] := by decide +kernel

theorem outLoad_eq (c : Dev nD) (t : Fin k0_t13_loop.trips) (ht : t.val < 16) :
    View.readAt (Elt F) (Wc : Memref sig .tc .vmem _ _).view (Rect.unit (s := S4x512x8192) (k0_off71 c t) S1x512x2048.size (k0_off71_inb c t)).toLoadRect (commF m c) = outSrc m c ⟨t.val, ht⟩ := by
  funext x
  show commF m c ((Rect.unit (s := S4x512x8192) (k0_off71 c t) S1x512x2048.size (k0_off71_inb c t)).toLoadRect.idx x) = commF m c (ix3 _ _ _)
  congr 1
  funext a
  apply Fin.ext
  have hoff := k0_off71_eq c t
  match a with
  | ⟨0, _⟩ =>
    have h0 : (x 0).val < 1 := (x 0).isLt
    show k0_off71 c t 0 + 1 * (x 0).val = ((zOf c).val + 4 - t.val / 4) % 4
    have h0' : k0_off71 c t 0 = ((zOf c).val + 4 - t.val / 4) % 4 := congrFun hoff 0
    omega
  | ⟨1, _⟩ =>
    show k0_off71 c t 1 + 1 * (x 1).val = (x 1).val
    have h1' : k0_off71 c t 1 = 0 := congrFun hoff 1
    omega
  | ⟨2, _⟩ =>
    show k0_off71 c t 2 + 1 * (x 2).val = 2048 * (t.val % 4) + (x 2).val
    have h2' : k0_off71 c t 2 = 2048 * (t.val % 4) := congrFun hoff 2
    omega

theorem outLoad_eq' (c : Dev nD) (t : Fin k0_t13_loop.trips) (j : Fin 16) (hj : t.val = j.val) :
    View.readAt (Elt F) Wc.view (Rect.unit (s := S4x512x8192) (k0_off71 c t) S1x512x2048.size (k0_off71_inb c t)).toLoadRect (commF m c) = outSrc m c j := by
  have h := outLoad_eq m c t (by rw [hj]; exact j.isLt)
  rw [show (⟨t.val, by rw [hj]; exact j.isLt⟩ : Fin 16) = j from Fin.ext hj] at h
  exact h

def outV (c : Dev nD) (v174 v349 v398 v439 : FVec F S512x1 .f32) : Vec F S512x32768 .bf16 := fun i =>
  k0_pay34 v174 v349 v398 v439 (outSrc m c ⟨(i 1).val / 2048, by have h1 : (i 1).val < 32768 := (i 1).isLt; show _ < 16; omega⟩)
    (ix3 (0 : Fin 1) (i 0) ⟨(i 1).val % 2048, Nat.mod_lt _ (by decide)⟩)

theorem outV_eq_outF (c : Dev nD) : outV m c (sum0 m c) (sumS m c 1) (sumS m c 2) (sumS m c 3) = outF m c := rfl

theorem blk_eq (c : Dev nD) (v174 v349 v398 v439 : FVec F S512x1 .f32) (j : Fin 16) (off : Fin 2 → ℕ) (hoff : off = ![0, 2048 * j.val]) (inb) (x : S512x2048.Idx) :
    k0_pay34 v174 v349 v398 v439 (outSrc m c j) (Fin.cons (⟨0, Nat.one_pos⟩ : Fin 1) x)
      = outV m c v174 v349 v398 v439 ((Rect.unit (s := S512x32768) off S512x2048.size inb).emb x) := by
  subst hoff
  unfold outV
  have hx1 : (x 1).val < 2048 := (x 1).isLt
  have e1 : ((Rect.unit (s := S512x32768) ![0, 2048 * j.val] S512x2048.size inb).emb x 1).val = 2048 * j.val + (x 1).val := by
    show 2048 * j.val + 1 * (x 1).val = _; omega
  have e0 : ((Rect.unit (s := S512x32768) ![0, 2048 * j.val] S512x2048.size inb).emb x 0).val = (x 0).val := by
    show 0 + 1 * (x 0).val = _; omega
  have hJ : (⟨((Rect.unit (s := S512x32768) ![0, 2048 * j.val] S512x2048.size inb).emb x 1).val / 2048, by rw [e1]; have := j.isLt; omega⟩ : Fin 16) = j :=
    Fin.ext (by show ((Rect.unit (s := S512x32768) ![0, 2048 * j.val] S512x2048.size inb).emb x 1).val / 2048 = j.val; rw [e1]; omega)
  rw [hJ]
  congr 1
  funext a
  match a with
  | ⟨0, _⟩ => rfl
  | ⟨1, _⟩ => exact Fin.ext e0.symm
  | ⟨2, _⟩ => exact Fin.ext (by show (x 1).val = ((Rect.unit (s := S512x32768) ![0, 2048 * j.val] S512x2048.size inb).emb x 1).val % 2048; rw [e1]; omega)

/-- An entry lies in the block of 2048 columns its column falls in. -/
theorem mem_blk (y : S512x32768.Idx) (o : ℕ) (inb : ∀ a : Fin 2, (![0, o] : Fin 2 → ℕ) a + S512x2048.size a ≤ S512x32768.size a)
    (hlo : o ≤ (y 1).val) (hhi : (y 1).val < o + 2048) : y ∈ (Rect.unit (s := S512x32768) ![0, o] S512x2048.size inb).set :=
  (Rect.mem_set_unit (s := S512x32768) (off := ![0, o]) (size := S512x2048.size) (inb := inb) (i := y)).2 fun a => match a with
    | ⟨0, _⟩ => ⟨Nat.zero_le _, by show (y 0).val < 0 + 512; have h0 : (y 0).val < 512 := (y 0).isLt; omega⟩
    | ⟨1, _⟩ => ⟨hlo, hhi⟩

/-- Block writes that cover the array, each payload a function `G` at the block's entries, leave the array at `G`. -/
theorem writes_eq (o0 G : Vec F S512x32768 .bf16) (L : List (View.Piece (Elt F) S512x32768 .bf16))
    (hcov : ∀ y, ∃ p ∈ L, y ∈ p.1.set) (hpc : ∀ p ∈ L, ∀ x : p.1.shape.Idx, p.2 x = G (p.1.emb x)) :
    (Memref.whole main_v1 : Memref sig .tc .hbm S512x32768 .bf16).view.writes (Elt F) o0 L = G := by
  have hread := View.read_writes_eq_canon (View.whole main_v1 : View sig .tc .hbm S512x32768 .bf16) o0 _ hcov
  rw [View.read_whole] at hread
  funext y
  exact (congrFun hread y).trans (View.canon_apply_of_pieces G _ hpc y (hcov y))

/-- The product of the block loaded at trip t, stored and read back: block j's payload. -/
theorem pay_eq (c : Dev nD) (off : Fin 3 → ℕ) (inb : ∀ a, off a + S1x512x2048.size a ≤ S2x512x2048.size a) (v174 v349 v398 v439 : FVec F S512x1 .f32) (g : Vec F S2x512x2048 .bf16) (t : Fin k0_t13_loop.trips) (j : Fin 16) (hj : t.val = j.val) :
    (ReadAs.same : ReadAs (Elt F) S512x2048 .bf16 S512x2048 .bf16).apply (View.read (Elt F) (((Memref.whole cc0_scratch3 : Memref sig .tc .vmem S2x512x2048 .bf16).slice (Rect.unit (s := S2x512x2048) off S1x512x2048.size inb) (fun _ => rfl)).squeeze S512x2048 squeezes_S1x512x2048_S512x2048).view (View.write (Elt F) ((Memref.whole cc0_scratch3 : Memref sig .tc .vmem S2x512x2048 .bf16).access (Rect.unit (s := S2x512x2048) off S1x512x2048.size inb)) g (k0_pay34 v174 v349 v398 v439 (View.readAt (Elt F) Wc.view (Rect.unit (s := S4x512x8192) (k0_off71 c t) S1x512x2048.size (k0_off71_inb c t)).toLoadRect (commF m c))) Finset.univ))
      = fun x => k0_pay34 v174 v349 v398 v439 (outSrc m c j) (Fin.cons (⟨0, Nat.one_pos⟩ : Fin 1) x) := by
  rw [stage_rb, outLoad_eq' m c t j hj]

/-- The sixteen block writes, newest first, cover the result array and each stores the specified result at its entries. -/
theorem out_vals_pt (c : Dev nD) (v174 v349 v398 v439 : FVec F S512x1 .f32)
    (h174 : v174 = sum0 m c) (h349 : v349 = sumS m c 1) (h398 : v398 = sumS m c 2) (h439 : v439 = sumS m c 3) (o0 : Vec F S512x32768 .bf16)
    (P0 P1 P2 P3 P4 P5 P6 P7 P8 P9 P10 P11 P12 P13 P14 P15 : S512x2048.Idx → Elt F .bf16)
    (hP0 : P0 = fun x => k0_pay34 v174 v349 v398 v439 (outSrc m c 0) (Fin.cons (⟨0, Nat.one_pos⟩ : Fin 1) x))
    (hP1 : P1 = fun x => k0_pay34 v174 v349 v398 v439 (outSrc m c 1) (Fin.cons (⟨0, Nat.one_pos⟩ : Fin 1) x))
    (hP2 : P2 = fun x => k0_pay34 v174 v349 v398 v439 (outSrc m c 2) (Fin.cons (⟨0, Nat.one_pos⟩ : Fin 1) x))
    (hP3 : P3 = fun x => k0_pay34 v174 v349 v398 v439 (outSrc m c 3) (Fin.cons (⟨0, Nat.one_pos⟩ : Fin 1) x))
    (hP4 : P4 = fun x => k0_pay34 v174 v349 v398 v439 (outSrc m c 4) (Fin.cons (⟨0, Nat.one_pos⟩ : Fin 1) x))
    (hP5 : P5 = fun x => k0_pay34 v174 v349 v398 v439 (outSrc m c 5) (Fin.cons (⟨0, Nat.one_pos⟩ : Fin 1) x))
    (hP6 : P6 = fun x => k0_pay34 v174 v349 v398 v439 (outSrc m c 6) (Fin.cons (⟨0, Nat.one_pos⟩ : Fin 1) x))
    (hP7 : P7 = fun x => k0_pay34 v174 v349 v398 v439 (outSrc m c 7) (Fin.cons (⟨0, Nat.one_pos⟩ : Fin 1) x))
    (hP8 : P8 = fun x => k0_pay34 v174 v349 v398 v439 (outSrc m c 8) (Fin.cons (⟨0, Nat.one_pos⟩ : Fin 1) x))
    (hP9 : P9 = fun x => k0_pay34 v174 v349 v398 v439 (outSrc m c 9) (Fin.cons (⟨0, Nat.one_pos⟩ : Fin 1) x))
    (hP10 : P10 = fun x => k0_pay34 v174 v349 v398 v439 (outSrc m c 10) (Fin.cons (⟨0, Nat.one_pos⟩ : Fin 1) x))
    (hP11 : P11 = fun x => k0_pay34 v174 v349 v398 v439 (outSrc m c 11) (Fin.cons (⟨0, Nat.one_pos⟩ : Fin 1) x))
    (hP12 : P12 = fun x => k0_pay34 v174 v349 v398 v439 (outSrc m c 12) (Fin.cons (⟨0, Nat.one_pos⟩ : Fin 1) x))
    (hP13 : P13 = fun x => k0_pay34 v174 v349 v398 v439 (outSrc m c 13) (Fin.cons (⟨0, Nat.one_pos⟩ : Fin 1) x))
    (hP14 : P14 = fun x => k0_pay34 v174 v349 v398 v439 (outSrc m c 14) (Fin.cons (⟨0, Nat.one_pos⟩ : Fin 1) x))
    (hP15 : P15 = fun x => k0_pay34 v174 v349 v398 v439 (outSrc m c 15) (Fin.cons (⟨0, Nat.one_pos⟩ : Fin 1) x))
    (inb0 : ∀ a : Fin 2, (![0, 0] : Fin 2 → ℕ) a + S512x2048.size a ≤ S512x32768.size a) (inb1 : ∀ a : Fin 2, (![0, 2048] : Fin 2 → ℕ) a + S512x2048.size a ≤ S512x32768.size a) (inb2 : ∀ a : Fin 2, (![0, 4096] : Fin 2 → ℕ) a + S512x2048.size a ≤ S512x32768.size a) (inb3 : ∀ a : Fin 2, (![0, 6144] : Fin 2 → ℕ) a + S512x2048.size a ≤ S512x32768.size a) (inb4 : ∀ a : Fin 2, (![0, 8192] : Fin 2 → ℕ) a + S512x2048.size a ≤ S512x32768.size a) (inb5 : ∀ a : Fin 2, (![0, 10240] : Fin 2 → ℕ) a + S512x2048.size a ≤ S512x32768.size a) (inb6 : ∀ a : Fin 2, (![0, 12288] : Fin 2 → ℕ) a + S512x2048.size a ≤ S512x32768.size a) (inb7 : ∀ a : Fin 2, (![0, 14336] : Fin 2 → ℕ) a + S512x2048.size a ≤ S512x32768.size a) (inb8 : ∀ a : Fin 2, (![0, 16384] : Fin 2 → ℕ) a + S512x2048.size a ≤ S512x32768.size a) (inb9 : ∀ a : Fin 2, (![0, 18432] : Fin 2 → ℕ) a + S512x2048.size a ≤ S512x32768.size a) (inb10 : ∀ a : Fin 2, (![0, 20480] : Fin 2 → ℕ) a + S512x2048.size a ≤ S512x32768.size a) (inb11 : ∀ a : Fin 2, (![0, 22528] : Fin 2 → ℕ) a + S512x2048.size a ≤ S512x32768.size a) (inb12 : ∀ a : Fin 2, (![0, 24576] : Fin 2 → ℕ) a + S512x2048.size a ≤ S512x32768.size a) (inb13 : ∀ a : Fin 2, (![0, 26624] : Fin 2 → ℕ) a + S512x2048.size a ≤ S512x32768.size a) (inb14 : ∀ a : Fin 2, (![0, 28672] : Fin 2 → ℕ) a + S512x2048.size a ≤ S512x32768.size a) (inb15 : ∀ a : Fin 2, (![0, 30720] : Fin 2 → ℕ) a + S512x2048.size a ≤ S512x32768.size a) (i : S512x32768.Idx) :
    (Memref.whole main_v1 : Memref sig .tc .hbm S512x32768 .bf16).view.writes (Elt F) o0
      ([⟨Rect.unit (s := S512x32768) ![0, 30720] S512x2048.size inb15, P15⟩,
       ⟨Rect.unit (s := S512x32768) ![0, 28672] S512x2048.size inb14, P14⟩,
       ⟨Rect.unit (s := S512x32768) ![0, 26624] S512x2048.size inb13, P13⟩,
       ⟨Rect.unit (s := S512x32768) ![0, 24576] S512x2048.size inb12, P12⟩,
       ⟨Rect.unit (s := S512x32768) ![0, 22528] S512x2048.size inb11, P11⟩,
       ⟨Rect.unit (s := S512x32768) ![0, 20480] S512x2048.size inb10, P10⟩,
       ⟨Rect.unit (s := S512x32768) ![0, 18432] S512x2048.size inb9, P9⟩,
       ⟨Rect.unit (s := S512x32768) ![0, 16384] S512x2048.size inb8, P8⟩,
       ⟨Rect.unit (s := S512x32768) ![0, 14336] S512x2048.size inb7, P7⟩,
       ⟨Rect.unit (s := S512x32768) ![0, 12288] S512x2048.size inb6, P6⟩,
       ⟨Rect.unit (s := S512x32768) ![0, 10240] S512x2048.size inb5, P5⟩,
       ⟨Rect.unit (s := S512x32768) ![0, 8192] S512x2048.size inb4, P4⟩,
       ⟨Rect.unit (s := S512x32768) ![0, 6144] S512x2048.size inb3, P3⟩,
       ⟨Rect.unit (s := S512x32768) ![0, 4096] S512x2048.size inb2, P2⟩,
       ⟨Rect.unit (s := S512x32768) ![0, 2048] S512x2048.size inb1, P1⟩,
       ⟨Rect.unit (s := S512x32768) ![0, 0] S512x2048.size inb0, P0⟩] : List (View.Piece (Elt F) S512x32768 .bf16)) i
      = outF m c i := by
  subst hP0 hP1 hP2 hP3 hP4 hP5 hP6 hP7 hP8 hP9 hP10 hP11 hP12 hP13 hP14 hP15 h174 h349 h398 h439
  refine congrFun ((writes_eq o0 (outV m c _ _ _ _) _ (fun y => ?_) (fun p hp => ?_)).trans (outV_eq_outF m c)) i
  · have h1 : (y 1).val < 32768 := (y 1).isLt
    rcases (by omega : (y 1).val < 2048 ∨ (2048 ≤ (y 1).val ∧ (y 1).val < 4096) ∨ (4096 ≤ (y 1).val ∧ (y 1).val < 6144) ∨ (6144 ≤ (y 1).val ∧ (y 1).val < 8192) ∨ (8192 ≤ (y 1).val ∧ (y 1).val < 10240) ∨ (10240 ≤ (y 1).val ∧ (y 1).val < 12288) ∨ (12288 ≤ (y 1).val ∧ (y 1).val < 14336) ∨ (14336 ≤ (y 1).val ∧ (y 1).val < 16384) ∨ (16384 ≤ (y 1).val ∧ (y 1).val < 18432) ∨ (18432 ≤ (y 1).val ∧ (y 1).val < 20480) ∨ (20480 ≤ (y 1).val ∧ (y 1).val < 22528) ∨ (22528 ≤ (y 1).val ∧ (y 1).val < 24576) ∨ (24576 ≤ (y 1).val ∧ (y 1).val < 26624) ∨ (26624 ≤ (y 1).val ∧ (y 1).val < 28672) ∨ (28672 ≤ (y 1).val ∧ (y 1).val < 30720) ∨ 30720 ≤ (y 1).val) with g | g | g | g | g | g | g | g | g | g | g | g | g | g | g | g
    · exact ⟨⟨_, _⟩, by repeat (first | exact List.Mem.head _ | apply List.Mem.tail), mem_blk y 0 inb0 (by omega) (by omega)⟩
    · exact ⟨⟨_, _⟩, by repeat (first | exact List.Mem.head _ | apply List.Mem.tail), mem_blk y 2048 inb1 (by omega) (by omega)⟩
    · exact ⟨⟨_, _⟩, by repeat (first | exact List.Mem.head _ | apply List.Mem.tail), mem_blk y 4096 inb2 (by omega) (by omega)⟩
    · exact ⟨⟨_, _⟩, by repeat (first | exact List.Mem.head _ | apply List.Mem.tail), mem_blk y 6144 inb3 (by omega) (by omega)⟩
    · exact ⟨⟨_, _⟩, by repeat (first | exact List.Mem.head _ | apply List.Mem.tail), mem_blk y 8192 inb4 (by omega) (by omega)⟩
    · exact ⟨⟨_, _⟩, by repeat (first | exact List.Mem.head _ | apply List.Mem.tail), mem_blk y 10240 inb5 (by omega) (by omega)⟩
    · exact ⟨⟨_, _⟩, by repeat (first | exact List.Mem.head _ | apply List.Mem.tail), mem_blk y 12288 inb6 (by omega) (by omega)⟩
    · exact ⟨⟨_, _⟩, by repeat (first | exact List.Mem.head _ | apply List.Mem.tail), mem_blk y 14336 inb7 (by omega) (by omega)⟩
    · exact ⟨⟨_, _⟩, by repeat (first | exact List.Mem.head _ | apply List.Mem.tail), mem_blk y 16384 inb8 (by omega) (by omega)⟩
    · exact ⟨⟨_, _⟩, by repeat (first | exact List.Mem.head _ | apply List.Mem.tail), mem_blk y 18432 inb9 (by omega) (by omega)⟩
    · exact ⟨⟨_, _⟩, by repeat (first | exact List.Mem.head _ | apply List.Mem.tail), mem_blk y 20480 inb10 (by omega) (by omega)⟩
    · exact ⟨⟨_, _⟩, by repeat (first | exact List.Mem.head _ | apply List.Mem.tail), mem_blk y 22528 inb11 (by omega) (by omega)⟩
    · exact ⟨⟨_, _⟩, by repeat (first | exact List.Mem.head _ | apply List.Mem.tail), mem_blk y 24576 inb12 (by omega) (by omega)⟩
    · exact ⟨⟨_, _⟩, by repeat (first | exact List.Mem.head _ | apply List.Mem.tail), mem_blk y 26624 inb13 (by omega) (by omega)⟩
    · exact ⟨⟨_, _⟩, by repeat (first | exact List.Mem.head _ | apply List.Mem.tail), mem_blk y 28672 inb14 (by omega) (by omega)⟩
    · exact ⟨⟨_, _⟩, by repeat (first | exact List.Mem.head _ | apply List.Mem.tail), mem_blk y 30720 inb15 (by omega) (by omega)⟩
  · simp only [List.mem_cons, List.not_mem_nil, or_false] at hp
    rcases hp with rfl | rfl | rfl | rfl | rfl | rfl | rfl | rfl | rfl | rfl | rfl | rfl | rfl | rfl | rfl | rfl
    · exact fun x => blk_eq m c _ _ _ _ 15 ![0, 30720] rfl inb15 x
    · exact fun x => blk_eq m c _ _ _ _ 14 ![0, 28672] rfl inb14 x
    · exact fun x => blk_eq m c _ _ _ _ 13 ![0, 26624] rfl inb13 x
    · exact fun x => blk_eq m c _ _ _ _ 12 ![0, 24576] rfl inb12 x
    · exact fun x => blk_eq m c _ _ _ _ 11 ![0, 22528] rfl inb11 x
    · exact fun x => blk_eq m c _ _ _ _ 10 ![0, 20480] rfl inb10 x
    · exact fun x => blk_eq m c _ _ _ _ 9 ![0, 18432] rfl inb9 x
    · exact fun x => blk_eq m c _ _ _ _ 8 ![0, 16384] rfl inb8 x
    · exact fun x => blk_eq m c _ _ _ _ 7 ![0, 14336] rfl inb7 x
    · exact fun x => blk_eq m c _ _ _ _ 6 ![0, 12288] rfl inb6 x
    · exact fun x => blk_eq m c _ _ _ _ 5 ![0, 10240] rfl inb5 x
    · exact fun x => blk_eq m c _ _ _ _ 4 ![0, 8192] rfl inb4 x
    · exact fun x => blk_eq m c _ _ _ _ 3 ![0, 6144] rfl inb3 x
    · exact fun x => blk_eq m c _ _ _ _ 2 ![0, 4096] rfl inb2 x
    · exact fun x => blk_eq m c _ _ _ _ 1 ![0, 2048] rfl inb1 x
    · exact fun x => blk_eq m c _ _ _ _ 0 ![0, 0] rfl inb0 x

end Cert.KernelIdeal.P
end
-- ==== Proof.KI.Body.lean ====
/- The kernel's body on one device, stepped from the opened launch state to the state the epilogue folds back: handshake, eight matmul loops each followed by a copy up the ring, the forwarding hops, the row sums, the sixteen result blocks. -/
import proofs.«900748_g7700000000000749_dist_arsfmx_v7x_xyz2x2x4_z_t512_d1024_v8192_bf16_1_alg».proof.Proof.KI.BodyFrame
import proofs.«900748_g7700000000000749_dist_arsfmx_v7x_xyz2x2x4_z_t512_d1024_v8192_bf16_1_alg».proof.Proof.KI.Sends
import proofs.«900748_g7700000000000749_dist_arsfmx_v7x_xyz2x2x4_z_t512_d1024_v8192_bf16_1_alg».proof.Proof.KI.Arms
import proofs.«900748_g7700000000000749_dist_arsfmx_v7x_xyz2x2x4_z_t512_d1024_v8192_bf16_1_alg».proof.Proof.KI.Supp
import proofs.«900748_g7700000000000749_dist_arsfmx_v7x_xyz2x2x4_z_t512_d1024_v8192_bf16_1_alg».proof.Proof.KI.Slot1
import proofs.«900748_g7700000000000749_dist_arsfmx_v7x_xyz2x2x4_z_t512_d1024_v8192_bf16_1_alg».proof.Proof.KI.Slot2
import proofs.«900748_g7700000000000749_dist_arsfmx_v7x_xyz2x2x4_z_t512_d1024_v8192_bf16_1_alg».proof.Proof.KI.Chunks
import proofs.«900748_g7700000000000749_dist_arsfmx_v7x_xyz2x2x4_z_t512_d1024_v8192_bf16_1_alg».proof.Proof.KI.CommJoin
import proofs.«900748_g7700000000000749_dist_arsfmx_v7x_xyz2x2x4_z_t512_d1024_v8192_bf16_1_alg».proof.Proof.KI.SegVals
import proofs.«900748_g7700000000000749_dist_arsfmx_v7x_xyz2x2x4_z_t512_d1024_v8192_bf16_1_alg».proof.Proof.KI.Sum0
import proofs.«900748_g7700000000000749_dist_arsfmx_v7x_xyz2x2x4_z_t512_d1024_v8192_bf16_1_alg».proof.Proof.KI.OutVals

set_option maxRecDepth 16384

noncomputable section
namespace Cert.KernelIdeal.P
open Cert.KernelIdeal Cert.KernelIdeal.Gen Cert.KernelIdeal.GenP
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq
attribute [local sl_rounds] duties_bar duties_send duties_recv amount_bar amount_send amount_recv expect_bar expect_send expect_recv
  payload_bar_true_prv payload_bar_false payload_send payload_recv

set_option maxHeartbeats 8000000 in

theorem hmid (c : Dev nD) (K : Dev nD × Fin 23 → ℕ) (W : Waits sig Unit) (f0 : Vec F S4x512x8192 .bf16) (f1 : Vec F S512x1024 .bf16)
    (f2 : Vec F S2x1024x512 .f32) (f3 : Vec F S2x512x2048 .bf16) (Kt : PUnit → sProp 𝕄) :
    iprop(midPre m c K W f0 f1 f2 f3 ∗ (∀ W', midPost m c K W' -∗ Kt ⟨⟩))
      ⊢ wp frame (wpE (defs₀ (F := F)) 𝒱₀ c none) Set.univ (bodyAt0 (F := F) t0_0) Kt := by
  unfold bodyAt0
  simp only [cc0_body_eq_skeleton]; unfold cc0_body_skel
  unfold midPre
  iintro ⟨⟨#HIb, #HIbn, #HIbp, #Hrn, #Hrp, Htn, Htp, Hat, Hcr, #Hlev, HO, Hpay, Hx, Hw, Hout, Hc0, Hc1, Hc2, Hc3, Hc4, Hc5, Hc6, Hc7, Hxb, Hws0, Hws1, Hst0, Hst1, #HIs0, #HIr0, #HIn0, #Hrs0, #Hrr0, Hts0, Htr0, Has0, Har0, Hcr0, #HIs1, #HIr1, #HIn1, #Hrs1, #Hrr1, Hts1, Htr1, Has1, Har1, Hcr1, #HIs2, #HIr2, #HIn2, #Hrs2, #Hrr2, Hts2, Htr2, Has2, Har2, Hcr2, #HIs3, #HIr3, #HIn3, #Hrs3, #Hrr3, Hts3, Htr3, Has3, Har3, Hcr3, #HIs4, #HIr4, #HIn4, #Hrs4, #Hrr4, Hts4, Htr4, Has4, Har4, Hcr4, #HIs5, #HIr5, #HIn5, #Hrs5, #Hrr5, Hts5, Htr5, Has5, Har5, Hcr5, #HIs6, #HIr6, #HIn6, #Hrs6, #Hrr6, Hts6, Htr6, Has6, Har6, Hcr6, #HIs7, #HIr7, #HIn7, #Hrs7, #Hrr7, Hts7, Htr7, Has7, Har7, Hcr7, #HIs8, #HIr8, #HIn8, #Hrs8, #Hrr8, Hts8, Htr8, Has8, Har8, Hcr8, #HIs9, #HIr9, #HIn9, #Hrs9, #Hrr9, Hts9, Htr9, Has9, Har9, Hcr9, #HIs10, #HIr10, #HIn10, #Hrs10, #Hrr10, Hts10, Htr10, Has10, Har10, Hcr10, Hz60, Hz61, Hz70, Hz71⟩, Hk⟩
  have hmwL : ∀ (sm : SemLoc sig) (O : CellTallies nD τ sig Unit), lv ((c : Thread nD τ), sm) () = 0 → Supp (Paid c) O → (levAts L lv : sProp 𝕄) ⊢ MayWait (c : Thread nD τ) sm () O :=
    fun sm O h hO => mayWait_low c sm h O hO
  have hmwB : ∀ (O : CellTallies nD τ sig Unit), Supp (PaidRecv c) O → (levAts L lv : sProp 𝕄) ⊢ MayWait (c : Thread nD τ) (.reg barS) () O := fun O hO => mayWait_bar c O hO
  have hmwR : ∀ (q : Fin 11) (O : CellTallies nD τ sig Unit), Supp (PaidRecvAbove c (lvq q)) O → (levAts L lv : sProp 𝕄) ⊢ MayWait (c : Thread nD τ) (.dma (rS q)) () O :=
    fun q O hO => mayWait_recv c q O hO
  set_option sl_exec.unrollTrips 16 in set_option sl_exec.dischHeartbeats 100000 in sl_exec (disch := first | (supp_close; done) | (rw [lv_eq]; decide) | decide | simp only [dev1_eq, dev2_eq, dev3_eq, dev4_eq, dev5_eq, dev6_eq, dev7_eq, dev8_eq, dev9_eq, dev10_eq, dev11_eq, dev12_eq, dev13_eq])

  ihave Hp := (Entails.of_eq (pay_bar m c)) $$ Hat_pay1
  icases Hp with ⟨-, Hp⟩
  ihave Hp := (Entails.of_eq (barPay_open (F := F) (nxt c))) $$ Hp
  icases Hp with ⟨⟨⟨%fn0, Hd0⟩, ⟨%fn1, Hd1⟩, ⟨%fn2, Hd2⟩, ⟨%fn3, Hd3⟩, ⟨%fn4, Hd4⟩, ⟨%fn5, Hd5⟩, ⟨%fn6, Hd6⟩, ⟨%fn7, Hd7⟩, ⟨%fn8, Hd8⟩, ⟨%fn9, Hd9⟩, ⟨%fn10, Hd10⟩⟩,
    ⟨#Hn0, #Hn1, #Hn2, #Hn3, #Hn4, #Hn5, #Hn6, #Hn7, #Hn8, #Hn9, #Hn10⟩⟩

  ihave Hc0 := (Entails.of_eq (pointsTo_congr (seg_contents m c 0 512 0 1 rfl rfl rfl _ _ _ f0 _ _
    (chunk_of_loads m c 0 _ _ (wload m c 0 0 0 rfl _ _ _ _ _ _) (xload m c _))
    (chunk_of_loads m c 1 _ _ (wload m c 1 512 1 rfl _ _ _ _ _ _) (xload m c _))))) $$ Hc0
  iapply (wp_send m 0 srcM0 dstM0 fullShare (K (c, kS 0)) (K (nxt c, kR 0)) c (commF m c) fn0 (dstPts (nxt c) fn0 0) (BI.Entails.refl _) rfl (BI.Entails.refl _) (landing_0 m c fn0) _ _) $$ [Hc0 Hd0 HO Hts0 Htr0]
  · isplitr; · iexact HIs0
    isplitr; · iexact HIn0
    isplitl [Hc0]; · iexact Hc0
    isplitl [Hd0]; · iexact Hd0
    isplitl [HO]; · iexact HO
    isplitl [Hts0]; · iexact Hts0
    isplitr; · iexact Hrs0
    isplitl [Htr0]; · iexact Htr0
    iexact Hn0
  iintro ⟨HcS0, HO⟩
  set_option sl_exec.unrollTrips 16 in set_option sl_exec.dischHeartbeats 100000 in sl_exec (disch := first | (supp_close; done) | (rw [lv_eq]; decide) | decide | simp only [dev1_eq, dev2_eq, dev3_eq, dev4_eq, dev5_eq, dev6_eq, dev7_eq, dev8_eq, dev9_eq, dev10_eq, dev11_eq, dev12_eq, dev13_eq])

  ihave Hc1 := (Entails.of_eq (pointsTo_congr (seg_contents m c 1024 1536 2 3 rfl rfl rfl _ _ _ f0 _ _
    (chunk_of_loads m c 2 _ _ (wload m c 0 1024 2 rfl _ _ _ _ _ _) (xload m c _))
    (chunk_of_loads m c 3 _ _ (wload m c 1 1536 3 rfl _ _ _ _ _ _) (xload m c _))))) $$ Hc1
  iapply (wp_send m 1 srcM1 dstM1 fullShare (K (c, kS 1)) (K (nxt c, kR 1)) c (commF m c) fn1 (dstPts (nxt c) fn1 1) (BI.Entails.refl _) rfl (BI.Entails.refl _) (landing_1 m c fn1) _ _) $$ [Hc1 Hd1 HO Hts1 Htr1]
  · isplitr; · iexact HIs1
    isplitr; · iexact HIn1
    isplitl [Hc1]; · iexact Hc1
    isplitl [Hd1]; · iexact Hd1
    isplitl [HO]; · iexact HO
    isplitl [Hts1]; · iexact Hts1
    isplitr; · iexact Hrs1
    isplitl [Htr1]; · iexact Htr1
    iexact Hn1
  iintro ⟨HcS1, HO⟩
  set_option sl_exec.unrollTrips 16 in set_option sl_exec.dischHeartbeats 100000 in sl_exec (disch := first | (supp_close; done) | (rw [lv_eq]; decide) | decide | simp only [dev1_eq, dev2_eq, dev3_eq, dev4_eq, dev5_eq, dev6_eq, dev7_eq, dev8_eq, dev9_eq, dev10_eq, dev11_eq, dev12_eq, dev13_eq])

  ihave Hc2 := (Entails.of_eq (pointsTo_congr (seg_contents m c 2048 2560 4 5 rfl rfl rfl _ _ _ f0 _ _
    (chunk_of_loads m c 4 _ _ (wload m c 0 2048 4 rfl _ _ _ _ _ _) (xload m c _))
    (chunk_of_loads m c 5 _ _ (wload m c 1 2560 5 rfl _ _ _ _ _ _) (xload m c _))))) $$ Hc2
  iapply (wp_send m 2 srcM2 dstM2 fullShare (K (c, kS 2)) (K (nxt c, kR 2)) c (commF m c) fn2 (dstPts (nxt c) fn2 2) (BI.Entails.refl _) rfl (BI.Entails.refl _) (landing_2 m c fn2) _ _) $$ [Hc2 Hd2 HO Hts2 Htr2]
  · isplitr; · iexact HIs2
    isplitr; · iexact HIn2
    isplitl [Hc2]; · iexact Hc2
    isplitl [Hd2]; · iexact Hd2
    isplitl [HO]; · iexact HO
    isplitl [Hts2]; · iexact Hts2
    isplitr; · iexact Hrs2
    isplitl [Htr2]; · iexact Htr2
    iexact Hn2
  iintro ⟨HcS2, HO⟩
  set_option sl_exec.unrollTrips 16 in set_option sl_exec.dischHeartbeats 100000 in sl_exec (disch := first | (supp_close; done) | (rw [lv_eq]; decide) | decide | simp only [dev1_eq, dev2_eq, dev3_eq, dev4_eq, dev5_eq, dev6_eq, dev7_eq, dev8_eq, dev9_eq, dev10_eq, dev11_eq, dev12_eq, dev13_eq])

  ihave Hc3 := (Entails.of_eq (pointsTo_congr (seg_contents m c 3072 3584 6 7 rfl rfl rfl _ _ _ f0 _ _
    (chunk_of_loads m c 6 _ _ (wload m c 0 3072 6 rfl _ _ _ _ _ _) (xload m c _))
    (chunk_of_loads m c 7 _ _ (wload m c 1 3584 7 rfl _ _ _ _ _ _) (xload m c _))))) $$ Hc3
  iapply (wp_send m 3 srcM3 dstM3 fullShare (K (c, kS 3)) (K (nxt c, kR 3)) c (commF m c) fn3 (dstPts (nxt c) fn3 3) (BI.Entails.refl _) rfl (BI.Entails.refl _) (landing_3 m c fn3) _ _) $$ [Hc3 Hd3 HO Hts3 Htr3]
  · isplitr; · iexact HIs3
    isplitr; · iexact HIn3
    isplitl [Hc3]; · iexact Hc3
    isplitl [Hd3]; · iexact Hd3
    isplitl [HO]; · iexact HO
    isplitl [Hts3]; · iexact Hts3
    isplitr; · iexact Hrs3
    isplitl [Htr3]; · iexact Htr3
    iexact Hn3
  iintro ⟨HcS3, HO⟩
  set_option sl_exec.unrollTrips 16 in set_option sl_exec.dischHeartbeats 100000 in sl_exec (disch := first | (supp_close; done) | (rw [lv_eq]; decide) | decide | simp only [dev1_eq, dev2_eq, dev3_eq, dev4_eq, dev5_eq, dev6_eq, dev7_eq, dev8_eq, dev9_eq, dev10_eq, dev11_eq, dev12_eq, dev13_eq])

  ihave Hc4 := (Entails.of_eq (pointsTo_congr (seg_contents m c 4096 4608 8 9 rfl rfl rfl _ _ _ f0 _ _
    (chunk_of_loads m c 8 _ _ (wload m c 0 4096 8 rfl _ _ _ _ _ _) (xload m c _))
    (chunk_of_loads m c 9 _ _ (wload m c 1 4608 9 rfl _ _ _ _ _ _) (xload m c _))))) $$ Hc4
  iapply (wp_send m 4 srcM4 dstM4 fullShare (K (c, kS 4)) (K (nxt c, kR 4)) c (commF m c) fn4 (dstPts (nxt c) fn4 4) (BI.Entails.refl _) rfl (BI.Entails.refl _) (landing_4 m c fn4) _ _) $$ [Hc4 Hd4 HO Hts4 Htr4]
  · isplitr; · iexact HIs4
    isplitr; · iexact HIn4
    isplitl [Hc4]; · iexact Hc4
    isplitl [Hd4]; · iexact Hd4
    isplitl [HO]; · iexact HO
    isplitl [Hts4]; · iexact Hts4
    isplitr; · iexact Hrs4
    isplitl [Htr4]; · iexact Htr4
    iexact Hn4
  iintro ⟨HcS4, HO⟩
  set_option sl_exec.unrollTrips 16 in set_option sl_exec.dischHeartbeats 100000 in sl_exec (disch := first | (supp_close; done) | (rw [lv_eq]; decide) | decide | simp only [dev1_eq, dev2_eq, dev3_eq, dev4_eq, dev5_eq, dev6_eq, dev7_eq, dev8_eq, dev9_eq, dev10_eq, dev11_eq, dev12_eq, dev13_eq])

  ihave Hc5 := (Entails.of_eq (pointsTo_congr (seg_contents m c 5120 5632 10 11 rfl rfl rfl _ _ _ f0 _ _
    (chunk_of_loads m c 10 _ _ (wload m c 0 5120 10 rfl _ _ _ _ _ _) (xload m c _))
    (chunk_of_loads m c 11 _ _ (wload m c 1 5632 11 rfl _ _ _ _ _ _) (xload m c _))))) $$ Hc5
  iapply (wp_send m 5 srcM5 dstM5 fullShare (K (c, kS 5)) (K (nxt c, kR 5)) c (commF m c) fn5 (dstPts (nxt c) fn5 5) (BI.Entails.refl _) rfl (BI.Entails.refl _) (landing_5 m c fn5) _ _) $$ [Hc5 Hd5 HO Hts5 Htr5]
  · isplitr; · iexact HIs5
    isplitr; · iexact HIn5
    isplitl [Hc5]; · iexact Hc5
    isplitl [Hd5]; · iexact Hd5
    isplitl [HO]; · iexact HO
    isplitl [Hts5]; · iexact Hts5
    isplitr; · iexact Hrs5
    isplitl [Htr5]; · iexact Htr5
    iexact Hn5
  iintro ⟨HcS5, HO⟩
  set_option sl_exec.unrollTrips 16 in set_option sl_exec.dischHeartbeats 100000 in sl_exec (disch := first | (supp_close; done) | (rw [lv_eq]; decide) | decide | simp only [dev1_eq, dev2_eq, dev3_eq, dev4_eq, dev5_eq, dev6_eq, dev7_eq, dev8_eq, dev9_eq, dev10_eq, dev11_eq, dev12_eq, dev13_eq])

  ihave Hc6 := (Entails.of_eq (pointsTo_congr (seg_contents m c 6144 6656 12 13 rfl rfl rfl _ _ _ f0 _ _
    (chunk_of_loads m c 12 _ _ (wload m c 0 6144 12 rfl _ _ _ _ _ _) (xload m c _))
    (chunk_of_loads m c 13 _ _ (wload m c 1 6656 13 rfl _ _ _ _ _ _) (xload m c _))))) $$ Hc6
  iapply (wp_send m 6 srcM6 dstM6 fullShare (K (c, kS 6)) (K (nxt c, kR 6)) c (commF m c) fn6 (dstPts (nxt c) fn6 6) (BI.Entails.refl _) rfl (BI.Entails.refl _) (landing_6 m c fn6) _ _) $$ [Hc6 Hd6 HO Hts6 Htr6]
  · isplitr; · iexact HIs6
    isplitr; · iexact HIn6
    isplitl [Hc6]; · iexact Hc6
    isplitl [Hd6]; · iexact Hd6
    isplitl [HO]; · iexact HO
    isplitl [Hts6]; · iexact Hts6
    isplitr; · iexact Hrs6
    isplitl [Htr6]; · iexact Htr6
    iexact Hn6
  iintro ⟨HcS6, HO⟩
  set_option sl_exec.unrollTrips 16 in set_option sl_exec.dischHeartbeats 100000 in sl_exec (disch := first | (supp_close; done) | (rw [lv_eq]; decide) | decide | simp only [dev1_eq, dev2_eq, dev3_eq, dev4_eq, dev5_eq, dev6_eq, dev7_eq, dev8_eq, dev9_eq, dev10_eq, dev11_eq, dev12_eq, dev13_eq])

  ihave Hc7 := (Entails.of_eq (pointsTo_congr (seg_contents m c 7168 7680 14 15 rfl rfl rfl _ _ _ f0 _ _
    (chunk_of_loads m c 14 _ _ (wload m c 0 7168 14 rfl _ _ _ _ _ _) (xload m c _))
    (chunk_of_loads m c 15 _ _ (wload m c 1 7680 15 rfl _ _ _ _ _ _) (xload m c _))))) $$ Hc7
  iapply (wp_send m 7 srcM7 dstM7 fullShare (K (c, kS 7)) (K (nxt c, kR 7)) c (commF m c) fn7 (dstPts (nxt c) fn7 7) (BI.Entails.refl _) rfl (BI.Entails.refl _) (landing_7 m c fn7) _ _) $$ [Hc7 Hd7 HO Hts7 Htr7]
  · isplitr; · iexact HIs7
    isplitr; · iexact HIn7
    isplitl [Hc7]; · iexact Hc7
    isplitl [Hd7]; · iexact Hd7
    isplitl [HO]; · iexact HO
    isplitl [Hts7]; · iexact Hts7
    isplitr; · iexact Hrs7
    isplitl [Htr7]; · iexact Htr7
    iexact Hn7
  iintro ⟨HcS7, HO⟩
  set_option sl_exec.unrollTrips 16 in set_option sl_exec.dischHeartbeats 100000 in sl_exec (disch := first | (supp_close; done) | (rw [lv_eq]; decide) | decide | simp only [dev1_eq, dev2_eq, dev3_eq, dev4_eq, dev5_eq, dev6_eq, dev7_eq, dev8_eq, dev9_eq, dev10_eq, dev11_eq, dev12_eq, dev13_eq])

  ihave Hc0 := (Entails.of_eq (srcPts_0 (F := F) c (commF m c))) $$ Has0_pay1
  ihave Hc1 := (Entails.of_eq (srcPts_1 (F := F) c (commF m c))) $$ Has1_pay1
  ihave Hc2 := (Entails.of_eq (srcPts_2 (F := F) c (commF m c))) $$ Has2_pay1
  ihave Hc3 := (Entails.of_eq (srcPts_3 (F := F) c (commF m c))) $$ Has3_pay1
  ihave Hc4 := (Entails.of_eq (srcPts_4 (F := F) c (commF m c))) $$ Has4_pay1
  ihave Hc5 := (Entails.of_eq (srcPts_5 (F := F) c (commF m c))) $$ Has5_pay1
  ihave Hc6 := (Entails.of_eq (srcPts_6 (F := F) c (commF m c))) $$ Has6_pay1
  ihave Hc7 := (Entails.of_eq (srcPts_7 (F := F) c (commF m c))) $$ Has7_pay1

  ihave Hp0 := (Entails.of_eq (dstPts_0 (F := F) c (commF m c))) $$ Har0_pay1
  ihave Hp1 := (Entails.of_eq (dstPts_1 (F := F) c (commF m c))) $$ Har1_pay1
  ihave Hp2 := (Entails.of_eq (dstPts_2 (F := F) c (commF m c))) $$ Har2_pay1
  ihave Hp3 := (Entails.of_eq (dstPts_3 (F := F) c (commF m c))) $$ Har3_pay1
  ihave Hp4 := (Entails.of_eq (dstPts_4 (F := F) c (commF m c))) $$ Har4_pay1
  ihave Hp5 := (Entails.of_eq (dstPts_5 (F := F) c (commF m c))) $$ Har5_pay1
  ihave Hp6 := (Entails.of_eq (dstPts_6 (F := F) c (commF m c))) $$ Har6_pay1
  ihave Hp7 := (Entails.of_eq (dstPts_7 (F := F) c (commF m c))) $$ Har7_pay1
  ihave Hs1 := (slot1_join (F := F) c fullShare (commF m c)).1 $$ [Hp0 Hp1 Hp2 Hp3 Hp4 Hp5 Hp6 Hp7]
  · iframe

  ihave Hs1 := (pointsTo_share (PosShare.mem_left_op_right fullShare)).1 $$ Hs1
  icases Hs1 with ⟨Hs1L, Hs1R⟩

  iapply (wp_send m 8 srcM8 dstM8 fullShare.left (K (c, kS 8)) (K (nxt c, kR 8)) c (commF m c) fn8 (dstPts (nxt c) fn8 8) (BI.Entails.refl _) rfl (BI.Entails.refl _) (landing_8 m c fn8) _ _) $$ [Hs1L Hd8 HO Hts8 Htr8]
  · isplitr; · iexact HIs8
    isplitr; · iexact HIn8
    isplitl [Hs1L]; · iexact Hs1L
    isplitl [Hd8]; · iexact Hd8
    isplitl [HO]; · iexact HO
    isplitl [Hts8]; · iexact Hts8
    isplitr; · iexact Hrs8
    isplitl [Htr8]; · iexact Htr8
    iexact Hn8
  iintro ⟨Hcs8, HO⟩
  set_option sl_exec.unrollTrips 16 in set_option sl_exec.dischHeartbeats 100000 in sl_exec (disch := first | (supp_close; done) | (rw [lv_eq]; decide) | decide | simp only [dev1_eq, dev2_eq, dev3_eq, dev4_eq, dev5_eq, dev6_eq, dev7_eq, dev8_eq, dev9_eq, dev10_eq, dev11_eq, dev12_eq, dev13_eq])

  ihave Has8_pay1 := (Entails.of_eq (srcPts_8 (F := F) c (commF m c))) $$ Has8_pay1
  ihave Hs1 := (pointsTo_share (PosShare.mem_left_op_right fullShare)).2 $$ [Has8_pay1 Hs1R]
  · isplitl [Has8_pay1] <;> iassumption

  ihave Har8_pay1 := (Entails.of_eq (dstPts_8 (F := F) c (commF m c))) $$ Har8_pay1
  ihave Hs2 := (slot2_split (F := F) c fullShare (commF m c)).1 $$ Har8_pay1
  icases Hs2 with ⟨Hs2a, Hs2b⟩
  ihave Hs2a := (pointsTo_share (PosShare.mem_left_op_right fullShare)).1 $$ Hs2a
  icases Hs2a with ⟨Hs2aL, Hs2aR⟩
  ihave Hs2b := (pointsTo_share (PosShare.mem_left_op_right fullShare)).1 $$ Hs2b
  icases Hs2b with ⟨Hs2bL, Hs2bR⟩

  iapply (wp_send m 9 srcM9 dstM9 fullShare.left (K (c, kS 9)) (K (nxt c, kR 9)) c (commF m c) fn9 (dstPts (nxt c) fn9 9) (BI.Entails.refl _) rfl (BI.Entails.refl _) (landing_9 m c fn9) _ _) $$ [Hs2aL Hd9 HO Hts9 Htr9]
  · isplitr; · iexact HIs9
    isplitr; · iexact HIn9
    isplitl [Hs2aL]; · iexact Hs2aL
    isplitl [Hd9]; · iexact Hd9
    isplitl [HO]; · iexact HO
    isplitl [Hts9]; · iexact Hts9
    isplitr; · iexact Hrs9
    isplitl [Htr9]; · iexact Htr9
    iexact Hn9
  iintro ⟨Hcs9, HO⟩
  set_option sl_exec.unrollTrips 16 in set_option sl_exec.dischHeartbeats 100000 in sl_exec (disch := first | (supp_close; done) | (rw [lv_eq]; decide) | decide | simp only [dev1_eq, dev2_eq, dev3_eq, dev4_eq, dev5_eq, dev6_eq, dev7_eq, dev8_eq, dev9_eq, dev10_eq, dev11_eq, dev12_eq, dev13_eq])

  ihave HO := (owes_zero_add (F := F) _ _ _) $$ HO
  iapply (wp_send m 10 srcM10 dstM10 fullShare.left (K (c, kS 10)) (K (nxt c, kR 10)) c (commF m c) fn10 (dstPts (nxt c) fn10 10) (BI.Entails.refl _) rfl (BI.Entails.refl _) (landing_10 m c fn10) _ _) $$ [Hs2bL Hd10 HO Hts10 Htr10]
  · isplitr; · iexact HIs10
    isplitr; · iexact HIn10
    isplitl [Hs2bL]; · iexact Hs2bL
    isplitl [Hd10]; · iexact Hd10
    isplitl [HO]; · iexact HO
    isplitl [Hts10]; · iexact Hts10
    isplitr; · iexact Hrs10
    isplitl [Htr10]; · iexact Htr10
    iexact Hn10
  iintro ⟨Hcs10, HO⟩
  set_option sl_exec.unrollTrips 16 in set_option sl_exec.dischHeartbeats 100000 in sl_exec (disch := first | (supp_close; done) | (rw [lv_eq]; decide) | decide | simp only [dev1_eq, dev2_eq, dev3_eq, dev4_eq, dev5_eq, dev6_eq, dev7_eq, dev8_eq, dev9_eq, dev10_eq, dev11_eq, dev12_eq, dev13_eq])

  ihave Has9_pay1 := (Entails.of_eq (srcPts_9 (F := F) c (commF m c))) $$ Has9_pay1
  ihave Har9_pay1 := (Entails.of_eq (dstPts_9 (F := F) c (commF m c))) $$ Har9_pay1
  ihave Hs2a := (pointsTo_share (PosShare.mem_left_op_right fullShare)).2 $$ [Has9_pay1 Hs2aR]
  · isplitl [Has9_pay1] <;> iassumption
  set_option sl_exec.unrollTrips 16 in set_option sl_exec.dischHeartbeats 100000 in sl_exec (disch := first | (supp_close; done) | (rw [lv_eq]; decide) | decide | simp only [dev1_eq, dev2_eq, dev3_eq, dev4_eq, dev5_eq, dev6_eq, dev7_eq, dev8_eq, dev9_eq, dev10_eq, dev11_eq, dev12_eq, dev13_eq])
  ihave Hcomm := (comm_rejoin c (commF m c)) $$ [Hc0 Hc1 Hc2 Hc3 Hc4 Hc5 Hc6 Hc7 Hs1 Hs2a Hs2bR Har9_pay1 Has10_pay1 Har10_pay1]
  · iframe
  set_option sl_exec.unrollTrips 16 in set_option sl_exec.dischHeartbeats 100000 in set_option sl_exec.dmaWindow true in set_option sl_exec.dmaWindowSet true in set_option sl_exec.dmaWindowLent true in sl_exec (disch := first | (supp_close; done) | (rw [lv_eq]; decide) | decide | simp only [dev1_eq, dev2_eq, dev3_eq, dev4_eq, dev5_eq, dev6_eq, dev7_eq, dev8_eq, dev9_eq, dev10_eq, dev11_eq, dev12_eq, dev13_eq])

  ihave Hout := (Entails.of_eq (pointsTo_congr (g := outF m c) (by
      intro i hi; sl_unfold_run_names
      refine out_vals_pt m c _ _ _ _ ?h174 ?h349 ?h398 ?h439 _ _ _ _ _ _ _ _ _ _ _ _ _ _ _ _ _
        (pay_eq m c _ _ _ _ _ _ _ _ 0 rfl) (pay_eq m c _ _ _ _ _ _ _ _ 1 rfl) (pay_eq m c _ _ _ _ _ _ _ _ 2 rfl) (pay_eq m c _ _ _ _ _ _ _ _ 3 rfl) (pay_eq m c _ _ _ _ _ _ _ _ 4 rfl) (pay_eq m c _ _ _ _ _ _ _ _ 5 rfl) (pay_eq m c _ _ _ _ _ _ _ _ 6 rfl) (pay_eq m c _ _ _ _ _ _ _ _ 7 rfl) (pay_eq m c _ _ _ _ _ _ _ _ 8 rfl) (pay_eq m c _ _ _ _ _ _ _ _ 9 rfl) (pay_eq m c _ _ _ _ _ _ _ _ 10 rfl) (pay_eq m c _ _ _ _ _ _ _ _ 11 rfl) (pay_eq m c _ _ _ _ _ _ _ _ 12 rfl) (pay_eq m c _ _ _ _ _ _ _ _ 13 rfl) (pay_eq m c _ _ _ _ _ _ _ _ 14 rfl) (pay_eq m c _ _ _ _ _ _ _ _ 15 rfl)
        _ _ _ _ _ _ _ _ _ _ _ _ _ _ _ _ i
      case h174 => exact sum0_of_run m c _ _ _ _ _ _ _ _ _ _ _ _ _ _ _ _ _ _ _ _ _ _ _ _ (wload m c 0 0 0 rfl _ _ _ _ _ _) (wload m c 1 512 1 rfl _ _ _ _ _ _) (wload m c 0 1024 2 rfl _ _ _ _ _ _) (wload m c 1 1536 3 rfl _ _ _ _ _ _) (wload m c 0 2048 4 rfl _ _ _ _ _ _) (wload m c 1 2560 5 rfl _ _ _ _ _ _) (wload m c 0 3072 6 rfl _ _ _ _ _ _) (wload m c 1 3584 7 rfl _ _ _ _ _ _) (wload m c 0 4096 8 rfl _ _ _ _ _ _) (wload m c 1 4608 9 rfl _ _ _ _ _ _) (wload m c 0 5120 10 rfl _ _ _ _ _ _) (wload m c 1 5632 11 rfl _ _ _ _ _ _) (wload m c 0 6144 12 rfl _ _ _ _ _ _) (wload m c 1 6656 13 rfl _ _ _ _ _ _) (wload m c 0 7168 14 rfl _ _ _ _ _ _) (wload m c 1 7680 15 rfl _ _ _ _ _ _) (xload m c _) (xload m c _) (xload m c _) (xload m c _) (xload m c _) (xload m c _) (xload m c _) (xload m c _)
      case h349 => exact sum_slot1 m c
      case h398 => exact sum_slot2 m c
      case h439 => first | exact sum_slot3 m c | (erw [sum_slot3a m c]; exact sum_slot3b m c)))) $$ Hout

  sl_step
  iapply Hk
  unfold midPost
  isplitl [Hat]; · iexact Hat
  isplitr; · iexact HIs0
  isplitr; · iexact HIr0
  isplitl [Has0]; · iexact Has0
  isplitl [Har0]; · iexact Har0
  isplitr; · iexact HIs1
  isplitr; · iexact HIr1
  isplitl [Has1]; · iexact Has1
  isplitl [Har1]; · iexact Har1
  isplitr; · iexact HIs2
  isplitr; · iexact HIr2
  isplitl [Has2]; · iexact Has2
  isplitl [Har2]; · iexact Har2
  isplitr; · iexact HIs3
  isplitr; · iexact HIr3
  isplitl [Has3]; · iexact Has3
  isplitl [Har3]; · iexact Har3
  isplitr; · iexact HIs4
  isplitr; · iexact HIr4
  isplitl [Has4]; · iexact Has4
  isplitl [Har4]; · iexact Har4
  isplitr; · iexact HIs5
  isplitr; · iexact HIr5
  isplitl [Has5]; · iexact Has5
  isplitl [Har5]; · iexact Har5
  isplitr; · iexact HIs6
  isplitr; · iexact HIr6
  isplitl [Has6]; · iexact Has6
  isplitl [Har6]; · iexact Har6
  isplitr; · iexact HIs7
  isplitr; · iexact HIr7
  isplitl [Has7]; · iexact Has7
  isplitl [Har7]; · iexact Har7
  isplitr; · iexact HIs8
  isplitr; · iexact HIr8
  isplitl [Has8]; · iexact Has8
  isplitl [Har8]; · iexact Har8
  isplitr; · iexact HIs9
  isplitr; · iexact HIr9
  isplitl [Has9]; · iexact Has9
  isplitl [Har9]; · iexact Har9
  isplitr; · iexact HIs10
  isplitr; · iexact HIr10
  isplitl [Has10]; · iexact Has10
  isplitl [Har10]; · iexact Har10
  isplitl [HO]; · iexact HO
  isplitl [Hcomm]; · iexact Hcomm
  isplitl [Hout]; · iexact Hout
  isplitl [Hw]; · iexact Hw
  isplitl [Hx]; · iexact Hx
  isplitl [Hxb]; · iexists _; iexact Hxb
  isplitl [Hws0]; · iexists _; iexact Hws0
  isplitl [Hws1]; · iexists _; iexact Hws1
  isplitl [Hst0]; · iexists _; iexact Hst0
  isplitl [Hst1]; · iexists _; iexact Hst1
  isplitl [Hz60]; · iexact Hz60
  isplitl [Hz61]; · iexact Hz61
  isplitl [Hz70]; · iexact Hz70
  iexact Hz71

end Cert.KernelIdeal.P
end
-- ==== Proof.lean ====
/- The claim: the assembly's five conjuncts, from the kernel body's obligation proved on every device for any float instance. -/
import proofs.«900748_g7700000000000749_dist_arsfmx_v7x_xyz2x2x4_z_t512_d1024_v8192_bf16_1_alg».proof.Proof.Assembly
import proofs.«900748_g7700000000000749_dist_arsfmx_v7x_xyz2x2x4_z_t512_d1024_v8192_bf16_1_alg».proof.Proof.KI.Body

noncomputable section

namespace Cert.Proof

theorem claim : Cert.Claim :=
  Cert.Proof.Assembly.claim_of fun F _ m ρ c =>
    Cert.KernelIdeal.P.body_obligation_of m ρ c (fun K W f0 f1 f2 f3 Kt => Cert.KernelIdeal.P.hmid m c K W f0 f1 f2 f3 Kt)

end Cert.Proof

end
